-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x3 : Shape := ⟨2, ![32, 3]⟩
abbrev S3 : Shape := ⟨1, ![3]⟩
abbrev S2x600000 : Shape := ⟨2, ![2, 600000]⟩
abbrev S200000 : Shape := ⟨1, ![200000]⟩
abbrev S2x1200000 : Shape := ⟨2, ![2, 1200000]⟩
abbrev S400000 : Shape := ⟨1, ![400000]⟩
abbrev S2x2400000 : Shape := ⟨2, ![2, 2400000]⟩
abbrev S800000 : Shape := ⟨1, ![800000]⟩
abbrev S2x4800000 : Shape := ⟨2, ![2, 4800000]⟩
abbrev S1600000 : Shape := ⟨1, ![1600000]⟩
abbrev S_ : Shape := ⟨0, ![]⟩
abbrev S1x600000 : Shape := ⟨2, ![1, 600000]⟩
abbrev S600000 : Shape := ⟨1, ![600000]⟩
abbrev S1x1200000 : Shape := ⟨2, ![1, 1200000]⟩
abbrev S1200000 : Shape := ⟨1, ![1200000]⟩
abbrev S1x2400000 : Shape := ⟨2, ![1, 2400000]⟩
abbrev S2400000 : Shape := ⟨1, ![2400000]⟩
abbrev S1x4800000 : Shape := ⟨2, ![1, 4800000]⟩
abbrev S4800000 : Shape := ⟨1, ![4800000]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_
  bcast_S_S200000 : S_.BroadcastsInDim S200000 (![] : Fin 0 → Fin S200000.rank)
  reducesTo_S200000_S_d0 : S200000.ReducesTo [0] S_
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_
  bcast_S_S400000 : S_.BroadcastsInDim S400000 (![] : Fin 0 → Fin S400000.rank)
  reducesTo_S400000_S_d0 : S400000.ReducesTo [0] S_
  slices_S2x2400000_S1x2400000_0_0 : S2x2400000.Slices ![0, 0] S1x2400000
  shapeCasts_S1x2400000_S2400000 : S1x2400000.ShapeCasts S2400000
  bcast_S_S2400000 : S_.BroadcastsInDim S2400000 (![] : Fin 0 → Fin S2400000.rank)
  reducesTo_S2400000_S_d0 : S2400000.ReducesTo [0] S_
  bcast_S_S800000 : S_.BroadcastsInDim S800000 (![] : Fin 0 → Fin S800000.rank)
  reducesTo_S800000_S_d0 : S800000.ReducesTo [0] S_
  slices_S2x4800000_S1x4800000_0_0 : S2x4800000.Slices ![0, 0] S1x4800000
  shapeCasts_S1x4800000_S4800000 : S1x4800000.ShapeCasts S4800000
  bcast_S_S4800000 : S_.BroadcastsInDim S4800000 (![] : Fin 0 → Fin S4800000.rank)
  reducesTo_S4800000_S_d0 : S4800000.ReducesTo [0] S_
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg16 : IVec S1600000 32) (main_v97 : IVec S_ 1) (main_v101 : IVec S4800000 1) (main_v105 : IVec S4800000 1) : IVec S_ 1 :=
  let main_v106 : IVec S4800000 1 := andi main_v101 main_v105
  let main_c_36 : IVec S_ 1 := constantI S_ 1 1#1
  let main_v107 : IVec S_ 1 := (fun x v => Host.reduce IntOp.andi x v reducesTo_S4800000_S_d0 h_S_) main_v106 main_c_36
  let main_v108 : IVec S_ 1 := andi main_v97 main_v107
  let main_c_37 : IVec S_ 32 := constantI S_ 32 4294167296#32
  let main_v109 : IVec S1600000 32 := broadcastInDim S1600000 ![] bcast_S_S1600000 main_c_37
  let main_v110 : IVec S1600000 1 := cmpi .sge main_arg16 main_v109
  let main_c_38 : IVec S_ 32 := constantI S_ 32 800000#32
  let main_v111 : IVec S1600000 32 := broadcastInDim S1600000 ![] bcast_S_S1600000 main_c_38
  let main_v112 : IVec S1600000 1 := cmpi .slt main_arg16 main_v111
  let main_v113 : IVec S1600000 1 := andi main_v110 main_v112
  let main_c_39 : IVec S_ 1 := constantI S_ 1 1#1
  let main_v114 : IVec S_ 1 := (fun x v => Host.reduce IntOp.andi x v reducesTo_S1600000_S_d0 h_S_) main_v113 main_c_39
  let main_v115 : IVec S_ 1 := andi main_v108 main_v114
  main_v115

def fn_part5 {F : FTy → Type} [FloatOps F] (main_arg14 : IVec S800000 32) (main_arg15 : IVec S2x4800000 32) (main_arg16 : IVec S1600000 32) (main_v79 : IVec S_ 1) (main_v83 : IVec S2400000 1) (main_v87 : IVec S2400000 1) : IVec S_ 1 :=
  let main_v88 : IVec S2400000 1 := andi main_v83 main_v87
  let main_c_30 : IVec S_ 1 := constantI S_ 1 1#1
  let main_v89 : IVec S_ 1 := (fun x v => Host.reduce IntOp.andi x v reducesTo_S2400000_S_d0 h_S_) main_v88 main_c_30
  let main_v90 : IVec S_ 1 := andi main_v79 main_v89
  let main_c_31 : IVec S_ 32 := constantI S_ 32 4294567296#32
  let main_v91 : IVec S800000 32 := broadcastInDim S800000 ![] bcast_S_S800000 main_c_31
  let main_v92 : IVec S800000 1 := cmpi .sge main_arg14 main_v91
  let main_c_32 : IVec S_ 32 := constantI S_ 32 400000#32
  let main_v93 : IVec S800000 32 := broadcastInDim S800000 ![] bcast_S_S800000 main_c_32
  let main_v94 : IVec S800000 1 := cmpi .slt main_arg14 main_v93
  let main_v95 : IVec S800000 1 := andi main_v92 main_v94
  let main_c_33 : IVec S_ 1 := constantI S_ 1 1#1
  let main_v96 : IVec S_ 1 := (fun x v => Host.reduce IntOp.andi x v reducesTo_S800000_S_d0 h_S_) main_v95 main_c_33
  let main_v97 : IVec S_ 1 := andi main_v90 main_v96
  let main_v98 : IVec S1x4800000 32 := (extractStridedSlice S1x4800000 ![0, 0] · slices_S2x4800000_S1x4800000_0_0) main_arg15
  let main_v99 : IVec S4800000 32 := shapeCast S4800000 main_v98 shapeCasts_S1x4800000_S4800000
  let main_c_34 : IVec S_ 32 := constantI S_ 32 4294167296#32
  let main_v100 : IVec S4800000 32 := broadcastInDim S4800000 ![] bcast_S_S4800000 main_c_34
  let main_v101 : IVec S4800000 1 := cmpi .sge main_v99 main_v100
  let main_v102 : IVec S1x4800000 32 := (extractStridedSlice S1x4800000 ![0, 0] · slices_S2x4800000_S1x4800000_0_0) main_arg15
  let main_v103 : IVec S4800000 32 := shapeCast S4800000 main_v102 shapeCasts_S1x4800000_S4800000
  let main_c_35 : IVec S_ 32 := constantI S_ 32 800000#32
  let main_v104 : IVec S4800000 32 := broadcastInDim S4800000 ![] bcast_S_S4800000 main_c_35
  let main_v105 : IVec S4800000 1 := cmpi .slt main_v103 main_v104
  fn_part6 (F := F) main_arg16 main_v97 main_v101 main_v105

def fn_part4 {F : FTy → Type} [FloatOps F] (main_arg12 : IVec S400000 32) (main_arg13 : IVec S2x2400000 32) (main_arg14 : IVec S800000 32) (main_arg15 : IVec S2x4800000 32) (main_arg16 : IVec S1600000 32) (main_v61 : IVec S_ 1) (main_v65 : IVec S1200000 1) (main_v69 : IVec S1200000 1) : IVec S_ 1 :=
  let main_v70 : IVec S1200000 1 := andi main_v65 main_v69
  let main_c_24 : IVec S_ 1 := constantI S_ 1 1#1
  let main_v71 : IVec S_ 1 := (fun x v => Host.reduce IntOp.andi x v reducesTo_S1200000_S_d0 h_S_) main_v70 main_c_24
  let main_v72 : IVec S_ 1 := andi main_v61 main_v71
  let main_c_25 : IVec S_ 32 := constantI S_ 32 4294767296#32
  let main_v73 : IVec S400000 32 := broadcastInDim S400000 ![] bcast_S_S400000 main_c_25
  let main_v74 : IVec S400000 1 := cmpi .sge main_arg12 main_v73
  let main_c_26 : IVec S_ 32 := constantI S_ 32 200000#32
  let main_v75 : IVec S400000 32 := broadcastInDim S400000 ![] bcast_S_S400000 main_c_26
  let main_v76 : IVec S400000 1 := cmpi .slt main_arg12 main_v75
  let main_v77 : IVec S400000 1 := andi main_v74 main_v76
  let main_c_27 : IVec S_ 1 := constantI S_ 1 1#1
  let main_v78 : IVec S_ 1 := (fun x v => Host.reduce IntOp.andi x v reducesTo_S400000_S_d0 h_S_) main_v77 main_c_27
  let main_v79 : IVec S_ 1 := andi main_v72 main_v78
  let main_v80 : IVec S1x2400000 32 := (extractStridedSlice S1x2400000 ![0, 0] · slices_S2x2400000_S1x2400000_0_0) main_arg13
  let main_v81 : IVec S2400000 32 := shapeCast S2400000 main_v80 shapeCasts_S1x2400000_S2400000
  let main_c_28 : IVec S_ 32 := constantI S_ 32 4294567296#32
  let main_v82 : IVec S2400000 32 := broadcastInDim S2400000 ![] bcast_S_S2400000 main_c_28
  let main_v83 : IVec S2400000 1 := cmpi .sge main_v81 main_v82
  let main_v84 : IVec S1x2400000 32 := (extractStridedSlice S1x2400000 ![0, 0] · slices_S2x2400000_S1x2400000_0_0) main_arg13
  let main_v85 : IVec S2400000 32 := shapeCast S2400000 main_v84 shapeCasts_S1x2400000_S2400000
  let main_c_29 : IVec S_ 32 := constantI S_ 32 400000#32
  let main_v86 : IVec S2400000 32 := broadcastInDim S2400000 ![] bcast_S_S2400000 main_c_29
  let main_v87 : IVec S2400000 1 := cmpi .slt main_v85 main_v86
  fn_part5 (F := F) main_arg14 main_arg15 main_arg16 main_v79 main_v83 main_v87

def fn_part3 {F : FTy → Type} [FloatOps F] (main_arg10 : IVec S200000 32) (main_arg11 : IVec S2x1200000 32) (main_arg12 : IVec S400000 32) (main_arg13 : IVec S2x2400000 32) (main_arg14 : IVec S800000 32) (main_arg15 : IVec S2x4800000 32) (main_arg16 : IVec S1600000 32) (main_v43 : IVec S_ 1) (main_v47 : IVec S600000 1) (main_v51 : IVec S600000 1) : IVec S_ 1 :=
  let main_v52 : IVec S600000 1 := andi main_v47 main_v51
  let main_c_18 : IVec S_ 1 := constantI S_ 1 1#1
  let main_v53 : IVec S_ 1 := (fun x v => Host.reduce IntOp.andi x v reducesTo_S600000_S_d0 h_S_) main_v52 main_c_18
  let main_v54 : IVec S_ 1 := andi main_v43 main_v53
  let main_c_19 : IVec S_ 32 := constantI S_ 32 4294867296#32
  let main_v55 : IVec S200000 32 := broadcastInDim S200000 ![] bcast_S_S200000 main_c_19
  let main_v56 : IVec S200000 1 := cmpi .sge main_arg10 main_v55
  let main_c_20 : IVec S_ 32 := constantI S_ 32 100000#32
  let main_v57 : IVec S200000 32 := broadcastInDim S200000 ![] bcast_S_S200000 main_c_20
  let main_v58 : IVec S200000 1 := cmpi .slt main_arg10 main_v57
  let main_v59 : IVec S200000 1 := andi main_v56 main_v58
  let main_c_21 : IVec S_ 1 := constantI S_ 1 1#1
  let main_v60 : IVec S_ 1 := (fun x v => Host.reduce IntOp.andi x v reducesTo_S200000_S_d0 h_S_) main_v59 main_c_21
  let main_v61 : IVec S_ 1 := andi main_v54 main_v60
  let main_v62 : IVec S1x1200000 32 := (extractStridedSlice S1x1200000 ![0, 0] · slices_S2x1200000_S1x1200000_0_0) main_arg11
  let main_v63 : IVec S1200000 32 := shapeCast S1200000 main_v62 shapeCasts_S1x1200000_S1200000
  let main_c_22 : IVec S_ 32 := constantI S_ 32 4294767296#32
  let main_v64 : IVec S1200000 32 := broadcastInDim S1200000 ![] bcast_S_S1200000 main_c_22
  let main_v65 : IVec S1200000 1 := cmpi .sge main_v63 main_v64
  let main_v66 : IVec S1x1200000 32 := (extractStridedSlice S1x1200000 ![0, 0] · slices_S2x1200000_S1x1200000_0_0) main_arg11
  let main_v67 : IVec S1200000 32 := shapeCast S1200000 main_v66 shapeCasts_S1x1200000_S1200000
  let main_c_23 : IVec S_ 32 := constantI S_ 32 200000#32
  let main_v68 : IVec S1200000 32 := broadcastInDim S1200000 ![] bcast_S_S1200000 main_c_23
  let main_v69 : IVec S1200000 1 := cmpi .slt main_v67 main_v68
  fn_part4 (F := F) main_arg12 main_arg13 main_arg14 main_arg15 main_arg16 main_v61 main_v65 main_v69

def fn_part2 {F : FTy → Type} [FloatOps F] (main_arg7 : FVec F S32x3 .f32) (main_arg8 : FVec F S3 .f32) (main_arg9 : IVec S2x600000 32) (main_arg10 : IVec S200000 32) (main_arg11 : IVec S2x1200000 32) (main_arg12 : IVec S400000 32) (main_arg13 : IVec S2x2400000 32) (main_arg14 : IVec S800000 32) (main_arg15 : IVec S2x4800000 32) (main_arg16 : IVec S1600000 32) (main_v33 : IVec S_ 1) : IVec S_ 1 :=
  let main_v34 : FVec F S32x3 .f32 := Host.absf main_arg7
  let main_cst_12 : FVec F S_ .f32 := constant S_ .f32 0x7F800000#32
  let main_v35 : FVec F S32x3 .f32 := broadcastInDim S32x3 ![] bcast_S_S32x3 main_cst_12
  let main_v36 : IVec S32x3 1 := cmpf .olt main_v34 main_v35
  let main_c_13 : IVec S_ 1 := constantI S_ 1 1#1
  let main_v37 : IVec S_ 1 := (fun x v => Host.reduce IntOp.andi x v reducesTo_S32x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : IVec S1x600000 32 := (extractStridedSlice S1x600000 ![0, 0] · slices_S2x600000_S1x600000_0_0) main_arg9
  let main_v45 : IVec S600000 32 := shapeCast S600000 main_v44 shapeCasts_S1x600000_S600000
  let main_c_16 : IVec S_ 32 := constantI S_ 32 4294867296#32
  let main_v46 : IVec S600000 32 := broadcastInDim S600000 ![] bcast_S_S600000 main_c_16
  let main_v47 : IVec S600000 1 := cmpi .sge main_v45 main_v46
  let main_v48 : IVec S1x600000 32 := (extractStridedSlice S1x600000 ![0, 0] · slices_S2x600000_S1x600000_0_0) main_arg9
  let main_v49 : IVec S600000 32 := shapeCast S600000 main_v48 shapeCasts_S1x600000_S600000
  let main_c_17 : IVec S_ 32 := constantI S_ 32 100000#32
  let main_v50 : IVec S600000 32 := broadcastInDim S600000 ![] bcast_S_S600000 main_c_17
  let main_v51 : IVec S600000 1 := cmpi .slt main_v49 main_v50
  fn_part3 (F := F) main_arg10 main_arg11 main_arg12 main_arg13 main_arg14 main_arg15 main_arg16 main_v43 main_v47 main_v51

def fn_part1 {F : FTy → Type} [FloatOps F] (main_arg4 : FVec F S64 .f32) (main_arg5 : FVec F S64x32 .f32) (main_arg6 : FVec F S32 .f32) (main_arg7 : FVec F S32x3 .f32) (main_arg8 : FVec F S3 .f32) (main_arg9 : IVec S2x600000 32) (main_arg10 : IVec S200000 32) (main_arg11 : IVec S2x1200000 32) (main_arg12 : IVec S400000 32) (main_arg13 : IVec S2x2400000 32) (main_arg14 : IVec S800000 32) (main_arg15 : IVec S2x4800000 32) (main_arg16 : IVec S1600000 32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x3 .f32) (main_arg1 : FVec F S3x32 .f32) (main_arg2 : FVec F S32 .f32) (main_arg3 : FVec F S32x64 .f32) (main_arg4 : FVec F S64 .f32) (main_arg5 : FVec F S64x32 .f32) (main_arg6 : FVec F S32 .f32) (main_arg7 : FVec F S32x3 .f32) (main_arg8 : FVec F S3 .f32) (main_arg9 : IVec S2x600000 32) (main_arg10 : IVec S200000 32) (main_arg11 : IVec S2x1200000 32) (main_arg12 : IVec S400000 32) (main_arg13 : IVec S2x2400000 32) (main_arg14 : IVec S800000 32) (main_arg15 : IVec S2x4800000 32) (main_arg16 : IVec S1600000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg1
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x3 : Shape := ⟨2, ![100000, 3]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x3 : Shape := ⟨2, ![32, 3]⟩
abbrev S3 : Shape := ⟨1, ![3]⟩
abbrev S2x600000 : Shape := ⟨2, ![2, 600000]⟩
abbrev S200000 : Shape := ⟨1, ![200000]⟩
abbrev S2x1200000 : Shape := ⟨2, ![2, 1200000]⟩
abbrev S400000 : Shape := ⟨1, ![400000]⟩
abbrev S2x2400000 : Shape := ⟨2, ![2, 2400000]⟩
abbrev S800000 : Shape := ⟨1, ![800000]⟩
abbrev S2x4800000 : Shape := ⟨2, ![2, 4800000]⟩
abbrev S1600000 : Shape := ⟨1, ![1600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S100000x32 : Shape := ⟨2, ![100000, 32]⟩
abbrev S10000x3 : Shape := ⟨2, ![10000, 3]⟩
abbrev S10000x1 : Shape := ⟨2, ![10000, 1]⟩
abbrev S10000x32 : Shape := ⟨2, ![10000, 32]⟩
abbrev S1 : Shape := ⟨1, ![1]⟩
abbrev S1x1 : Shape := ⟨2, ![1, 1]⟩
abbrev S700000x32 : Shape := ⟨2, ![700000, 32]⟩
abbrev S1x32 : Shape := ⟨2, ![1, 32]⟩
abbrev S200000x1 : Shape := ⟨2, ![200000, 1]⟩
abbrev S200000x32 : Shape := ⟨2, ![200000, 32]⟩
abbrev S1x1200000 : Shape := ⟨2, ![1, 1200000]⟩
abbrev S1200000 : Shape := ⟨1, ![1200000]⟩
abbrev S1400000 : Shape := ⟨1, ![1400000]⟩
abbrev S1400000x1 : Shape := ⟨2, ![1400000, 1]⟩
abbrev S200000x64 : Shape := ⟨2, ![200000, 64]⟩
abbrev S10000x64 : Shape := ⟨2, ![10000, 64]⟩
abbrev S1400000x64 : Shape := ⟨2, ![1400000, 64]⟩
abbrev S1x64 : Shape := ⟨2, ![1, 64]⟩
abbrev S400000x1 : Shape := ⟨2, ![400000, 1]⟩
abbrev S400000x64 : Shape := ⟨2, ![400000, 64]⟩
abbrev S1x2400000 : Shape := ⟨2, ![1, 2400000]⟩
abbrev S2400000 : Shape := ⟨1, ![2400000]⟩
abbrev S2800000 : Shape := ⟨1, ![2800000]⟩
abbrev S2800000x1 : Shape := ⟨2, ![2800000, 1]⟩
abbrev S400000x32 : Shape := ⟨2, ![400000, 32]⟩
abbrev S2800000x32 : Shape := ⟨2, ![2800000, 32]⟩
abbrev S800000x1 : Shape := ⟨2, ![800000, 1]⟩
abbrev S800000x32 : Shape := ⟨2, ![800000, 32]⟩
abbrev S1x4800000 : Shape := ⟨2, ![1, 4800000]⟩
abbrev S4800000 : Shape := ⟨1, ![4800000]⟩
abbrev S5600000 : Shape := ⟨1, ![5600000]⟩
abbrev S5600000x1 : Shape := ⟨2, ![5600000, 1]⟩
abbrev S800000x3 : Shape := ⟨2, ![800000, 3]⟩
abbrev S5600000x3 : Shape := ⟨2, ![5600000, 3]⟩
abbrev S1x3 : Shape := ⟨2, ![1, 3]⟩
abbrev S1600000x1 : Shape := ⟨2, ![1600000, 1]⟩
abbrev S1600000x3 : Shape := ⟨2, ![1600000, 3]⟩

abbrev nBuf : Space → Nat
  | .hbm => 317
  | .vmem => 56
  | .smem => 0
  | _ => 0

abbrev hbmTy0_0 (i : Nat) : BufTy := match i % 128 with
  | 0 => ⟨S100000x3, .f32⟩
  | 1 => ⟨S3x32, .f32⟩
  | 2 => ⟨S32, .f32⟩
  | 3 => ⟨S32x64, .f32⟩
  | 4 => ⟨S64, .f32⟩
  | 5 => ⟨S64x32, .f32⟩
  | 6 => ⟨S32, .f32⟩
  | 7 => ⟨S32x3, .f32⟩
  | 8 => ⟨S3, .f32⟩
  | 9 => ⟨S2x600000, .i32⟩
  | 10 => ⟨S200000, .i32⟩
  | 11 => ⟨S2x1200000, .i32⟩
  | 12 => ⟨S400000, .i32⟩
  | 13 => ⟨S2x2400000, .i32⟩
  | 14 => ⟨S800000, .i32⟩
  | 15 => ⟨S2x4800000, .i32⟩
  | 16 => ⟨S1600000, .i32⟩
  | 17 => ⟨S1x600000, .i32⟩
  | 18 => ⟨S600000, .i32⟩
  | 19 => ⟨S1x600000, .i32⟩
  | 20 => ⟨S600000, .i32⟩
  | 21 => ⟨S100000, .i32⟩
  | 22 => ⟨S700000, .i32⟩
  | 23 => ⟨S700000, .i32⟩
  | 24 => ⟨S_, .f32⟩
  | 25 => ⟨S700000, .f32⟩
  | 26 => ⟨S_, .f32⟩
  | 27 => ⟨S100000, .f32⟩
  | 28 => ⟨S700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S100000, .f32⟩
  | 36 => ⟨S100000, .f32⟩
  | 37 => ⟨S100000x1, .f32⟩
  | 38 => ⟨S100000x32, .f32⟩
  | 39 => ⟨S_, .i32⟩
  | 40 => ⟨S700000, .i32⟩
  | 41 => ⟨S700000, .i1⟩
  | 42 => ⟨S_, .i32⟩
  | 43 => ⟨S700000, .i32⟩
  | 44 => ⟨S700000, .i32⟩
  | 45 => ⟨S700000, .i32⟩
  | 46 => ⟨S700000x1, .i32⟩
  | 47 => ⟨S1, .i32⟩
  | 48 => ⟨S_, .i32⟩
  | 49 => ⟨S700000x1, .i32⟩
  | 50 => ⟨S700000x1, .i1⟩
  | 51 => ⟨S1x1, .i32⟩
  | 52 => ⟨S700000x1, .i32⟩
  | 53 => ⟨S700000x1, .i1⟩
  | 54 => ⟨S700000x1, .i1⟩
  | 55 => ⟨S_, .i1⟩
  | 56 => ⟨S700000, .i1⟩
  | 57 => ⟨S700000x32, .f32⟩
  | 58 => ⟨S700000x32, .i1⟩
  | 59 => ⟨S_, .f32⟩
  | 60 => ⟨S700000x32, .f32⟩
  | 61 => ⟨S700000x32, .f32⟩
  | 62 => ⟨S_, .f32⟩
  | 63 => ⟨S100000x32, .f32⟩
  | 64 => ⟨S700000x1, .i32⟩
  | 65 => ⟨S100000x32, .f32⟩
  | 66 => ⟨S100000x1, .f32⟩
  | 67 => ⟨S1x32, .f32⟩
  | 68 => ⟨S100000x32, .f32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S1, .i32⟩
  | 78 => ⟨S_, .i32⟩
  | 79 => ⟨S200000x1, .i32⟩
  | 80 => ⟨S200000x1, .i1⟩
  | 81 => ⟨S1x1, .i32⟩
  | 82 => ⟨S200000x1, .i32⟩
  | 83 => ⟨S200000x1, .i1⟩
  | 84 => ⟨S200000x1, .i1⟩
  | 85 => ⟨S_, .i1⟩
  | 86 => ⟨S200000, .i1⟩
  | 87 => ⟨S200000x32, .f32⟩
  | 88 => ⟨S200000x32, .i1⟩
  | 89 => ⟨S_, .f32⟩
  | 90 => ⟨S200000x32, .f32⟩
  | 91 => ⟨S200000x32, .f32⟩
  | 92 => ⟨S1x1200000, .i32⟩
  | 93 => ⟨S1200000, .i32⟩
  | 94 => ⟨S1x1200000, .i32⟩
  | 95 => ⟨S1200000, .i32⟩
  | 96 => ⟨S200000, .i32⟩
  | 97 => ⟨S1400000, .i32⟩
  | 98 => ⟨S1400000, .i32⟩
  | 99 => ⟨S_, .f32⟩
  | 100 => ⟨S1400000, .f32⟩
  | 101 => ⟨S_, .f32⟩
  | 102 => ⟨S200000, .f32⟩
  | 103 => ⟨S1400000x1, .i32⟩
  | 104 => ⟨S200000, .f32⟩
  | 105 => ⟨S_, .f32⟩
  | 106 => ⟨S200000, .f32⟩
  | 107 => ⟨S200000, .i1⟩
  | 108 => ⟨S200000, .f32⟩
  | 109 => ⟨S_, .f32⟩
  | 110 => ⟨S200000, .f32⟩
  | 111 => ⟨S200000, .f32⟩
  | 112 => ⟨S200000x1, .f32⟩
  | 113 => ⟨S200000x64, .f32⟩
  | 114 => ⟨S_, .i32⟩
  | 115 => ⟨S1400000, .i32⟩
  | 116 => ⟨S1400000, .i1⟩
  | 117 => ⟨S_, .i32⟩
  | 118 => ⟨S1400000, .i32⟩
  | 119 => ⟨S1400000, .i32⟩
  | 120 => ⟨S1400000, .i32⟩
  | 121 => ⟨S1400000x1, .i32⟩
  | 122 => ⟨S1, .i32⟩
  | 123 => ⟨S_, .i32⟩
  | 124 => ⟨S1400000x1, .i32⟩
  | 125 => ⟨S1400000x1, .i1⟩
  | 126 => ⟨S1x1, .i32⟩
  | 127 => ⟨S1400000x1, .i32⟩
  | _ => ⟨S100000x3, .f32⟩

abbrev hbmTy0_1 (i : Nat) : BufTy := match i % 128 with
  | 0 => ⟨S1400000x1, .i1⟩
  | 1 => ⟨S1400000x1, .i1⟩
  | 2 => ⟨S_, .i1⟩
  | 3 => ⟨S1400000, .i1⟩
  | 4 => ⟨S1400000x64, .f32⟩
  | 5 => ⟨S1400000x64, .i1⟩
  | 6 => ⟨S_, .f32⟩
  | 7 => ⟨S1400000x64, .f32⟩
  | 8 => ⟨S1400000x64, .f32⟩
  | 9 => ⟨S_, .f32⟩
  | 10 => ⟨S200000x64, .f32⟩
  | 11 => ⟨S1400000x1, .i32⟩
  | 12 => ⟨S200000x64, .f32⟩
  | 13 => ⟨S200000x1, .f32⟩
  | 14 => ⟨S1x64, .f32⟩
  | 15 => ⟨S200000x64, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S1, .i32⟩
  | 25 => ⟨S_, .i32⟩
  | 26 => ⟨S400000x1, .i32⟩
  | 27 => ⟨S400000x1, .i1⟩
  | 28 => ⟨S1x1, .i32⟩
  | 29 => ⟨S400000x1, .i32⟩
  | 30 => ⟨S400000x1, .i1⟩
  | 31 => ⟨S400000x1, .i1⟩
  | 32 => ⟨S_, .i1⟩
  | 33 => ⟨S400000, .i1⟩
  | 34 => ⟨S400000x64, .f32⟩
  | 35 => ⟨S400000x64, .i1⟩
  | 36 => ⟨S_, .f32⟩
  | 37 => ⟨S400000x64, .f32⟩
  | 38 => ⟨S400000x64, .f32⟩
  | 39 => ⟨S1x2400000, .i32⟩
  | 40 => ⟨S2400000, .i32⟩
  | 41 => ⟨S1x2400000, .i32⟩
  | 42 => ⟨S2400000, .i32⟩
  | 43 => ⟨S400000, .i32⟩
  | 44 => ⟨S2800000, .i32⟩
  | 45 => ⟨S2800000, .i32⟩
  | 46 => ⟨S_, .f32⟩
  | 47 => ⟨S2800000, .f32⟩
  | 48 => ⟨S_, .f32⟩
  | 49 => ⟨S400000, .f32⟩
  | 50 => ⟨S2800000x1, .i32⟩
  | 51 => ⟨S400000, .f32⟩
  | 52 => ⟨S_, .f32⟩
  | 53 => ⟨S400000, .f32⟩
  | 54 => ⟨S400000, .i1⟩
  | 55 => ⟨S400000, .f32⟩
  | 56 => ⟨S_, .f32⟩
  | 57 => ⟨S400000, .f32⟩
  | 58 => ⟨S400000, .f32⟩
  | 59 => ⟨S400000x1, .f32⟩
  | 60 => ⟨S400000x32, .f32⟩
  | 61 => ⟨S_, .i32⟩
  | 62 => ⟨S2800000, .i32⟩
  | 63 => ⟨S2800000, .i1⟩
  | 64 => ⟨S_, .i32⟩
  | 65 => ⟨S2800000, .i32⟩
  | 66 => ⟨S2800000, .i32⟩
  | 67 => ⟨S2800000, .i32⟩
  | 68 => ⟨S2800000x1, .i32⟩
  | 69 => ⟨S1, .i32⟩
  | 70 => ⟨S_, .i32⟩
  | 71 => ⟨S2800000x1, .i32⟩
  | 72 => ⟨S2800000x1, .i1⟩
  | 73 => ⟨S1x1, .i32⟩
  | 74 => ⟨S2800000x1, .i32⟩
  | 75 => ⟨S2800000x1, .i1⟩
  | 76 => ⟨S2800000x1, .i1⟩
  | 77 => ⟨S_, .i1⟩
  | 78 => ⟨S2800000, .i1⟩
  | 79 => ⟨S2800000x32, .f32⟩
  | 80 => ⟨S2800000x32, .i1⟩
  | 81 => ⟨S_, .f32⟩
  | 82 => ⟨S2800000x32, .f32⟩
  | 83 => ⟨S2800000x32, .f32⟩
  | 84 => ⟨S_, .f32⟩
  | 85 => ⟨S400000x32, .f32⟩
  | 86 => ⟨S2800000x1, .i32⟩
  | 87 => ⟨S400000x32, .f32⟩
  | 88 => ⟨S400000x1, .f32⟩
  | 89 => ⟨S1x32, .f32⟩
  | 90 => ⟨S400000x32, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S1, .i32⟩
  | 100 => ⟨S_, .i32⟩
  | 101 => ⟨S800000x1, .i32⟩
  | 102 => ⟨S800000x1, .i1⟩
  | 103 => ⟨S1x1, .i32⟩
  | 104 => ⟨S800000x1, .i32⟩
  | 105 => ⟨S800000x1, .i1⟩
  | 106 => ⟨S800000x1, .i1⟩
  | 107 => ⟨S_, .i1⟩
  | 108 => ⟨S800000, .i1⟩
  | 109 => ⟨S800000x32, .f32⟩
  | 110 => ⟨S800000x32, .i1⟩
  | 111 => ⟨S_, .f32⟩
  | 112 => ⟨S800000x32, .f32⟩
  | 113 => ⟨S800000x32, .f32⟩
  | 114 => ⟨S1x4800000, .i32⟩
  | 115 => ⟨S4800000, .i32⟩
  | 116 => ⟨S1x4800000, .i32⟩
  | 117 => ⟨S4800000, .i32⟩
  | 118 => ⟨S800000, .i32⟩
  | 119 => ⟨S5600000, .i32⟩
  | 120 => ⟨S5600000, .i32⟩
  | 121 => ⟨S_, .f32⟩
  | 122 => ⟨S5600000, .f32⟩
  | 123 => ⟨S_, .f32⟩
  | 124 => ⟨S800000, .f32⟩
  | 125 => ⟨S5600000x1, .i32⟩
  | 126 => ⟨S800000, .f32⟩
  | 127 => ⟨S_, .f32⟩
  | _ => ⟨S100000x3, .f32⟩

abbrev hbmTy0_2 (i : Nat) : BufTy := match i % 128 with
  | 0 => ⟨S800000, .f32⟩
  | 1 => ⟨S800000, .i1⟩
  | 2 => ⟨S800000, .f32⟩
  | 3 => ⟨S_, .f32⟩
  | 4 => ⟨S800000, .f32⟩
  | 5 => ⟨S800000, .f32⟩
  | 6 => ⟨S800000x1, .f32⟩
  | 7 => ⟨S800000x3, .f32⟩
  | 8 => ⟨S_, .i32⟩
  | 9 => ⟨S5600000, .i32⟩
  | 10 => ⟨S5600000, .i1⟩
  | 11 => ⟨S_, .i32⟩
  | 12 => ⟨S5600000, .i32⟩
  | 13 => ⟨S5600000, .i32⟩
  | 14 => ⟨S5600000, .i32⟩
  | 15 => ⟨S5600000x1, .i32⟩
  | 16 => ⟨S1, .i32⟩
  | 17 => ⟨S_, .i32⟩
  | 18 => ⟨S5600000x1, .i32⟩
  | 19 => ⟨S5600000x1, .i1⟩
  | 20 => ⟨S1x1, .i32⟩
  | 21 => ⟨S5600000x1, .i32⟩
  | 22 => ⟨S5600000x1, .i1⟩
  | 23 => ⟨S5600000x1, .i1⟩
  | 24 => ⟨S_, .i1⟩
  | 25 => ⟨S5600000, .i1⟩
  | 26 => ⟨S5600000x3, .f32⟩
  | 27 => ⟨S5600000x3, .i1⟩
  | 28 => ⟨S_, .f32⟩
  | 29 => ⟨S5600000x3, .f32⟩
  | 30 => ⟨S5600000x3, .f32⟩
  | 31 => ⟨S_, .f32⟩
  | 32 => ⟨S800000x3, .f32⟩
  | 33 => ⟨S5600000x1, .i32⟩
  | 34 => ⟨S800000x3, .f32⟩
  | 35 => ⟨S800000x1, .f32⟩
  | 36 => ⟨S1x3, .f32⟩
  | 37 => ⟨S800000x3, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1, .i32⟩
  | 47 => ⟨S_, .i32⟩
  | 48 => ⟨S1600000x1, .i32⟩
  | 49 => ⟨S1600000x1, .i1⟩
  | 50 => ⟨S1x1, .i32⟩
  | 51 => ⟨S1600000x1, .i32⟩
  | 52 => ⟨S1600000x1, .i1⟩
  | 53 => ⟨S1600000x1, .i1⟩
  | 54 => ⟨S_, .i1⟩
  | 55 => ⟨S1600000, .i1⟩
  | 56 => ⟨S1600000x3, .f32⟩
  | 57 => ⟨S1600000x3, .i1⟩
  | 58 => ⟨S_, .f32⟩
  | 59 => ⟨S1600000x3, .f32⟩
  | 60 => ⟨S1600000x3, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x32, .f32⟩
  | .local _ .vmem, ⟨3, _⟩ => ⟨S10000x1, .f32⟩
  | .local _ .vmem, ⟨4, _⟩ => ⟨S10000x1, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S10000x1, .f32⟩
  | .local _ .vmem, ⟨32, _⟩ => ⟨S10000x1, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x1, .f32⟩
  | .local _ .vmem, ⟨38, _⟩ => ⟨S10000x1, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S32x3, .f32⟩
  | .local _ .vmem, ⟨45, _⟩ => ⟨S10000x1, .f32⟩
  | .local _ .vmem, ⟨46, _⟩ => ⟨S10000x1, .f32⟩
  | .local _ .vmem, ⟨47, _⟩ => ⟨S10000x3, .f32⟩
  | .local _ .vmem, ⟨48, _⟩ => ⟨S10000x3, .f32⟩
  | .local _ .vmem, ⟨49, _⟩ => ⟨S10000x3, .f32⟩
  | .local _ .vmem, ⟨50, _⟩ => ⟨S10000x3, .f32⟩
  | .local _ .vmem, ⟨51, _⟩ => ⟨S10000x1, .f32⟩
  | .local _ .vmem, ⟨52, _⟩ => ⟨S10000x1, .f32⟩
  | .local _ .vmem, ⟨53, _⟩ => ⟨S1x3, .f32⟩
  | .local _ .vmem, ⟨54, _⟩ => ⟨S10000x3, .f32⟩
  | .local _ .vmem, ⟨55, _⟩ => ⟨S10000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v18 : Ref sig .tc := ⟨.hbm, 61, rfl⟩
abbrev main_cst_3 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_4 : Ref sig .tc := ⟨.hbm, 99, rfl⟩
abbrev main_v33 : Ref sig .tc := ⟨.hbm, 100, rfl⟩
abbrev main_cst_5 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_cst_6 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_cst_7 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v44 : Ref sig .tc := ⟨.hbm, 136, rfl⟩
abbrev main_cst_8 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v51 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_cst_9 : Ref sig .tc := ⟨.hbm, 174, rfl⟩
abbrev main_v59 : Ref sig .tc := ⟨.hbm, 175, rfl⟩
abbrev main_cst_10 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_cst_11 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_cst_12 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_v14 : Ref sig .tc := ⟨.hbm, 208, rfl⟩
abbrev main_call7_cst : Ref sig .tc := ⟨.hbm, 209, rfl⟩
abbrev main_call7_v15 : Ref sig .tc := ⟨.hbm, 210, rfl⟩
abbrev main_v70 : Ref sig .tc := ⟨.hbm, 211, rfl⟩
abbrev main_cst_13 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_call8_c : Ref sig .tc := ⟨.hbm, 219, rfl⟩
abbrev main_call8_v0 : Ref sig .tc := ⟨.hbm, 220, rfl⟩
abbrev main_call8_v1 : Ref sig .tc := ⟨.hbm, 221, rfl⟩
abbrev main_call8_c_0 : Ref sig .tc := ⟨.hbm, 222, rfl⟩
abbrev main_call8_v2 : Ref sig .tc := ⟨.hbm, 223, rfl⟩
abbrev main_call8_v3 : Ref sig .tc := ⟨.hbm, 224, rfl⟩
abbrev main_call8_v4 : Ref sig .tc := ⟨.hbm, 225, rfl⟩
abbrev main_call8_v5 : Ref sig .tc := ⟨.hbm, 226, rfl⟩
abbrev main_call8_c_1 : Ref sig .tc := ⟨.hbm, 227, rfl⟩
abbrev main_call8_c_2 : Ref sig .tc := ⟨.hbm, 228, rfl⟩
abbrev main_call8_v6 : Ref sig .tc := ⟨.hbm, 229, rfl⟩
abbrev main_call8_v7 : Ref sig .tc := ⟨.hbm, 230, rfl⟩
abbrev main_call8_v8 : Ref sig .tc := ⟨.hbm, 231, rfl⟩
abbrev main_call8_v9 : Ref sig .tc := ⟨.hbm, 232, rfl⟩
abbrev main_call8_v10 : Ref sig .tc := ⟨.hbm, 233, rfl⟩
abbrev main_call8_v11 : Ref sig .tc := ⟨.hbm, 234, rfl⟩
abbrev main_call8_c_3 : Ref sig .tc := ⟨.hbm, 235, rfl⟩
abbrev main_call8_v12 : Ref sig .tc := ⟨.hbm, 236, rfl⟩
abbrev main_call8_v13 : Ref sig .tc := ⟨.hbm, 237, rfl⟩
abbrev main_call8_v14 : Ref sig .tc := ⟨.hbm, 238, rfl⟩
abbrev main_call8_cst : Ref sig .tc := ⟨.hbm, 239, rfl⟩
abbrev main_call8_v15 : Ref sig .tc := ⟨.hbm, 240, rfl⟩
abbrev main_v77 : Ref sig .tc := ⟨.hbm, 241, rfl⟩
abbrev main_v78 : Ref sig .tc := ⟨.hbm, 242, rfl⟩
abbrev main_v79 : Ref sig .tc := ⟨.hbm, 243, rfl⟩
abbrev main_v80 : Ref sig .tc := ⟨.hbm, 244, rfl⟩
abbrev main_v81 : Ref sig .tc := ⟨.hbm, 245, rfl⟩
abbrev main_v82 : Ref sig .tc := ⟨.hbm, 246, rfl⟩
abbrev main_v83 : Ref sig .tc := ⟨.hbm, 247, rfl⟩
abbrev main_v84 : Ref sig .tc := ⟨.hbm, 248, rfl⟩
abbrev main_cst_14 : Ref sig .tc := ⟨.hbm, 249, rfl⟩
abbrev main_v85 : Ref sig .tc := ⟨.hbm, 250, rfl⟩
abbrev main_cst_15 : Ref sig .tc := ⟨.hbm, 251, rfl⟩
abbrev main_v86 : Ref sig .tc := ⟨.hbm, 252, rfl⟩
abbrev main_v87 : Ref sig .tc := ⟨.hbm, 253, rfl⟩
abbrev main_v88 : Ref sig .tc := ⟨.hbm, 254, rfl⟩
abbrev main_cst_16 : Ref sig .tc := ⟨.hbm, 255, rfl⟩
abbrev main_v89 : Ref sig .tc := ⟨.hbm, 256, rfl⟩
abbrev main_v90 : Ref sig .tc := ⟨.hbm, 257, rfl⟩
abbrev main_v91 : Ref sig .tc := ⟨.hbm, 258, rfl⟩
abbrev main_cst_17 : Ref sig .tc := ⟨.hbm, 259, rfl⟩
abbrev main_v92 : Ref sig .tc := ⟨.hbm, 260, rfl⟩
abbrev main_v93 : Ref sig .tc := ⟨.hbm, 261, rfl⟩
abbrev main_v94 : Ref sig .tc := ⟨.hbm, 262, rfl⟩
abbrev main_v95 : Ref sig .tc := ⟨.hbm, 263, rfl⟩
abbrev main_call10_c : Ref sig .tc := ⟨.hbm, 264, rfl⟩
abbrev main_call10_v0 : Ref sig .tc := ⟨.hbm, 265, rfl⟩
abbrev main_call10_v1 : Ref sig .tc := ⟨.hbm, 266, rfl⟩
abbrev main_call10_c_0 : Ref sig .tc := ⟨.hbm, 267, rfl⟩
abbrev main_call10_v2 : Ref sig .tc := ⟨.hbm, 268, rfl⟩
abbrev main_call10_v3 : Ref sig .tc := ⟨.hbm, 269, rfl⟩
abbrev main_call10_v4 : Ref sig .tc := ⟨.hbm, 270, rfl⟩
abbrev main_call10_v5 : Ref sig .tc := ⟨.hbm, 271, rfl⟩
abbrev main_call10_c_1 : Ref sig .tc := ⟨.hbm, 272, rfl⟩
abbrev main_call10_c_2 : Ref sig .tc := ⟨.hbm, 273, rfl⟩
abbrev main_call10_v6 : Ref sig .tc := ⟨.hbm, 274, rfl⟩
abbrev main_call10_v7 : Ref sig .tc := ⟨.hbm, 275, rfl⟩
abbrev main_call10_v8 : Ref sig .tc := ⟨.hbm, 276, rfl⟩
abbrev main_call10_v9 : Ref sig .tc := ⟨.hbm, 277, rfl⟩
abbrev main_call10_v10 : Ref sig .tc := ⟨.hbm, 278, rfl⟩
abbrev main_call10_v11 : Ref sig .tc := ⟨.hbm, 279, rfl⟩
abbrev main_call10_c_3 : Ref sig .tc := ⟨.hbm, 280, rfl⟩
abbrev main_call10_v12 : Ref sig .tc := ⟨.hbm, 281, rfl⟩
abbrev main_call10_v13 : Ref sig .tc := ⟨.hbm, 282, rfl⟩
abbrev main_call10_v14 : Ref sig .tc := ⟨.hbm, 283, rfl⟩
abbrev main_call10_cst : Ref sig .tc := ⟨.hbm, 284, rfl⟩
abbrev main_call10_v15 : Ref sig .tc := ⟨.hbm, 285, rfl⟩
abbrev main_v96 : Ref sig .tc := ⟨.hbm, 286, rfl⟩
abbrev main_cst_18 : Ref sig .tc := ⟨.hbm, 287, rfl⟩
abbrev main_v97 : Ref sig .tc := ⟨.hbm, 288, rfl⟩
abbrev main_v98 : Ref sig .tc := ⟨.hbm, 289, rfl⟩
abbrev main_v99 : Ref sig .tc := ⟨.hbm, 290, rfl⟩
abbrev main_v100 : Ref sig .tc := ⟨.hbm, 291, rfl⟩
abbrev main_v101 : Ref sig .tc := ⟨.hbm, 292, rfl⟩
abbrev main_v102 : Ref sig .tc := ⟨.hbm, 293, rfl⟩
abbrev main_call11_c : Ref sig .tc := ⟨.hbm, 294, rfl⟩
abbrev main_call11_v0 : Ref sig .tc := ⟨.hbm, 295, rfl⟩
abbrev main_call11_v1 : Ref sig .tc := ⟨.hbm, 296, rfl⟩
abbrev main_call11_c_0 : Ref sig .tc := ⟨.hbm, 297, rfl⟩
abbrev main_call11_v2 : Ref sig .tc := ⟨.hbm, 298, rfl⟩
abbrev main_call11_v3 : Ref sig .tc := ⟨.hbm, 299, rfl⟩
abbrev main_call11_v4 : Ref sig .tc := ⟨.hbm, 300, rfl⟩
abbrev main_call11_v5 : Ref sig .tc := ⟨.hbm, 301, rfl⟩
abbrev main_call11_c_1 : Ref sig .tc := ⟨.hbm, 302, rfl⟩
abbrev main_call11_c_2 : Ref sig .tc := ⟨.hbm, 303, rfl⟩
abbrev main_call11_v6 : Ref sig .tc := ⟨.hbm, 304, rfl⟩
abbrev main_call11_v7 : Ref sig .tc := ⟨.hbm, 305, rfl⟩
abbrev main_call11_v8 : Ref sig .tc := ⟨.hbm, 306, rfl⟩
abbrev main_call11_v9 : Ref sig .tc := ⟨.hbm, 307, rfl⟩
abbrev main_call11_v10 : Ref sig .tc := ⟨.hbm, 308, rfl⟩
abbrev main_call11_v11 : Ref sig .tc := ⟨.hbm, 309, rfl⟩
abbrev main_call11_c_3 : Ref sig .tc := ⟨.hbm, 310, rfl⟩
abbrev main_call11_v12 : Ref sig .tc := ⟨.hbm, 311, rfl⟩
abbrev main_call11_v13 : Ref sig .tc := ⟨.hbm, 312, rfl⟩
abbrev main_call11_v14 : Ref sig .tc := ⟨.hbm, 313, rfl⟩
abbrev main_call11_cst : Ref sig .tc := ⟨.hbm, 314, rfl⟩
abbrev main_call11_v15 : Ref sig .tc := ⟨.hbm, 315, rfl⟩
abbrev main_v103 : Ref sig .tc := ⟨.hbm, 316, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S10000x3 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x3 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x3 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S_S700000x1 : S_.BroadcastsInDim S700000x1 (![] : Fin 0 → Fin S700000x1.rank)
  bcast_S1_S1x1_1 : S1.BroadcastsInDim S1x1 (![1] : Fin 1 → Fin S1x1.rank)
  bcast_S1x1_S700000x1_0_1 : S1x1.BroadcastsInDim S700000x1 (![0, 1] : Fin 2 → Fin S700000x1.rank)
  reducesTo_S700000x1_S700000_d1 : S700000x1.ReducesTo [1] S700000
  h_S_ : 0 < S_.numel
  bcast_S700000_S700000x32_0 : S700000.BroadcastsInDim S700000x32 (![0] : Fin 1 → Fin S700000x32.rank)
  bcast_S_S700000x32 : S_.BroadcastsInDim S700000x32 (![] : Fin 0 → Fin S700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x32_0 : S200000.BroadcastsInDim S200000x32 (![0] : Fin 1 → Fin S200000x32.rank)
  bcast_S_S200000x32 : S_.BroadcastsInDim S200000x32 (![] : Fin 0 → Fin S200000x32.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S200000_S1400000_d0 : Shape.Concatenates [S1200000, S200000] S1400000 0
  bcast_S_S1400000 : S_.BroadcastsInDim S1400000 (![] : Fin 0 → Fin S1400000.rank)
  bcast_S1400000_S1400000x1_0 : S1400000.BroadcastsInDim S1400000x1 (![0] : Fin 1 → Fin S1400000x1.rank)
  shapeCasts_S200000_S200000x1 : S200000.ShapeCasts S200000x1
  inb_S32x64_S32x64_0_0 : ∀ a, (![0, 0] : Fin 2 → Nat) a + S32x64.size a ≤ S32x64.size a
  h_S32x64 : 0 < S32x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S1400000x1 : S_.BroadcastsInDim S1400000x1 (![] : Fin 0 → Fin S1400000x1.rank)
  bcast_S1x1_S1400000x1_0_1 : S1x1.BroadcastsInDim S1400000x1 (![0, 1] : Fin 2 → Fin S1400000x1.rank)
  reducesTo_S1400000x1_S1400000_d1 : S1400000x1.ReducesTo [1] S1400000
  bcast_S1400000_S1400000x64_0 : S1400000.BroadcastsInDim S1400000x64 (![0] : Fin 1 → Fin S1400000x64.rank)
  bcast_S_S1400000x64 : S_.BroadcastsInDim S1400000x64 (![] : Fin 0 → Fin S1400000x64.rank)
  bcast_S_S200000x64 : S_.BroadcastsInDim S200000x64 (![] : Fin 0 → Fin S200000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x64_0 : S400000.BroadcastsInDim S400000x64 (![0] : Fin 1 → Fin S400000x64.rank)
  bcast_S_S400000x64 : S_.BroadcastsInDim S400000x64 (![] : Fin 0 → Fin S400000x64.rank)
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  concatenates_S2400000_S400000_S2800000_d0 : Shape.Concatenates [S2400000, S400000] S2800000 0
  bcast_S_S2800000 : S_.BroadcastsInDim S2800000 (![] : Fin 0 → Fin S2800000.rank)
  bcast_S2800000_S2800000x1_0 : S2800000.BroadcastsInDim S2800000x1 (![0] : Fin 1 → Fin S2800000x1.rank)
  shapeCasts_S400000_S400000x1 : S400000.ShapeCasts S400000x1
  inb_S64x32_S64x32_0_0 : ∀ a, (![0, 0] : Fin 2 → Nat) a + S64x32.size a ≤ S64x32.size a
  h_S64x32 : 0 < S64x32.numel
  bcast_S_S2800000x1 : S_.BroadcastsInDim S2800000x1 (![] : Fin 0 → Fin S2800000x1.rank)
  bcast_S1x1_S2800000x1_0_1 : S1x1.BroadcastsInDim S2800000x1 (![0, 1] : Fin 2 → Fin S2800000x1.rank)
  reducesTo_S2800000x1_S2800000_d1 : S2800000x1.ReducesTo [1] S2800000
  bcast_S2800000_S2800000x32_0 : S2800000.BroadcastsInDim S2800000x32 (![0] : Fin 1 → Fin S2800000x32.rank)
  bcast_S_S2800000x32 : S_.BroadcastsInDim S2800000x32 (![] : Fin 0 → Fin S2800000x32.rank)
  bcast_S_S400000x32 : S_.BroadcastsInDim S400000x32 (![] : Fin 0 → Fin S400000x32.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x32_0 : S800000.BroadcastsInDim S800000x32 (![0] : Fin 1 → Fin S800000x32.rank)
  bcast_S_S800000x32 : S_.BroadcastsInDim S800000x32 (![] : Fin 0 → Fin S800000x32.rank)
  slices_S2x4800000_S1x4800000_0_0 : S2x4800000.Slices ![0, 0] S1x4800000
  shapeCasts_S1x4800000_S4800000 : S1x4800000.ShapeCasts S4800000
  slices_S2x4800000_S1x4800000_1_0 : S2x4800000.Slices ![1, 0] S1x4800000
  concatenates_S4800000_S800000_S5600000_d0 : Shape.Concatenates [S4800000, S800000] S5600000 0
  bcast_S_S5600000 : S_.BroadcastsInDim S5600000 (![] : Fin 0 → Fin S5600000.rank)
  bcast_S5600000_S5600000x1_0 : S5600000.BroadcastsInDim S5600000x1 (![0] : Fin 1 → Fin S5600000x1.rank)
  shapeCasts_S800000_S800000x1 : S800000.ShapeCasts S800000x1
  inb_S32x3_S32x3_0_0 : ∀ a, (![0, 0] : Fin 2 → Nat) a + S32x3.size a ≤ S32x3.size a
  h_S32x3 : 0 < S32x3.numel
  broadcasts_S10000x1_S10000x3 : S10000x1.Broadcasts S10000x3
  bcast_S_S5600000x1 : S_.BroadcastsInDim S5600000x1 (![] : Fin 0 → Fin S5600000x1.rank)
  bcast_S1x1_S5600000x1_0_1 : S1x1.BroadcastsInDim S5600000x1 (![0, 1] : Fin 2 → Fin S5600000x1.rank)
  reducesTo_S5600000x1_S5600000_d1 : S5600000x1.ReducesTo [1] S5600000
  bcast_S5600000_S5600000x3_0 : S5600000.BroadcastsInDim S5600000x3 (![0] : Fin 1 → Fin S5600000x3.rank)
  bcast_S_S5600000x3 : S_.BroadcastsInDim S5600000x3 (![] : Fin 0 → Fin S5600000x3.rank)
  bcast_S_S800000x3 : S_.BroadcastsInDim S800000x3 (![] : Fin 0 → Fin S800000x3.rank)
  shapeCasts_S3_S1x3 : S3.ShapeCasts S1x3
  shapeCasts_S10000x3_S10000x3 : S10000x3.ShapeCasts S10000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x3_0 : S1600000.BroadcastsInDim S1600000x3 (![0] : Fin 1 → Fin S1600000x3.rank)
  bcast_S_S1600000x3 : S_.BroadcastsInDim S1600000x3 (![] : Fin 0 → Fin S1600000x3.rank)
  scatter_S100000_S700000x1_S700000_n_0_0_1_wf : ScatterDims.WF S100000 S700000x1 S700000 [] [0] [0] 1
  dot_S10000x3_S3x32_S10000x32_1_0_0_1_n_n_wf : DotDims.WF S10000x3 S3x32 S10000x32 [1] [0] [0] [1] [] []
  gather_S100000x32_S700000x1_S700000x32_1_0_n_n_0_1_132_wf : GatherDims.WF S100000x32 S700000x1 S700000x32 [1] [0] [] [0] [] 1 ![1, 32]
  scatter_S100000x32_S700000x1_S700000x32_1_0_0_1_wf : ScatterDims.WF S100000x32 S700000x1 S700000x32 [1] [0] [0] 1
  gather_S100000x32_S200000x1_S200000x32_1_0_n_n_0_1_132_wf : GatherDims.WF S100000x32 S200000x1 S200000x32 [1] [0] [] [0] [] 1 ![1, 32]
  scatter_S200000_S1400000x1_S1400000_n_0_0_1_wf : ScatterDims.WF S200000 S1400000x1 S1400000 [] [0] [0] 1
  dot_S10000x32_S32x64_S10000x64_1_0_0_1_n_n_wf : DotDims.WF S10000x32 S32x64 S10000x64 [1] [0] [0] [1] [] []
  gather_S200000x64_S1400000x1_S1400000x64_1_0_n_n_0_1_164_wf : GatherDims.WF S200000x64 S1400000x1 S1400000x64 [1] [0] [] [0] [] 1 ![1, 64]
  scatter_S200000x64_S1400000x1_S1400000x64_1_0_0_1_wf : ScatterDims.WF S200000x64 S1400000x1 S1400000x64 [1] [0] [0] 1
  gather_S200000x64_S400000x1_S400000x64_1_0_n_n_0_1_164_wf : GatherDims.WF S200000x64 S400000x1 S400000x64 [1] [0] [] [0] [] 1 ![1, 64]
  scatter_S400000_S2800000x1_S2800000_n_0_0_1_wf : ScatterDims.WF S400000 S2800000x1 S2800000 [] [0] [0] 1
  dot_S10000x64_S64x32_S10000x32_1_0_0_1_n_n_wf : DotDims.WF S10000x64 S64x32 S10000x32 [1] [0] [0] [1] [] []
  gather_S400000x32_S2800000x1_S2800000x32_1_0_n_n_0_1_132_wf : GatherDims.WF S400000x32 S2800000x1 S2800000x32 [1] [0] [] [0] [] 1 ![1, 32]
  scatter_S400000x32_S2800000x1_S2800000x32_1_0_0_1_wf : ScatterDims.WF S400000x32 S2800000x1 S2800000x32 [1] [0] [0] 1
  gather_S400000x32_S800000x1_S800000x32_1_0_n_n_0_1_132_wf : GatherDims.WF S400000x32 S800000x1 S800000x32 [1] [0] [] [0] [] 1 ![1, 32]
  scatter_S800000_S5600000x1_S5600000_n_0_0_1_wf : ScatterDims.WF S800000 S5600000x1 S5600000 [] [0] [0] 1
  dot_S10000x32_S32x3_S10000x3_1_0_0_1_n_n_wf : DotDims.WF S10000x32 S32x3 S10000x3 [1] [0] [0] [1] [] []
  gather_S800000x3_S5600000x1_S5600000x3_1_0_n_n_0_1_13_wf : GatherDims.WF S800000x3 S5600000x1 S5600000x3 [1] [0] [] [0] [] 1 ![1, 3]
  scatter_S800000x3_S5600000x1_S5600000x3_1_0_0_1_wf : ScatterDims.WF S800000x3 S5600000x1 S5600000x3 [1] [0] [0] 1
  gather_S800000x3_S1600000x1_S1600000x3_1_0_n_n_0_1_13_wf : GatherDims.WF S800000x3 S1600000x1 S1600000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S200000x32.size a
  hwx2_0 : ∀ i : grid2.Coords, EltTy.bits .f32 = 32 ∨ (Rect.block (s := S200000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S200000x64.size a
  hwx2_3 : ∀ i : grid2.Coords, EltTy.bits .f32 = 32 ∨ (Rect.block (s := S200000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S200000x1.size a
  hwx3_1 : ∀ i : grid3.Coords, EltTy.bits .f32 = 32 ∨ (Rect.block (s := S200000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S200000x64.size a
  hwx3_3 : ∀ i : grid3.Coords, EltTy.bits .f32 = 32 ∨ (Rect.block (s := S200000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S400000x64.size a
  hwx4_0 : ∀ i : grid4.Coords, EltTy.bits .f32 = 32 ∨ (Rect.block (s := S400000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S400000x1.size a
  hwx4_2 : ∀ i : grid4.Coords, EltTy.bits .f32 = 32 ∨ (Rect.block (s := S400000x1) S10000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S400000x32.size a
  hwx4_3 : ∀ i : grid4.Coords, EltTy.bits .f32 = 32 ∨ (Rect.block (s := S400000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S400000x32.size a
  hwx5_0 : ∀ i : grid5.Coords, EltTy.bits .f32 = 32 ∨ (Rect.block (s := S400000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S400000x1.size a
  hwx5_1 : ∀ i : grid5.Coords, EltTy.bits .f32 = 32 ∨ (Rect.block (s := S400000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S400000x32.size a
  hwx5_3 : ∀ i : grid5.Coords, EltTy.bits .f32 = 32 ∨ (Rect.block (s := S400000x32) S10000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S800000x32.size a
  hwx6_0 : ∀ i : grid6.Coords, EltTy.bits .f32 = 32 ∨ (Rect.block (s := S800000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x3.size a ≤ S32x3.size a
  hwx6_1 : ∀ i : grid6.Coords, EltTy.bits .f32 = 32 ∨ (Rect.block (s := S32x3) S32x3.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S800000x1.size a
  hwx6_2 : ∀ i : grid6.Coords, EltTy.bits .f32 = 32 ∨ (Rect.block (s := S800000x1) S10000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x3.size a ≤ S800000x3.size a
  hwx6_3 : ∀ i : grid6.Coords, EltTy.bits .f32 = 32 ∨ (Rect.block (s := S800000x3) S10000x3.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x3.size a ≤ S800000x3.size a
  hwx7_0 : ∀ i : grid7.Coords, EltTy.bits .f32 = 32 ∨ (Rect.block (s := S800000x3) S10000x3.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S800000x1.size a
  hwx7_1 : ∀ i : grid7.Coords, EltTy.bits .f32 = 32 ∨ (Rect.block (s := S800000x1) S10000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x3.size a ≤ S1x3.size a
  hwx7_2 : ∀ i : grid7.Coords, EltTy.bits .f32 = 32 ∨ (Rect.block (s := S1x3) S1x3.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x3.size a ≤ S800000x3.size a
  hwx7_3 : ∀ i : grid7.Coords, EltTy.bits .f32 = 32 ∨ (Rect.block (s := S800000x3) S10000x3.size (cc7_transform_3 i) (hinb7_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S10000x3_S3x32_S10000x32_1_0_0_1_n_n : DotDims S10000x3 S3x32 S10000x32 where
  lhsContracting := [1]
  rhsContracting := [0]
  lhsNonContracting := [0]
  rhsNonContracting := [1]
  lhsBatch := []
  rhsBatch := []
  wf := dot_S10000x3_S3x32_S10000x32_1_0_0_1_n_n_wf
def gather_S100000x32_S700000x1_S700000x32_1_0_n_n_0_1_132 : GatherDims S100000x32 S700000x1 S700000x32 where
  offsetDims := [1]
  collapsedSliceDims := [0]
  operandBatchingDims := []
  startIndicesBatchingDims := []
  startIndexMap := [0]
  indexVectorDim := 1
  sliceSizes := ![1, 32]
  wf := gather_S100000x32_S700000x1_S700000x32_1_0_n_n_0_1_132_wf
def scatter_S100000x32_S700000x1_S700000x32_1_0_0_1 : ScatterDims S100000x32 S700000x1 S700000x32 where
  updateWindowDims := [1]
  insertedWindowDims := [0]
  scatterDimsToOperandDims := [0]
  indexVectorDim := 1
  wf := scatter_S100000x32_S700000x1_S700000x32_1_0_0_1_wf
def gather_S100000x32_S200000x1_S200000x32_1_0_n_n_0_1_132 : GatherDims S100000x32 S200000x1 S200000x32 where
  offsetDims := [1]
  collapsedSliceDims := [0]
  operandBatchingDims := []
  startIndicesBatchingDims := []
  startIndexMap := [0]
  indexVectorDim := 1
  sliceSizes := ![1, 32]
  wf := gather_S100000x32_S200000x1_S200000x32_1_0_n_n_0_1_132_wf
def scatter_S200000_S1400000x1_S1400000_n_0_0_1 : ScatterDims S200000 S1400000x1 S1400000 where
  updateWindowDims := []
  insertedWindowDims := [0]
  scatterDimsToOperandDims := [0]
  indexVectorDim := 1
  wf := scatter_S200000_S1400000x1_S1400000_n_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S200000x64_S1400000x1_S1400000x64_1_0_n_n_0_1_164 : GatherDims S200000x64 S1400000x1 S1400000x64 where
  offsetDims := [1]
  collapsedSliceDims := [0]
  operandBatchingDims := []
  startIndicesBatchingDims := []
  startIndexMap := [0]
  indexVectorDim := 1
  sliceSizes := ![1, 64]
  wf := gather_S200000x64_S1400000x1_S1400000x64_1_0_n_n_0_1_164_wf
def scatter_S200000x64_S1400000x1_S1400000x64_1_0_0_1 : ScatterDims S200000x64 S1400000x1 S1400000x64 where
  updateWindowDims := [1]
  insertedWindowDims := [0]
  scatterDimsToOperandDims := [0]
  indexVectorDim := 1
  wf := scatter_S200000x64_S1400000x1_S1400000x64_1_0_0_1_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S400000_S2800000x1_S2800000_n_0_0_1 : ScatterDims S400000 S2800000x1 S2800000 where
  updateWindowDims := []
  insertedWindowDims := [0]
  scatterDimsToOperandDims := [0]
  indexVectorDim := 1
  wf := scatter_S400000_S2800000x1_S2800000_n_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S400000x32_S2800000x1_S2800000x32_1_0_n_n_0_1_132 : GatherDims S400000x32 S2800000x1 S2800000x32 where
  offsetDims := [1]
  collapsedSliceDims := [0]
  operandBatchingDims := []
  startIndicesBatchingDims := []
  startIndexMap := [0]
  indexVectorDim := 1
  sliceSizes := ![1, 32]
  wf := gather_S400000x32_S2800000x1_S2800000x32_1_0_n_n_0_1_132_wf
def scatter_S400000x32_S2800000x1_S2800000x32_1_0_0_1 : ScatterDims S400000x32 S2800000x1 S2800000x32 where
  updateWindowDims := [1]
  insertedWindowDims := [0]
  scatterDimsToOperandDims := [0]
  indexVectorDim := 1
  wf := scatter_S400000x32_S2800000x1_S2800000x32_1_0_0_1_wf
def gather_S400000x32_S800000x1_S800000x32_1_0_n_n_0_1_132 : GatherDims S400000x32 S800000x1 S800000x32 where
  offsetDims := [1]
  collapsedSliceDims := [0]
  operandBatchingDims := []
  startIndicesBatchingDims := []
  startIndexMap := [0]
  indexVectorDim := 1
  sliceSizes := ![1, 32]
  wf := gather_S400000x32_S800000x1_S800000x32_1_0_n_n_0_1_132_wf
def scatter_S800000_S5600000x1_S5600000_n_0_0_1 : ScatterDims S800000 S5600000x1 S5600000 where
  updateWindowDims := []
  insertedWindowDims := [0]
  scatterDimsToOperandDims := [0]
  indexVectorDim := 1
  wf := scatter_S800000_S5600000x1_S5600000_n_0_0_1_wf
def dot_S10000x32_S32x3_S10000x3_1_0_0_1_n_n : DotDims S10000x32 S32x3 S10000x3 where
  lhsContracting := [1]
  rhsContracting := [0]
  lhsNonContracting := [0]
  rhsNonContracting := [1]
  lhsBatch := []
  rhsBatch := []
  wf := dot_S10000x32_S32x3_S10000x3_1_0_0_1_n_n_wf
def gather_S800000x3_S5600000x1_S5600000x3_1_0_n_n_0_1_13 : GatherDims S800000x3 S5600000x1 S5600000x3 where
  offsetDims := [1]
  collapsedSliceDims := [0]
  operandBatchingDims := []
  startIndicesBatchingDims := []
  startIndexMap := [0]
  indexVectorDim := 1
  sliceSizes := ![1, 3]
  wf := gather_S800000x3_S5600000x1_S5600000x3_1_0_n_n_0_1_13_wf
def scatter_S800000x3_S5600000x1_S5600000x3_1_0_0_1 : ScatterDims S800000x3 S5600000x1 S5600000x3 where
  updateWindowDims := [1]
  insertedWindowDims := [0]
  scatterDimsToOperandDims := [0]
  indexVectorDim := 1
  wf := scatter_S800000x3_S5600000x1_S5600000x3_1_0_0_1_wf
def gather_S800000x3_S1600000x1_S1600000x3_1_0_n_n_0_1_13 : GatherDims S800000x3 S1600000x1 S1600000x3 where
  offsetDims := [1]
  collapsedSliceDims := [0]
  operandBatchingDims := []
  startIndicesBatchingDims := []
  startIndexMap := [0]
  indexVectorDim := 1
  sliceSizes := ![1, 3]
  wf := gather_S800000x3_S1600000x1_S1600000x3_1_0_n_n_0_1_13_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v51) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S10000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v77) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S32x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S10000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v95) S10000x3.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v99) S10000x3.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v101) S1x3.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v102) S10000x3.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x3 : Shape := ⟨2, ![100000, 3]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x3 : Shape := ⟨2, ![32, 3]⟩
abbrev S3 : Shape := ⟨1, ![3]⟩
abbrev S2x600000 : Shape := ⟨2, ![2, 600000]⟩
abbrev S200000 : Shape := ⟨1, ![200000]⟩
abbrev S2x1200000 : Shape := ⟨2, ![2, 1200000]⟩
abbrev S400000 : Shape := ⟨1, ![400000]⟩
abbrev S2x2400000 : Shape := ⟨2, ![2, 2400000]⟩
abbrev S800000 : Shape := ⟨1, ![800000]⟩
abbrev S2x4800000 : Shape := ⟨2, ![2, 4800000]⟩
abbrev S1600000 : Shape := ⟨1, ![1600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S100000x32 : Shape := ⟨2, ![100000, 32]⟩
abbrev S700000x32 : Shape := ⟨2, ![700000, 32]⟩
abbrev S1x32 : Shape := ⟨2, ![1, 32]⟩
abbrev S200000x1 : Shape := ⟨2, ![200000, 1]⟩
abbrev S200000x32 : Shape := ⟨2, ![200000, 32]⟩
abbrev S1x1200000 : Shape := ⟨2, ![1, 1200000]⟩
abbrev S1200000 : Shape := ⟨1, ![1200000]⟩
abbrev S1400000 : Shape := ⟨1, ![1400000]⟩
abbrev S1400000x1 : Shape := ⟨2, ![1400000, 1]⟩
abbrev S200000x64 : Shape := ⟨2, ![200000, 64]⟩
abbrev S1400000x64 : Shape := ⟨2, ![1400000, 64]⟩
abbrev S1x64 : Shape := ⟨2, ![1, 64]⟩
abbrev S400000x1 : Shape := ⟨2, ![400000, 1]⟩
abbrev S400000x64 : Shape := ⟨2, ![400000, 64]⟩
abbrev S1x2400000 : Shape := ⟨2, ![1, 2400000]⟩
abbrev S2400000 : Shape := ⟨1, ![2400000]⟩
abbrev S2800000 : Shape := ⟨1, ![2800000]⟩
abbrev S2800000x1 : Shape := ⟨2, ![2800000, 1]⟩
abbrev S400000x32 : Shape := ⟨2, ![400000, 32]⟩
abbrev S2800000x32 : Shape := ⟨2, ![2800000, 32]⟩
abbrev S800000x1 : Shape := ⟨2, ![800000, 1]⟩
abbrev S800000x32 : Shape := ⟨2, ![800000, 32]⟩
abbrev S1x4800000 : Shape := ⟨2, ![1, 4800000]⟩
abbrev S4800000 : Shape := ⟨1, ![4800000]⟩
abbrev S5600000 : Shape := ⟨1, ![5600000]⟩
abbrev S5600000x1 : Shape := ⟨2, ![5600000, 1]⟩
abbrev S800000x3 : Shape := ⟨2, ![800000, 3]⟩
abbrev S5600000x3 : Shape := ⟨2, ![5600000, 3]⟩
abbrev S1x3 : Shape := ⟨2, ![1, 3]⟩
abbrev S1600000x1 : Shape := ⟨2, ![1600000, 1]⟩
abbrev S1600000x3 : Shape := ⟨2, ![1600000, 3]⟩

abbrev nBuf : Space → Nat
  | .hbm => 301
  | .vmem => 0
  | .smem => 0
  | _ => 0

abbrev hbmTy0_0 (i : Nat) : BufTy := match i % 128 with
  | 0 => ⟨S100000x3, .f32⟩
  | 1 => ⟨S3x32, .f32⟩
  | 2 => ⟨S32, .f32⟩
  | 3 => ⟨S32x64, .f32⟩
  | 4 => ⟨S64, .f32⟩
  | 5 => ⟨S64x32, .f32⟩
  | 6 => ⟨S32, .f32⟩
  | 7 => ⟨S32x3, .f32⟩
  | 8 => ⟨S3, .f32⟩
  | 9 => ⟨S2x600000, .i32⟩
  | 10 => ⟨S200000, .i32⟩
  | 11 => ⟨S2x1200000, .i32⟩
  | 12 => ⟨S400000, .i32⟩
  | 13 => ⟨S2x2400000, .i32⟩
  | 14 => ⟨S800000, .i32⟩
  | 15 => ⟨S2x4800000, .i32⟩
  | 16 => ⟨S1600000, .i32⟩
  | 17 => ⟨S1x600000, .i32⟩
  | 18 => ⟨S600000, .i32⟩
  | 19 => ⟨S1x600000, .i32⟩
  | 20 => ⟨S600000, .i32⟩
  | 21 => ⟨S100000, .i32⟩
  | 22 => ⟨S700000, .i32⟩
  | 23 => ⟨S700000, .i32⟩
  | 24 => ⟨S_, .f32⟩
  | 25 => ⟨S700000, .f32⟩
  | 26 => ⟨S_, .f32⟩
  | 27 => ⟨S100000, .f32⟩
  | 28 => ⟨S700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S100000, .f32⟩
  | 36 => ⟨S100000, .f32⟩
  | 37 => ⟨S100000x32, .f32⟩
  | 38 => ⟨S_, .i32⟩
  | 39 => ⟨S700000, .i32⟩
  | 40 => ⟨S700000, .i1⟩
  | 41 => ⟨S_, .i32⟩
  | 42 => ⟨S700000, .i32⟩
  | 43 => ⟨S700000, .i32⟩
  | 44 => ⟨S700000, .i32⟩
  | 45 => ⟨S700000x1, .i32⟩
  | 46 => ⟨S700000x32, .f32⟩
  | 47 => ⟨S_, .i32⟩
  | 48 => ⟨S700000, .i32⟩
  | 49 => ⟨S700000, .i1⟩
  | 50 => ⟨S_, .i32⟩
  | 51 => ⟨S700000, .i32⟩
  | 52 => ⟨S700000, .i32⟩
  | 53 => ⟨S700000, .i32⟩
  | 54 => ⟨S700000x1, .i32⟩
  | 55 => ⟨S700000, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S700000, .f32⟩
  | 65 => ⟨S700000, .f32⟩
  | 66 => ⟨S700000x1, .f32⟩
  | 67 => ⟨S700000x32, .f32⟩
  | 68 => ⟨S700000x32, .f32⟩
  | 69 => ⟨S_, .f32⟩
  | 70 => ⟨S100000x32, .f32⟩
  | 71 => ⟨S700000x1, .i32⟩
  | 72 => ⟨S100000x32, .f32⟩
  | 73 => ⟨S1x32, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x32, .f32⟩
  | 88 => ⟨S1x1200000, .i32⟩
  | 89 => ⟨S1200000, .i32⟩
  | 90 => ⟨S1x1200000, .i32⟩
  | 91 => ⟨S1200000, .i32⟩
  | 92 => ⟨S200000, .i32⟩
  | 93 => ⟨S1400000, .i32⟩
  | 94 => ⟨S1400000, .i32⟩
  | 95 => ⟨S_, .f32⟩
  | 96 => ⟨S1400000, .f32⟩
  | 97 => ⟨S_, .f32⟩
  | 98 => ⟨S200000, .f32⟩
  | 99 => ⟨S1400000x1, .i32⟩
  | 100 => ⟨S200000, .f32⟩
  | 101 => ⟨S_, .f32⟩
  | 102 => ⟨S200000, .f32⟩
  | 103 => ⟨S200000, .i1⟩
  | 104 => ⟨S200000, .f32⟩
  | 105 => ⟨S_, .f32⟩
  | 106 => ⟨S200000, .f32⟩
  | 107 => ⟨S200000, .f32⟩
  | 108 => ⟨S200000x64, .f32⟩
  | 109 => ⟨S_, .i32⟩
  | 110 => ⟨S1400000, .i32⟩
  | 111 => ⟨S1400000, .i1⟩
  | 112 => ⟨S_, .i32⟩
  | 113 => ⟨S1400000, .i32⟩
  | 114 => ⟨S1400000, .i32⟩
  | 115 => ⟨S1400000, .i32⟩
  | 116 => ⟨S1400000x1, .i32⟩
  | 117 => ⟨S1400000x64, .f32⟩
  | 118 => ⟨S_, .i32⟩
  | 119 => ⟨S1400000, .i32⟩
  | 120 => ⟨S1400000, .i1⟩
  | 121 => ⟨S_, .i32⟩
  | 122 => ⟨S1400000, .i32⟩
  | 123 => ⟨S1400000, .i32⟩
  | 124 => ⟨S1400000, .i32⟩
  | 125 => ⟨S1400000x1, .i32⟩
  | 126 => ⟨S1400000, .f32⟩
  | 127 => ⟨S_, .i32⟩
  | _ => ⟨S100000x3, .f32⟩

abbrev hbmTy0_1 (i : Nat) : BufTy := match i % 128 with
  | 0 => ⟨S1400000, .i32⟩
  | 1 => ⟨S1400000, .i1⟩
  | 2 => ⟨S_, .i32⟩
  | 3 => ⟨S1400000, .i32⟩
  | 4 => ⟨S1400000, .i32⟩
  | 5 => ⟨S1400000, .i32⟩
  | 6 => ⟨S1400000x1, .i32⟩
  | 7 => ⟨S1400000, .f32⟩
  | 8 => ⟨S1400000, .f32⟩
  | 9 => ⟨S1400000x1, .f32⟩
  | 10 => ⟨S1400000x64, .f32⟩
  | 11 => ⟨S1400000x64, .f32⟩
  | 12 => ⟨S_, .f32⟩
  | 13 => ⟨S200000x64, .f32⟩
  | 14 => ⟨S1400000x1, .i32⟩
  | 15 => ⟨S200000x64, .f32⟩
  | 16 => ⟨S1x64, .f32⟩
  | 17 => ⟨S200000x64, .f32⟩
  | 18 => ⟨S200000x64, .f32⟩
  | 19 => ⟨S_, .f32⟩
  | 20 => ⟨S200000x64, .f32⟩
  | 21 => ⟨S200000x64, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x64, .f32⟩
  | 31 => ⟨S1x2400000, .i32⟩
  | 32 => ⟨S2400000, .i32⟩
  | 33 => ⟨S1x2400000, .i32⟩
  | 34 => ⟨S2400000, .i32⟩
  | 35 => ⟨S400000, .i32⟩
  | 36 => ⟨S2800000, .i32⟩
  | 37 => ⟨S2800000, .i32⟩
  | 38 => ⟨S_, .f32⟩
  | 39 => ⟨S2800000, .f32⟩
  | 40 => ⟨S_, .f32⟩
  | 41 => ⟨S400000, .f32⟩
  | 42 => ⟨S2800000x1, .i32⟩
  | 43 => ⟨S400000, .f32⟩
  | 44 => ⟨S_, .f32⟩
  | 45 => ⟨S400000, .f32⟩
  | 46 => ⟨S400000, .i1⟩
  | 47 => ⟨S400000, .f32⟩
  | 48 => ⟨S_, .f32⟩
  | 49 => ⟨S400000, .f32⟩
  | 50 => ⟨S400000, .f32⟩
  | 51 => ⟨S400000x32, .f32⟩
  | 52 => ⟨S_, .i32⟩
  | 53 => ⟨S2800000, .i32⟩
  | 54 => ⟨S2800000, .i1⟩
  | 55 => ⟨S_, .i32⟩
  | 56 => ⟨S2800000, .i32⟩
  | 57 => ⟨S2800000, .i32⟩
  | 58 => ⟨S2800000, .i32⟩
  | 59 => ⟨S2800000x1, .i32⟩
  | 60 => ⟨S2800000x32, .f32⟩
  | 61 => ⟨S_, .i32⟩
  | 62 => ⟨S2800000, .i32⟩
  | 63 => ⟨S2800000, .i1⟩
  | 64 => ⟨S_, .i32⟩
  | 65 => ⟨S2800000, .i32⟩
  | 66 => ⟨S2800000, .i32⟩
  | 67 => ⟨S2800000, .i32⟩
  | 68 => ⟨S2800000x1, .i32⟩
  | 69 => ⟨S2800000, .f32⟩
  | 70 => ⟨S_, .i32⟩
  | 71 => ⟨S2800000, .i32⟩
  | 72 => ⟨S2800000, .i1⟩
  | 73 => ⟨S_, .i32⟩
  | 74 => ⟨S2800000, .i32⟩
  | 75 => ⟨S2800000, .i32⟩
  | 76 => ⟨S2800000, .i32⟩
  | 77 => ⟨S2800000x1, .i32⟩
  | 78 => ⟨S2800000, .f32⟩
  | 79 => ⟨S2800000, .f32⟩
  | 80 => ⟨S2800000x1, .f32⟩
  | 81 => ⟨S2800000x32, .f32⟩
  | 82 => ⟨S2800000x32, .f32⟩
  | 83 => ⟨S_, .f32⟩
  | 84 => ⟨S400000x32, .f32⟩
  | 85 => ⟨S2800000x1, .i32⟩
  | 86 => ⟨S400000x32, .f32⟩
  | 87 => ⟨S1x32, .f32⟩
  | 88 => ⟨S400000x32, .f32⟩
  | 89 => ⟨S400000x32, .f32⟩
  | 90 => ⟨S_, .f32⟩
  | 91 => ⟨S400000x32, .f32⟩
  | 92 => ⟨S400000x32, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x32, .f32⟩
  | 102 => ⟨S1x4800000, .i32⟩
  | 103 => ⟨S4800000, .i32⟩
  | 104 => ⟨S1x4800000, .i32⟩
  | 105 => ⟨S4800000, .i32⟩
  | 106 => ⟨S800000, .i32⟩
  | 107 => ⟨S5600000, .i32⟩
  | 108 => ⟨S5600000, .i32⟩
  | 109 => ⟨S_, .f32⟩
  | 110 => ⟨S5600000, .f32⟩
  | 111 => ⟨S_, .f32⟩
  | 112 => ⟨S800000, .f32⟩
  | 113 => ⟨S5600000x1, .i32⟩
  | 114 => ⟨S800000, .f32⟩
  | 115 => ⟨S_, .f32⟩
  | 116 => ⟨S800000, .f32⟩
  | 117 => ⟨S800000, .i1⟩
  | 118 => ⟨S800000, .f32⟩
  | 119 => ⟨S_, .f32⟩
  | 120 => ⟨S800000, .f32⟩
  | 121 => ⟨S800000, .f32⟩
  | 122 => ⟨S800000x3, .f32⟩
  | 123 => ⟨S_, .i32⟩
  | 124 => ⟨S5600000, .i32⟩
  | 125 => ⟨S5600000, .i1⟩
  | 126 => ⟨S_, .i32⟩
  | 127 => ⟨S5600000, .i32⟩
  | _ => ⟨S100000x3, .f32⟩

abbrev hbmTy0_2 (i : Nat) : BufTy := match i % 128 with
  | 0 => ⟨S5600000, .i32⟩
  | 1 => ⟨S5600000, .i32⟩
  | 2 => ⟨S5600000x1, .i32⟩
  | 3 => ⟨S5600000x3, .f32⟩
  | 4 => ⟨S_, .i32⟩
  | 5 => ⟨S5600000, .i32⟩
  | 6 => ⟨S5600000, .i1⟩
  | 7 => ⟨S_, .i32⟩
  | 8 => ⟨S5600000, .i32⟩
  | 9 => ⟨S5600000, .i32⟩
  | 10 => ⟨S5600000, .i32⟩
  | 11 => ⟨S5600000x1, .i32⟩
  | 12 => ⟨S5600000, .f32⟩
  | 13 => ⟨S_, .i32⟩
  | 14 => ⟨S5600000, .i32⟩
  | 15 => ⟨S5600000, .i1⟩
  | 16 => ⟨S_, .i32⟩
  | 17 => ⟨S5600000, .i32⟩
  | 18 => ⟨S5600000, .i32⟩
  | 19 => ⟨S5600000, .i32⟩
  | 20 => ⟨S5600000x1, .i32⟩
  | 21 => ⟨S5600000, .f32⟩
  | 22 => ⟨S5600000, .f32⟩
  | 23 => ⟨S5600000x1, .f32⟩
  | 24 => ⟨S5600000x3, .f32⟩
  | 25 => ⟨S5600000x3, .f32⟩
  | 26 => ⟨S_, .f32⟩
  | 27 => ⟨S800000x3, .f32⟩
  | 28 => ⟨S5600000x1, .i32⟩
  | 29 => ⟨S800000x3, .f32⟩
  | 30 => ⟨S1x3, .f32⟩
  | 31 => ⟨S800000x3, .f32⟩
  | 32 => ⟨S800000x3, .f32⟩
  | 33 => ⟨S_, .f32⟩
  | 34 => ⟨S800000x3, .f32⟩
  | 35 => ⟨S800000x3, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x3, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_cst : Ref sig .tc := ⟨.hbm, 76, rfl⟩
abbrev main_call1_v0 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_15 : Ref sig .tc := ⟨.hbm, 109, rfl⟩
abbrev main_v73 : Ref sig .tc := ⟨.hbm, 110, rfl⟩
abbrev main_v74 : Ref sig .tc := ⟨.hbm, 111, rfl⟩
abbrev main_c_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_17 : Ref sig .tc := ⟨.hbm, 118, rfl⟩
abbrev main_v80 : Ref sig .tc := ⟨.hbm, 119, rfl⟩
abbrev main_v81 : Ref sig .tc := ⟨.hbm, 120, rfl⟩
abbrev main_c_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_19 : Ref sig .tc := ⟨.hbm, 127, rfl⟩
abbrev main_v87 : Ref sig .tc := ⟨.hbm, 128, rfl⟩
abbrev main_v88 : Ref sig .tc := ⟨.hbm, 129, rfl⟩
abbrev main_c_20 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_call3_cst : Ref sig .tc := ⟨.hbm, 147, rfl⟩
abbrev main_call3_v0 : Ref sig .tc := ⟨.hbm, 148, rfl⟩
abbrev main_v104 : Ref sig .tc := ⟨.hbm, 149, rfl⟩
abbrev main_c_22 : Ref sig .tc := ⟨.hbm, 150, rfl⟩
abbrev main_v105 : Ref sig .tc := ⟨.hbm, 151, rfl⟩
abbrev main_v106 : Ref sig .tc := ⟨.hbm, 152, rfl⟩
abbrev main_c_23 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_24 : Ref sig .tc := ⟨.hbm, 166, rfl⟩
abbrev main_v119 : Ref sig .tc := ⟨.hbm, 167, rfl⟩
abbrev main_cst_25 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_26 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_27 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_28 : Ref sig .tc := ⟨.hbm, 180, rfl⟩
abbrev main_v129 : Ref sig .tc := ⟨.hbm, 181, rfl⟩
abbrev main_v130 : Ref sig .tc := ⟨.hbm, 182, rfl⟩
abbrev main_c_29 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_c_30 : Ref sig .tc := ⟨.hbm, 189, rfl⟩
abbrev main_v136 : Ref sig .tc := ⟨.hbm, 190, rfl⟩
abbrev main_v137 : Ref sig .tc := ⟨.hbm, 191, rfl⟩
abbrev main_c_31 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_32 : Ref sig .tc := ⟨.hbm, 198, rfl⟩
abbrev main_v143 : Ref sig .tc := ⟨.hbm, 199, rfl⟩
abbrev main_v144 : Ref sig .tc := ⟨.hbm, 200, rfl⟩
abbrev main_c_33 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_34 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_call5_cst : Ref sig .tc := ⟨.hbm, 218, rfl⟩
abbrev main_call5_v0 : Ref sig .tc := ⟨.hbm, 219, rfl⟩
abbrev main_v160 : Ref sig .tc := ⟨.hbm, 220, rfl⟩
abbrev main_c_35 : Ref sig .tc := ⟨.hbm, 221, rfl⟩
abbrev main_v161 : Ref sig .tc := ⟨.hbm, 222, rfl⟩
abbrev main_v162 : Ref sig .tc := ⟨.hbm, 223, rfl⟩
abbrev main_c_36 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_37 : Ref sig .tc := ⟨.hbm, 237, rfl⟩
abbrev main_v175 : Ref sig .tc := ⟨.hbm, 238, rfl⟩
abbrev main_cst_38 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_39 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_40 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_c_41 : Ref sig .tc := ⟨.hbm, 251, rfl⟩
abbrev main_v185 : Ref sig .tc := ⟨.hbm, 252, rfl⟩
abbrev main_v186 : Ref sig .tc := ⟨.hbm, 253, rfl⟩
abbrev main_c_42 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_c_43 : Ref sig .tc := ⟨.hbm, 260, rfl⟩
abbrev main_v192 : Ref sig .tc := ⟨.hbm, 261, rfl⟩
abbrev main_v193 : Ref sig .tc := ⟨.hbm, 262, rfl⟩
abbrev main_c_44 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_c_45 : Ref sig .tc := ⟨.hbm, 269, rfl⟩
abbrev main_v199 : Ref sig .tc := ⟨.hbm, 270, rfl⟩
abbrev main_v200 : Ref sig .tc := ⟨.hbm, 271, rfl⟩
abbrev main_c_46 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_cst_47 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_call7_cst : Ref sig .tc := ⟨.hbm, 289, rfl⟩
abbrev main_call7_v0 : Ref sig .tc := ⟨.hbm, 290, rfl⟩
abbrev main_v216 : Ref sig .tc := ⟨.hbm, 291, rfl⟩
abbrev main_c_48 : Ref sig .tc := ⟨.hbm, 292, rfl⟩
abbrev main_v217 : Ref sig .tc := ⟨.hbm, 293, rfl⟩
abbrev main_v218 : Ref sig .tc := ⟨.hbm, 294, rfl⟩
abbrev main_c_49 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x32_0_1 : S700000x1.BroadcastsInDim S700000x32 (![0, 1] : Fin 2 → Fin S700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S200000 : S_.BroadcastsInDim S200000 (![] : Fin 0 → Fin S200000.rank)
  bcast_S200000_S200000x1_0 : S200000.BroadcastsInDim S200000x1 (![0] : Fin 1 → Fin S200000x1.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S200000_S1400000_d0 : Shape.Concatenates [S1200000, S200000] S1400000 0
  bcast_S_S1400000 : S_.BroadcastsInDim S1400000 (![] : Fin 0 → Fin S1400000.rank)
  bcast_S1400000_S1400000x1_0 : S1400000.BroadcastsInDim S1400000x1 (![0] : Fin 1 → Fin S1400000x1.rank)
  bcast_S1400000x1_S1400000x64_0_1 : S1400000x1.BroadcastsInDim S1400000x64 (![0, 1] : Fin 2 → Fin S1400000x64.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S400000 : S_.BroadcastsInDim S400000 (![] : Fin 0 → Fin S400000.rank)
  bcast_S400000_S400000x1_0 : S400000.BroadcastsInDim S400000x1 (![0] : Fin 1 → Fin S400000x1.rank)
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  concatenates_S2400000_S400000_S2800000_d0 : Shape.Concatenates [S2400000, S400000] S2800000 0
  bcast_S_S2800000 : S_.BroadcastsInDim S2800000 (![] : Fin 0 → Fin S2800000.rank)
  bcast_S2800000_S2800000x1_0 : S2800000.BroadcastsInDim S2800000x1 (![0] : Fin 1 → Fin S2800000x1.rank)
  bcast_S2800000x1_S2800000x32_0_1 : S2800000x1.BroadcastsInDim S2800000x32 (![0, 1] : Fin 2 → Fin S2800000x32.rank)
  bcast_S_S400000x32 : S_.BroadcastsInDim S400000x32 (![] : Fin 0 → Fin S400000x32.rank)
  bcast_S1x32_S400000x32_0_1 : S1x32.BroadcastsInDim S400000x32 (![0, 1] : Fin 2 → Fin S400000x32.rank)
  bcast_S_S800000 : S_.BroadcastsInDim S800000 (![] : Fin 0 → Fin S800000.rank)
  bcast_S800000_S800000x1_0 : S800000.BroadcastsInDim S800000x1 (![0] : Fin 1 → Fin S800000x1.rank)
  slices_S2x4800000_S1x4800000_0_0 : S2x4800000.Slices ![0, 0] S1x4800000
  shapeCasts_S1x4800000_S4800000 : S1x4800000.ShapeCasts S4800000
  slices_S2x4800000_S1x4800000_1_0 : S2x4800000.Slices ![1, 0] S1x4800000
  concatenates_S4800000_S800000_S5600000_d0 : Shape.Concatenates [S4800000, S800000] S5600000 0
  bcast_S_S5600000 : S_.BroadcastsInDim S5600000 (![] : Fin 0 → Fin S5600000.rank)
  bcast_S5600000_S5600000x1_0 : S5600000.BroadcastsInDim S5600000x1 (![0] : Fin 1 → Fin S5600000x1.rank)
  bcast_S5600000x1_S5600000x3_0_1 : S5600000x1.BroadcastsInDim S5600000x3 (![0, 1] : Fin 2 → Fin S5600000x3.rank)
  bcast_S_S800000x3 : S_.BroadcastsInDim S800000x3 (![] : Fin 0 → Fin S800000x3.rank)
  bcast_S3_S1x3_1 : S3.BroadcastsInDim S1x3 (![1] : Fin 1 → Fin S1x3.rank)
  bcast_S1x3_S800000x3_0_1 : S1x3.BroadcastsInDim S800000x3 (![0, 1] : Fin 2 → Fin S800000x3.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  scatter_S100000_S700000x1_S700000_n_0_0_1_wf : ScatterDims.WF S100000 S700000x1 S700000 [] [0] [0] 1
  dot_S100000x3_S3x32_S100000x32_1_0_0_1_n_n_wf : DotDims.WF S100000x3 S3x32 S100000x32 [1] [0] [0] [1] [] []
  gather_S100000x32_S700000x1_S700000x32_1_0_n_n_0_1_132_wf : GatherDims.WF S100000x32 S700000x1 S700000x32 [1] [0] [] [0] [] 1 ![1, 32]
  gather_S100000_S700000x1_S700000_n_0_n_n_0_1_1_wf : GatherDims.WF S100000 S700000x1 S700000 [] [0] [] [0] [] 1 ![1]
  scatter_S100000x32_S700000x1_S700000x32_1_0_0_1_wf : ScatterDims.WF S100000x32 S700000x1 S700000x32 [1] [0] [0] 1
  gather_S100000x32_S200000x1_S200000x32_1_0_n_n_0_1_132_wf : GatherDims.WF S100000x32 S200000x1 S200000x32 [1] [0] [] [0] [] 1 ![1, 32]
  scatter_S200000_S1400000x1_S1400000_n_0_0_1_wf : ScatterDims.WF S200000 S1400000x1 S1400000 [] [0] [0] 1
  dot_S200000x32_S32x64_S200000x64_1_0_0_1_n_n_wf : DotDims.WF S200000x32 S32x64 S200000x64 [1] [0] [0] [1] [] []
  gather_S200000x64_S1400000x1_S1400000x64_1_0_n_n_0_1_164_wf : GatherDims.WF S200000x64 S1400000x1 S1400000x64 [1] [0] [] [0] [] 1 ![1, 64]
  gather_S200000_S1400000x1_S1400000_n_0_n_n_0_1_1_wf : GatherDims.WF S200000 S1400000x1 S1400000 [] [0] [] [0] [] 1 ![1]
  scatter_S200000x64_S1400000x1_S1400000x64_1_0_0_1_wf : ScatterDims.WF S200000x64 S1400000x1 S1400000x64 [1] [0] [0] 1
  gather_S200000x64_S400000x1_S400000x64_1_0_n_n_0_1_164_wf : GatherDims.WF S200000x64 S400000x1 S400000x64 [1] [0] [] [0] [] 1 ![1, 64]
  scatter_S400000_S2800000x1_S2800000_n_0_0_1_wf : ScatterDims.WF S400000 S2800000x1 S2800000 [] [0] [0] 1
  dot_S400000x64_S64x32_S400000x32_1_0_0_1_n_n_wf : DotDims.WF S400000x64 S64x32 S400000x32 [1] [0] [0] [1] [] []
  gather_S400000x32_S2800000x1_S2800000x32_1_0_n_n_0_1_132_wf : GatherDims.WF S400000x32 S2800000x1 S2800000x32 [1] [0] [] [0] [] 1 ![1, 32]
  gather_S400000_S2800000x1_S2800000_n_0_n_n_0_1_1_wf : GatherDims.WF S400000 S2800000x1 S2800000 [] [0] [] [0] [] 1 ![1]
  scatter_S400000x32_S2800000x1_S2800000x32_1_0_0_1_wf : ScatterDims.WF S400000x32 S2800000x1 S2800000x32 [1] [0] [0] 1
  gather_S400000x32_S800000x1_S800000x32_1_0_n_n_0_1_132_wf : GatherDims.WF S400000x32 S800000x1 S800000x32 [1] [0] [] [0] [] 1 ![1, 32]
  scatter_S800000_S5600000x1_S5600000_n_0_0_1_wf : ScatterDims.WF S800000 S5600000x1 S5600000 [] [0] [0] 1
  dot_S800000x32_S32x3_S800000x3_1_0_0_1_n_n_wf : DotDims.WF S800000x32 S32x3 S800000x3 [1] [0] [0] [1] [] []
  gather_S800000x3_S5600000x1_S5600000x3_1_0_n_n_0_1_13_wf : GatherDims.WF S800000x3 S5600000x1 S5600000x3 [1] [0] [] [0] [] 1 ![1, 3]
  gather_S800000_S5600000x1_S5600000_n_0_n_n_0_1_1_wf : GatherDims.WF S800000 S5600000x1 S5600000 [] [0] [] [0] [] 1 ![1]
  scatter_S800000x3_S5600000x1_S5600000x3_1_0_0_1_wf : ScatterDims.WF S800000x3 S5600000x1 S5600000x3 [1] [0] [0] 1
  gather_S800000x3_S1600000x1_S1600000x3_1_0_n_n_0_1_13_wf : GatherDims.WF S800000x3 S1600000x1 S1600000x3 [1] [0] [] [0] [] 1 ![1, 3]

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S700000x1_S700000x32_1_0_n_n_0_1_132 : GatherDims S100000x32 S700000x1 S700000x32 where
  offsetDims := [1]
  collapsedSliceDims := [0]
  operandBatchingDims := []
  startIndicesBatchingDims := []
  startIndexMap := [0]
  indexVectorDim := 1
  sliceSizes := ![1, 32]
  wf := gather_S100000x32_S700000x1_S700000x32_1_0_n_n_0_1_132_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def scatter_S100000x32_S700000x1_S700000x32_1_0_0_1 : ScatterDims S100000x32 S700000x1 S700000x32 where
  updateWindowDims := [1]
  insertedWindowDims := [0]
  scatterDimsToOperandDims := [0]
  indexVectorDim := 1
  wf := scatter_S100000x32_S700000x1_S700000x32_1_0_0_1_wf
def gather_S100000x32_S200000x1_S200000x32_1_0_n_n_0_1_132 : GatherDims S100000x32 S200000x1 S200000x32 where
  offsetDims := [1]
  collapsedSliceDims := [0]
  operandBatchingDims := []
  startIndicesBatchingDims := []
  startIndexMap := [0]
  indexVectorDim := 1
  sliceSizes := ![1, 32]
  wf := gather_S100000x32_S200000x1_S200000x32_1_0_n_n_0_1_132_wf
def scatter_S200000_S1400000x1_S1400000_n_0_0_1 : ScatterDims S200000 S1400000x1 S1400000 where
  updateWindowDims := []
  insertedWindowDims := [0]
  scatterDimsToOperandDims := [0]
  indexVectorDim := 1
  wf := scatter_S200000_S1400000x1_S1400000_n_0_0_1_wf
def dot_S200000x32_S32x64_S200000x64_1_0_0_1_n_n : DotDims S200000x32 S32x64 S200000x64 where
  lhsContracting := [1]
  rhsContracting := [0]
  lhsNonContracting := [0]
  rhsNonContracting := [1]
  lhsBatch := []
  rhsBatch := []
  wf := dot_S200000x32_S32x64_S200000x64_1_0_0_1_n_n_wf
def gather_S200000x64_S1400000x1_S1400000x64_1_0_n_n_0_1_164 : GatherDims S200000x64 S1400000x1 S1400000x64 where
  offsetDims := [1]
  collapsedSliceDims := [0]
  operandBatchingDims := []
  startIndicesBatchingDims := []
  startIndexMap := [0]
  indexVectorDim := 1
  sliceSizes := ![1, 64]
  wf := gather_S200000x64_S1400000x1_S1400000x64_1_0_n_n_0_1_164_wf
def gather_S200000_S1400000x1_S1400000_n_0_n_n_0_1_1 : GatherDims S200000 S1400000x1 S1400000 where
  offsetDims := []
  collapsedSliceDims := [0]
  operandBatchingDims := []
  startIndicesBatchingDims := []
  startIndexMap := [0]
  indexVectorDim := 1
  sliceSizes := ![1]
  wf := gather_S200000_S1400000x1_S1400000_n_0_n_n_0_1_1_wf
def scatter_S200000x64_S1400000x1_S1400000x64_1_0_0_1 : ScatterDims S200000x64 S1400000x1 S1400000x64 where
  updateWindowDims := [1]
  insertedWindowDims := [0]
  scatterDimsToOperandDims := [0]
  indexVectorDim := 1
  wf := scatter_S200000x64_S1400000x1_S1400000x64_1_0_0_1_wf
def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S400000_S2800000x1_S2800000_n_0_0_1 : ScatterDims S400000 S2800000x1 S2800000 where
  updateWindowDims := []
  insertedWindowDims := [0]
  scatterDimsToOperandDims := [0]
  indexVectorDim := 1
  wf := scatter_S400000_S2800000x1_S2800000_n_0_0_1_wf
def dot_S400000x64_S64x32_S400000x32_1_0_0_1_n_n : DotDims S400000x64 S64x32 S400000x32 where
  lhsContracting := [1]
  rhsContracting := [0]
  lhsNonContracting := [0]
  rhsNonContracting := [1]
  lhsBatch := []
  rhsBatch := []
  wf := dot_S400000x64_S64x32_S400000x32_1_0_0_1_n_n_wf
def gather_S400000x32_S2800000x1_S2800000x32_1_0_n_n_0_1_132 : GatherDims S400000x32 S2800000x1 S2800000x32 where
  offsetDims := [1]
  collapsedSliceDims := [0]
  operandBatchingDims := []
  startIndicesBatchingDims := []
  startIndexMap := [0]
  indexVectorDim := 1
  sliceSizes := ![1, 32]
  wf := gather_S400000x32_S2800000x1_S2800000x32_1_0_n_n_0_1_132_wf
def gather_S400000_S2800000x1_S2800000_n_0_n_n_0_1_1 : GatherDims S400000 S2800000x1 S2800000 where
  offsetDims := []
  collapsedSliceDims := [0]
  operandBatchingDims := []
  startIndicesBatchingDims := []
  startIndexMap := [0]
  indexVectorDim := 1
  sliceSizes := ![1]
  wf := gather_S400000_S2800000x1_S2800000_n_0_n_n_0_1_1_wf
def scatter_S400000x32_S2800000x1_S2800000x32_1_0_0_1 : ScatterDims S400000x32 S2800000x1 S2800000x32 where
  updateWindowDims := [1]
  insertedWindowDims := [0]
  scatterDimsToOperandDims := [0]
  indexVectorDim := 1
  wf := scatter_S400000x32_S2800000x1_S2800000x32_1_0_0_1_wf
def gather_S400000x32_S800000x1_S800000x32_1_0_n_n_0_1_132 : GatherDims S400000x32 S800000x1 S800000x32 where
  offsetDims := [1]
  collapsedSliceDims := [0]
  operandBatchingDims := []
  startIndicesBatchingDims := []
  startIndexMap := [0]
  indexVectorDim := 1
  sliceSizes := ![1, 32]
  wf := gather_S400000x32_S800000x1_S800000x32_1_0_n_n_0_1_132_wf
def scatter_S800000_S5600000x1_S5600000_n_0_0_1 : ScatterDims S800000 S5600000x1 S5600000 where
  updateWindowDims := []
  insertedWindowDims := [0]
  scatterDimsToOperandDims := [0]
  indexVectorDim := 1
  wf := scatter_S800000_S5600000x1_S5600000_n_0_0_1_wf
def dot_S800000x32_S32x3_S800000x3_1_0_0_1_n_n : DotDims S800000x32 S32x3 S800000x3 where
  lhsContracting := [1]
  rhsContracting := [0]
  lhsNonContracting := [0]
  rhsNonContracting := [1]
  lhsBatch := []
  rhsBatch := []
  wf := dot_S800000x32_S32x3_S800000x3_1_0_0_1_n_n_wf
def gather_S800000x3_S5600000x1_S5600000x3_1_0_n_n_0_1_13 : GatherDims S800000x3 S5600000x1 S5600000x3 where
  offsetDims := [1]
  collapsedSliceDims := [0]
  operandBatchingDims := []
  startIndicesBatchingDims := []
  startIndexMap := [0]
  indexVectorDim := 1
  sliceSizes := ![1, 3]
  wf := gather_S800000x3_S5600000x1_S5600000x3_1_0_n_n_0_1_13_wf
def gather_S800000_S5600000x1_S5600000_n_0_n_n_0_1_1 : GatherDims S800000 S5600000x1 S5600000 where
  offsetDims := []
  collapsedSliceDims := [0]
  operandBatchingDims := []
  startIndicesBatchingDims := []
  startIndexMap := [0]
  indexVectorDim := 1
  sliceSizes := ![1]
  wf := gather_S800000_S5600000x1_S5600000_n_0_n_n_0_1_1_wf
def scatter_S800000x3_S5600000x1_S5600000x3_1_0_0_1 : ScatterDims S800000x3 S5600000x1 S5600000x3 where
  updateWindowDims := [1]
  insertedWindowDims := [0]
  scatterDimsToOperandDims := [0]
  indexVectorDim := 1
  wf := scatter_S800000x3_S5600000x1_S5600000x3_1_0_0_1_wf
def gather_S800000x3_S1600000x1_S1600000x3_1_0_n_n_0_1_13 : GatherDims S800000x3 S1600000x1 S1600000x3 where
  offsetDims := [1]
  collapsedSliceDims := [0]
  operandBatchingDims := []
  startIndicesBatchingDims := []
  startIndexMap := [0]
  indexVectorDim := 1
  sliceSizes := ![1, 3]
  wf := gather_S800000x3_S1600000x1_S1600000x3_1_0_n_n_0_1_13_wf

class Facts : Prop extends Facts₀ where

variable [Facts]
-- ==== Proof.LibGcnScale.lean ====
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate

noncomputable section

open Idealize.ShloMosaic Idealize.ShloMosaic.ValueIdx

namespace Cert.Gcn

def NN (x : EReal) : Prop := ∃ r : ℝ, 0 ≤ r ∧ x = (r : EReal)

private theorem nn_nonneg {c : EReal} (hc : NN c) : 0 ≤ c := by
  obtain ⟨r, hr, rfl⟩ := hc
  exact_mod_cast hr

private theorem nn_ne_top {c : EReal} (hc : NN c) : c ≠ ⊤ := by
  obtain ⟨r, hr, rfl⟩ := hc
  exact EReal.coe_ne_top r

theorem sum_mul_nn {ι : Type} (S : Finset ι) (f : ι → EReal) {c : EReal} (hc : NN c) :
    (∑ j ∈ S, f j) * c = ∑ j ∈ S, f j * c := by
  classical
  induction S using Finset.induction_on with
  | empty => simp
  | insert a S ha ih =>
    rw [Finset.sum_insert ha, Finset.sum_insert ha,
      EReal.right_distrib_of_nonneg_of_ne_top (nn_nonneg hc) (nn_ne_top hc), ih]

variable {s si su : Shape} {w : ℕ}

theorem scatterAdd_scale (d : ScatterDims s si su) (z : FVec Ideal s .f32) (hz : ∀ i, z i = 0) (idx : IVec si w)
    (u f : FVec Ideal su .f32) (r : s.Idx → EReal) (hr : ∀ i, NN (r i))
    (hf : ∀ j i, d.resultIdx? j idx = some i → f j = r i) (i : s.Idx) :
    Host.scatterAdd d z idx (mulf u f) i = Host.scatterAdd d z idx u i * r i := by
  show z i + ∑ j ∈ Finset.univ.filter (fun j => d.resultIdx? j idx = some i), (u j * f j)
     = (z i + ∑ j ∈ Finset.univ.filter (fun j => d.resultIdx? j idx = some i), u j) * r i
  rw [hz i, zero_add, zero_add, sum_mul_nn _ _ (hr i)]
  refine Finset.sum_congr rfl fun j hj => ?_
  rw [hf j i (Finset.mem_filter.mp hj).2]

theorem scatterAdd_ones (d : ScatterDims s si su) (z : FVec Ideal s .f32) (hz : ∀ i, z i = 0) (idx : IVec si w)
    (u : FVec Ideal su .f32) (hu : ∀ j, u j = 1) (i : s.Idx) :
    ∃ k : ℕ, Host.scatterAdd d z idx u i = ((k : ℝ) : EReal) := by
  refine ⟨(Finset.univ.filter (fun j => d.resultIdx? j idx = some i)).card, ?_⟩
  show z i + ∑ j ∈ Finset.univ.filter (fun j => d.resultIdx? j idx = some i), u j = _
  rw [hz i, zero_add, Finset.sum_congr rfl (fun j _ => hu j)]
  simp

theorem dinv_nn (k : ℕ) :
    NN (Scalar.select (Ideal.cmp .ogt ((k : ℝ) : EReal) 0) (Ideal.rsqrt ((k : ℝ) : EReal)) 0) := by
  by_cases hk : (0 : ℝ) < (k : ℝ)
  ·
    have hc : Ideal.cmp .ogt ((k : ℝ) : EReal) 0 = 1#1 := by
      show BitVec.ofBool (decide ((0 : EReal) < ((k : ℝ) : EReal))) = 1#1
      rw [decide_eq_true (by exact_mod_cast hk)]; rfl
    rw [hc, select_one, Ideal.rsqrt_coe, if_neg (not_lt.mpr hk.le), if_neg hk.ne']
    exact ⟨(Real.sqrt (k : ℝ))⁻¹, inv_nonneg.mpr (Real.sqrt_nonneg _), rfl⟩
  ·
    have hc : Ideal.cmp .ogt ((k : ℝ) : EReal) 0 = 0#1 := by
      show BitVec.ofBool (decide ((0 : EReal) < ((k : ℝ) : EReal))) = 0#1
      rw [decide_eq_false (by exact_mod_cast hk)]; rfl
    rw [hc, select_zero]
    exact ⟨0, le_refl _, rfl⟩

abbrev rowsScat (n C M : ℕ) (wf : ScatterDims.WF ⟨2, ![n, C]⟩ ⟨2, ![M, 1]⟩ ⟨2, ![M, C]⟩ [1] [0] [0] 1) :
    ScatterDims ⟨2, ![n, C]⟩ ⟨2, ![M, 1]⟩ ⟨2, ![M, C]⟩ where
  updateWindowDims := [1]
  insertedWindowDims := [0]
  scatterDimsToOperandDims := [0]
  indexVectorDim := 1
  wf := wf

theorem rowsScat_row {n C M : ℕ} (wf : ScatterDims.WF ⟨2, ![n, C]⟩ ⟨2, ![M, 1]⟩ ⟨2, ![M, C]⟩ [1] [0] [0] 1)
    (idx : IVec ⟨2, ![M, 1]⟩ w) (p : Fin M) (k : Fin C) (i : (⟨2, ![n, C]⟩ : Shape).Idx)
    (h : (rowsScat n C M wf).resultIdx? (ix2 p k) idx = some i) : (idx (ix2 p 0)).toInt = ((i 0).val : ℤ) := by
  unfold ScatterDims.resultIdx? at h
  split at h
  ·
    rename_i hh
    have hi := Option.some.inj h
    subst hi
    have h0 := (hh 0).1
    have hw : (rowsScat n C M wf).window (ix2 p k) 0 = 0 := by
      unfold ScatterDims.window
      rw [dif_neg]
      simp [ScatterDims.sKept, Shape.kept, List.mem_filter]
    have hs : (rowsScat n C M wf).start (ix2 p k) idx 0 = (idx (ix2 p 0)).toInt := by
      unfold ScatterDims.start
      rw [dif_pos (show (0 : Fin 2) ∈ (rowsScat n C M wf).scatterDimsToOperandDims from List.mem_singleton.mpr rfl)]
      have hsi : (rowsScat n C M wf).siIdx (ix2 p k) ⟨List.idxOf (0 : Fin 2) (rowsScat n C M wf).scatterDimsToOperandDims,
          List.idxOf_lt_length_iff.2 (List.mem_singleton.mpr rfl)⟩ = ix2 p 0 := by
        funext b; refine Fin.ext ?_
        match b with
        | ⟨0, _⟩ => rfl
        | ⟨1, _⟩ => rfl
      rw [hsi]
    show (idx (ix2 p 0)).toInt
      = ((((rowsScat n C M wf).start (ix2 p k) idx 0 + (rowsScat n C M wf).window (ix2 p k) 0).toNat : ℕ) : ℤ)
    rw [hw, hs] at h0
    rw [hw, hs]
    omega
  ·
    cases h

end Cert.Gcn

end
-- ==== Proof.LibIndexWrap.lean ====
import Idealize.ShloMosaic.Lib.ReduceAll
import Idealize.ShloMosaic.Lib.StableHlo.Predicate

namespace Idealize.ShloMosaic.IndexWrap

open Idealize.ShloMosaic

def wrapWord (n s : BitVec 32) : BitVec 32 := Scalar.select (IntOp.cmpi .slt s 0#32) (IntOp.addi s n) s

theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Spec.lean ====
import Idealize.ShloMosaic.PureOps.Ideal
import Idealize.ShloMosaic.PureOps.Ideal.Laws
import Idealize.ShloMosaic.Lib.ValueIdx
import proofs.«400126_j7060926234635_3_alg».proof.Proof.LibGcnScale
import proofs.«400126_j7060926234635_3_alg».proof.Proof.LibIndexWrap

noncomputable section

open Idealize.ShloMosaic Idealize.ShloMosaic.ValueIdx

namespace Cert.GcnNet

abbrev Mat (a b : ℕ) : Shape := ⟨2, ![a, b]⟩
abbrev Vc (a : ℕ) : Shape := ⟨1, ![a]⟩

/-- The row a signed index word names in a table of n rows: counted from the end when negative, then clamped into the table. -/
def rowOf (n : ℕ) (hn : 0 < n) (s : BitVec 32) : Fin n :=
  ⟨min (IndexWrap.wrapWord (BitVec.ofNat 32 n) s).toInt.toNat (n - 1), by omega⟩

/-- The dense product with each row scaled by its node's degree factor. -/
def scaled {n Cin Cout : ℕ} (dis : Fin n → EReal) (hin : (Mat n Cin).Idx → EReal) (W : (Mat Cin Cout).Idx → EReal) :
    (Mat n Cout).Idx → EReal := fun i =>
  (∑ k : Fin Cin, hin (ix2 (i 0) k) * W (ix2 k (i 1))) * dis (i 0)

/-- The same scaled product, the degree factors given as a column. -/
def linOut {n Cin Cout : ℕ} (x : (Mat n Cin).Idx → EReal) (w : (Mat Cin Cout).Idx → EReal) (dis2 : (Mat n 1).Idx → EReal) :
    (Mat n Cout).Idx → EReal := fun i =>
  (∑ k : Fin Cin, x (ix2 (i 0) k) * w (ix2 k (i 1))) * dis2 (ix2 (i 0) 0)

/-- A table scaled row by row by a column, plus a bias row, floored at zero. -/
def brOut {n C : ℕ} (a : (Mat n C).Idx → EReal) (dis2 : (Mat n 1).Idx → EReal) (b2 : (Mat 1 C).Idx → EReal) :
    (Mat n C).Idx → EReal := fun i =>
  max (a i * dis2 (ix2 (i 0) 0) + b2 (ix2 0 (i 1))) 0

/-- One layer with the factor split: scaled source rows are summed into destination rows, the sum is scaled by the destination's factor, then bias and floor. -/
def layerK {n Cin Cout M : ℕ} (hn : 0 < n) (sd : ScatterDims (Mat n Cout) (Mat M 1) (Mat M Cout))
    (dis : Fin n → EReal) (hin : (Mat n Cin).Idx → EReal) (W : (Mat Cin Cout).Idx → EReal) (b : Fin Cout → EReal)
    (s : Fin M → BitVec 32) (dcol : IVec (Mat M 1) 32) : (Mat n Cout).Idx → EReal := fun i =>
  max (Host.scatterAdd (F := Ideal) (φ := .f32) sd ((fun _ => (0 : EReal)) : FVec Ideal (Mat n Cout) .f32) dcol
        ((fun y => scaled dis hin W (ix2 (rowOf n hn (s (y 0))) (y 1))) : FVec Ideal (Mat M Cout) .f32) i * dis (i 0) + b (i 1)) 0

/-- One layer with the factor on the message: each source row is scaled by both end nodes' factors before the sum, then bias and floor. -/
def layerR {n Cin Cout M : ℕ} (hn : 0 < n) (sd : ScatterDims (Mat n Cout) (Mat M 1) (Mat M Cout))
    (dis : Fin n → EReal) (hin : (Mat n Cin).Idx → EReal) (W : (Mat Cin Cout).Idx → EReal) (b : Fin Cout → EReal)
    (s d : Fin M → BitVec 32) (dcol : IVec (Mat M 1) 32) : (Mat n Cout).Idx → EReal := fun i =>
  max (Host.scatterAdd (F := Ideal) (φ := .f32) sd ((fun _ => (0 : EReal)) : FVec Ideal (Mat n Cout) .f32) dcol
        ((fun y => (∑ k : Fin Cin, hin (ix2 (rowOf n hn (s (y 0))) k) * W (ix2 k (y 1)))
          * (dis (rowOf n hn (s (y 0))) * dis (rowOf n hn (d (y 0))))) : FVec Ideal (Mat M Cout) .f32) i + b (i 1)) 0

/-- The rows of a table that a vector of index words names. -/
def pick {n C N : ℕ} (hn : 0 < n) (x : (Mat n C).Idx → EReal) (u : Fin N → BitVec 32) : (Mat N C).Idx → EReal :=
  fun i => x (ix2 (rowOf n hn (u (i 0))) (i 1))

/-- A destination's factor is the same non-negative real on every message landing in its row, so it moves out of the row's sum. -/
theorem layer_law {n Cin Cout M : ℕ} (hn : 0 < n) (hn2 : n < 2 ^ 30)
    (wf : ScatterDims.WF (Mat n Cout) (Mat M 1) (Mat M Cout) [1] [0] [0] 1)
    (dis : Fin n → EReal) (hdis : ∀ i, Gcn.NN (dis i))
    (hin : (Mat n Cin).Idx → EReal) (W : (Mat Cin Cout).Idx → EReal) (b : Fin Cout → EReal)
    (s d : Fin M → BitVec 32) (dcol : IVec (Mat M 1) 32) (hd : ∀ e : Fin M, dcol (ix2 e 0) = d e) :
    layerR hn (Gcn.rowsScat n Cout M wf) dis hin W b s d dcol = layerK hn (Gcn.rowsScat n Cout M wf) dis hin W b s dcol := by
  funext i
  unfold layerR layerK
  have hrow : ∀ (y : (Mat M Cout).Idx) (j : (Mat n Cout).Idx),
      (Gcn.rowsScat n Cout M wf).resultIdx? y dcol = some j → rowOf n hn (d (y 0)) = j 0 := by
    intro y j h
    rw [eq_ix2 y] at h
    have ht := Gcn.rowsScat_row wf dcol (y 0) (y 1) j h
    rw [hd (y 0)] at ht
    have hz : (0#32 : BitVec 32).toInt = 0 := by decide
    have hc : ¬ IntOp.cmpi .slt (d (y 0)) 0#32 = 1 := fun hlt => by
      have h0 := IntOp.cmpi_slt.1 hlt
      rw [hz, ht] at h0
      omega
    have hj := idx2_lt0 j
    refine Fin.ext ?_
    show min (Scalar.select (IntOp.cmpi .slt (d (y 0)) 0#32) (IntOp.addi (d (y 0)) (BitVec.ofNat 32 n)) (d (y 0))).toInt.toNat
        (n - 1) = (j 0).val
    unfold Scalar.select
    rw [if_neg hc, ht, Int.toNat_natCast]
    omega
  have hu : ((fun y => (∑ k : Fin Cin, hin (ix2 (rowOf n hn (s (y 0))) k) * W (ix2 k (y 1)))
        * (dis (rowOf n hn (s (y 0))) * dis (rowOf n hn (d (y 0))))) : FVec Ideal (Mat M Cout) .f32)
      = mulf (F := Ideal) (s := Mat M Cout) (φ := .f32) (fun y => scaled dis hin W (ix2 (rowOf n hn (s (y 0))) (y 1)))
          (fun y => dis (rowOf n hn (d (y 0)))) := by
    funext y
    show _ = scaled dis hin W (ix2 (rowOf n hn (s (y 0))) (y 1)) * dis (rowOf n hn (d (y 0)))
    unfold scaled
    exact (mul_assoc _ _ _).symm
  rw [hu, Gcn.scatterAdd_scale (Gcn.rowsScat n Cout M wf) _ (fun _ => rfl) dcol _ _ (fun j => dis (j 0))
    (fun j => hdis (j 0)) (fun y j h => congrArg dis (hrow y j h)) i]

end Cert.GcnNet

end
-- ==== Proof.DegNorm.lean ====
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate
import proofs.«400126_j7060926234635_3_alg».proof.Proof.Spec
import proofs.«400126_j7060926234635_3_alg».proof.Proof.LibGcnScale

noncomputable section

open Idealize.ShloMosaic Idealize.ShloMosaic.ValueIdx

namespace Cert.GcnNet

theorem ofBits_one : Ideal.ofBits .f32 0x3F800000#32 = (1 : EReal) := Ideal.ofBits_one_f32

def disTerm {n M : ℕ} (sd1 : ScatterDims (Vc n) (Mat M 1) (Vc M)) (z z' z'' : FVec Ideal (Vc n) .f32)
    (ones : FVec Ideal (Vc M) .f32) (dcol : IVec (Mat M 1) 32) : FVec Ideal (Vc n) .f32 :=
  select (cmpf .ogt (Host.scatterAdd sd1 z dcol ones) z') (Host.rsqrt (Host.scatterAdd sd1 z dcol ones)) z''

theorem disTerm_nn {n M : ℕ} (sd1 : ScatterDims (Vc n) (Mat M 1) (Vc M)) (z z' z'' : FVec Ideal (Vc n) .f32)
    (ones : FVec Ideal (Vc M) .f32) (dcol : IVec (Mat M 1) 32)
    (hz : ∀ i, z i = 0) (hz' : ∀ i, z' i = 0) (hz'' : ∀ i, z'' i = 0) (hones : ∀ j, ones j = 1) (i : (Vc n).Idx) :
    Gcn.NN (disTerm sd1 z z' z'' ones dcol i) := by
  obtain ⟨k, hk⟩ := Gcn.scatterAdd_ones sd1 z hz dcol ones hones i
  show Gcn.NN (Scalar.select (Ideal.cmp .ogt (Host.scatterAdd sd1 z dcol ones i) (z' i))
    (Ideal.rsqrt (Host.scatterAdd sd1 z dcol ones i)) (z'' i))
  rw [hk, hz' i, hz'' i]
  exact Gcn.dinv_nn k

theorem cat_iota_range {E n M : ℕ} (hc : Shape.Concatenates [Vc E, Vc n] (Vc M) 0) (a : IVec (Vc E) 32)
    (ha : ∀ e, -(n : ℤ) ≤ (a e).toInt ∧ (a e).toInt < n) (hn : n < 2 ^ 30) (j : (Vc M).Idx) :
    -(n : ℤ) ≤ (concatenate (α := BitVec 32) (Vc M) 0 [⟨Vc E, a⟩, ⟨Vc n, iotaInDim (Vc n) 32 0⟩] hc j).toInt
      ∧ (concatenate (α := BitVec 32) (Vc M) 0 [⟨Vc E, a⟩, ⟨Vc n, iotaInDim (Vc n) 32 0⟩] hc j).toInt < n := by
  have hM : E + n = M := by
    have h := hc.2.2
    simpa using h
  have hj : (j 0).val < M := (j 0).isLt
  by_cases hlt : (j 0).val < E
  ·
    rw [concatenate_pair_apply_left (0 : Fin (Vc M).rank) a (iotaInDim (Vc n) 32 0) hc j rfl (ix1 ⟨(j 0).val, hlt⟩)
      (fun b => by match b with | ⟨0, _⟩ => rfl)]
    exact ha _
  ·
    have hlt' : (j 0).val - E < n := by omega
    rw [concatenate_pair_apply_right (0 : Fin (Vc M).rank) a (iotaInDim (Vc n) 32 0) hc j rfl rfl
      (ix1 ⟨(j 0).val - E, hlt'⟩) (fun b hb => by match b with | ⟨0, _⟩ => exact absurd rfl hb)
      (by show (j 0).val - E + E = (j 0).val; omega)]
    show -(n : ℤ) ≤ (BitVec.ofNat 32 ((j 0).val - E)).toInt ∧ (BitVec.ofNat 32 ((j 0).val - E)).toInt < n
    rw [StableHlo.Predicate.toInt_ofNat_small _ (by omega)]
    omega

end Cert.GcnNet

end
-- ==== Proof.KI.Defs.lean ====
import proofs.«400126_j7060926234635_3_alg».proof.KernelIdeal
import proofs.«400126_j7060926234635_3_alg».proof.Proof.Gen.KernelIdeal
import proofs.«400126_j7060926234635_3_alg».proof.Proof.Spec
import proofs.«400126_j7060926234635_3_alg».proof.Proof.DegNorm

noncomputable section

namespace Cert.KernelIdeal.Net

open Idealize.ShloMosaic Idealize.ShloMosaic.ValueIdx Cert.KernelIdeal Cert.GcnNet
open Cert.KernelIdeal.Facts₀ Cert.KernelIdeal.Facts

def sIdx0 (ei : IVec S2x600000 32) : IVec S700000 32 :=
  concatenate S700000 0 [⟨S600000, shapeCast S600000 (extractStridedSlice S1x600000 ![0, 0] ei slices_S2x600000_S1x600000_0_0) shapeCasts_S1x600000_S600000⟩, ⟨S100000, iotaInDim S100000 32 0⟩] concatenates_S600000_S100000_S700000_d0
def dIdx0 (ei : IVec S2x600000 32) : IVec S700000 32 :=
  concatenate S700000 0 [⟨S600000, shapeCast S600000 (extractStridedSlice S1x600000 ![1, 0] ei slices_S2x600000_S1x600000_1_0) shapeCasts_S1x600000_S600000⟩, ⟨S100000, iotaInDim S100000 32 0⟩] concatenates_S600000_S100000_S700000_d0
def dcol0 (ei : IVec S2x600000 32) : IVec S700000x1 32 := broadcastInDim S700000x1 ![0] bcast_S700000_S700000x1_0 (dIdx0 ei)
def disV0 (ei : IVec S2x600000 32) : FVec Ideal S100000 .f32 :=
  disTerm scatter_S100000_S700000x1_S700000_n_0_0_1 (broadcastInDim S100000 ![] bcast_S_S100000 (constant S_ .f32 0x00000000#32))
    (broadcastInDim S100000 ![] bcast_S_S100000 (constant S_ .f32 0x00000000#32)) (broadcastInDim S100000 ![] bcast_S_S100000 (constant S_ .f32 0x00000000#32))
    (broadcastInDim S700000 ![] bcast_S_S700000 (constant S_ .f32 0x3F800000#32)) (dcol0 ei)

def sIdx1 (ei : IVec S2x1200000 32) : IVec S1400000 32 :=
  concatenate S1400000 0 [⟨S1200000, shapeCast S1200000 (extractStridedSlice S1x1200000 ![0, 0] ei slices_S2x1200000_S1x1200000_0_0) shapeCasts_S1x1200000_S1200000⟩, ⟨S200000, iotaInDim S200000 32 0⟩] concatenates_S1200000_S200000_S1400000_d0
def dIdx1 (ei : IVec S2x1200000 32) : IVec S1400000 32 :=
  concatenate S1400000 0 [⟨S1200000, shapeCast S1200000 (extractStridedSlice S1x1200000 ![1, 0] ei slices_S2x1200000_S1x1200000_1_0) shapeCasts_S1x1200000_S1200000⟩, ⟨S200000, iotaInDim S200000 32 0⟩] concatenates_S1200000_S200000_S1400000_d0
def dcol1 (ei : IVec S2x1200000 32) : IVec S1400000x1 32 := broadcastInDim S1400000x1 ![0] bcast_S1400000_S1400000x1_0 (dIdx1 ei)
def disV1 (ei : IVec S2x1200000 32) : FVec Ideal S200000 .f32 :=
  disTerm scatter_S200000_S1400000x1_S1400000_n_0_0_1 (broadcastInDim S200000 ![] bcast_S_S200000 (constant S_ .f32 0x00000000#32))
    (broadcastInDim S200000 ![] bcast_S_S200000 (constant S_ .f32 0x00000000#32)) (broadcastInDim S200000 ![] bcast_S_S200000 (constant S_ .f32 0x00000000#32))
    (broadcastInDim S1400000 ![] bcast_S_S1400000 (constant S_ .f32 0x3F800000#32)) (dcol1 ei)

def sIdx2 (ei : IVec S2x2400000 32) : IVec S2800000 32 :=
  concatenate S2800000 0 [⟨S2400000, shapeCast S2400000 (extractStridedSlice S1x2400000 ![0, 0] ei slices_S2x2400000_S1x2400000_0_0) shapeCasts_S1x2400000_S2400000⟩, ⟨S400000, iotaInDim S400000 32 0⟩] concatenates_S2400000_S400000_S2800000_d0
def dIdx2 (ei : IVec S2x2400000 32) : IVec S2800000 32 :=
  concatenate S2800000 0 [⟨S2400000, shapeCast S2400000 (extractStridedSlice S1x2400000 ![1, 0] ei slices_S2x2400000_S1x2400000_1_0) shapeCasts_S1x2400000_S2400000⟩, ⟨S400000, iotaInDim S400000 32 0⟩] concatenates_S2400000_S400000_S2800000_d0
def dcol2 (ei : IVec S2x2400000 32) : IVec S2800000x1 32 := broadcastInDim S2800000x1 ![0] bcast_S2800000_S2800000x1_0 (dIdx2 ei)
def disV2 (ei : IVec S2x2400000 32) : FVec Ideal S400000 .f32 :=
  disTerm scatter_S400000_S2800000x1_S2800000_n_0_0_1 (broadcastInDim S400000 ![] bcast_S_S400000 (constant S_ .f32 0x00000000#32))
    (broadcastInDim S400000 ![] bcast_S_S400000 (constant S_ .f32 0x00000000#32)) (broadcastInDim S400000 ![] bcast_S_S400000 (constant S_ .f32 0x00000000#32))
    (broadcastInDim S2800000 ![] bcast_S_S2800000 (constant S_ .f32 0x3F800000#32)) (dcol2 ei)

def sIdx3 (ei : IVec S2x4800000 32) : IVec S5600000 32 :=
  concatenate S5600000 0 [⟨S4800000, shapeCast S4800000 (extractStridedSlice S1x4800000 ![0, 0] ei slices_S2x4800000_S1x4800000_0_0) shapeCasts_S1x4800000_S4800000⟩, ⟨S800000, iotaInDim S800000 32 0⟩] concatenates_S4800000_S800000_S5600000_d0
def dIdx3 (ei : IVec S2x4800000 32) : IVec S5600000 32 :=
  concatenate S5600000 0 [⟨S4800000, shapeCast S4800000 (extractStridedSlice S1x4800000 ![1, 0] ei slices_S2x4800000_S1x4800000_1_0) shapeCasts_S1x4800000_S4800000⟩, ⟨S800000, iotaInDim S800000 32 0⟩] concatenates_S4800000_S800000_S5600000_d0
def dcol3 (ei : IVec S2x4800000 32) : IVec S5600000x1 32 := broadcastInDim S5600000x1 ![0] bcast_S5600000_S5600000x1_0 (dIdx3 ei)
def disV3 (ei : IVec S2x4800000 32) : FVec Ideal S800000 .f32 :=
  disTerm scatter_S800000_S5600000x1_S5600000_n_0_0_1 (broadcastInDim S800000 ![] bcast_S_S800000 (constant S_ .f32 0x00000000#32))
    (broadcastInDim S800000 ![] bcast_S_S800000 (constant S_ .f32 0x00000000#32)) (broadcastInDim S800000 ![] bcast_S_S800000 (constant S_ .f32 0x00000000#32))
    (broadcastInDim S5600000 ![] bcast_S_S5600000 (constant S_ .f32 0x3F800000#32)) (dcol3 ei)

end Cert.KernelIdeal.Net

end
-- ==== Proof.LibMlp.lean ====
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

def row {H : ℕ} (x : (⟨2, ![1, H]⟩ : Shape).Idx → EReal) : Fin H → EReal := fun h => x (ix2 0 h)
def vec {H : ℕ} (x : (⟨1, ![H]⟩ : Shape).Idx → EReal) : Fin H → EReal := fun h => x (ix1 h)

theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

end Cert.Mlp

end
-- ==== Proof.LibColumn.lean ====
import Idealize.ShloMosaic.Lib.Pipeline.Value
import Idealize.ShloMosaic.Lib.ValueIdx

noncomputable section

namespace Cert.Attn.Column

open Idealize.ShloMosaic Idealize.ShloMosaic.ValueIdx

variable {α : Type}

theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KI.PayA.lean ====
import Idealize.ShloMosaic.PureOps.Ideal
import Idealize.ShloMosaic.PureOps.Ideal.Laws
import Idealize.ShloMosaic.Lib.ValueIdx
import Idealize.ShloMosaic.Lib.Pipeline.Value
import proofs.«400126_j7060926234635_3_alg».proof.Proof.LibMlp
import proofs.«400126_j7060926234635_3_alg».proof.Proof.LibColumn
import proofs.«400126_j7060926234635_3_alg».proof.Proof.Spec

noncomputable section

open Idealize.ShloMosaic Idealize.ShloMosaic.ValueIdx

namespace Cert.KernelIdeal.PayA

open Cert.GcnNet

theorem prod_apply {N K H : ℕ} (hlt : FTy.bits .bf16 < FTy.bits .f32)
    (x : FVec Ideal ⟨2, ![N, K]⟩ .f32) (w : FVec Ideal ⟨2, ![K, H]⟩ .f32) (p : Fin N) (q : Fin H) :
    matmul (DotDims.plain N K H) none (truncf .bf16 x hlt) (truncf .bf16 w hlt) (constant ⟨2, ![N, H]⟩ .f32 0x00000000#32) (ix2 p q)
      = ∑ k : Fin K, x (ix2 p k) * w (ix2 k q) := by
  refine (Ideal.matmul_constant_zero_apply (DotDims.plain N K H) none (truncf .bf16 x hlt) (truncf .bf16 w hlt) (ix2 p q)).trans ?_
  exact Cert.Mlp.plain_sum (truncf .bf16 x hlt) (truncf .bf16 w hlt) (ix2 p q)

theorem lin_pay {N K H : ℕ} (d : DotDims ⟨2, ![N, K]⟩ ⟨2, ![K, H]⟩ ⟨2, ![N, H]⟩) (hd : d = DotDims.plain N K H)
    (hb : (⟨2, ![N, 1]⟩ : Shape).Broadcasts ⟨2, ![N, H]⟩) (hs : (⟨2, ![N, 1]⟩ : Shape).ShapeCasts ⟨2, ![N, 1]⟩)
    (hlt : FTy.bits .bf16 < FTy.bits .f32)
    (x : FVec Ideal ⟨2, ![N, K]⟩ .f32) (w : FVec Ideal ⟨2, ![K, H]⟩ .f32) (dis2 : FVec Ideal ⟨2, ![N, 1]⟩ .f32) :
    mulf (matmul d none (truncf .bf16 x hlt) (truncf .bf16 w hlt) (constant ⟨2, ![N, H]⟩ .f32 0x00000000#32))
        (broadcastTo ⟨2, ![N, H]⟩ (shapeCast ⟨2, ![N, 1]⟩ dis2 hs) hb)
      = linOut x w dis2 := by
  subst hd
  funext i
  obtain ⟨p, q, rfl⟩ : ∃ (p : Fin N) (q : Fin H), i = ix2 p q := ⟨i 0, i 1, eq_ix2 i⟩
  rw [mulf_apply, prod_apply hlt x w p q, Cert.Attn.Column.broadcastTo_a1_ab_apply _ hb p q, shapeCast_self dis2 hs]
  rfl

theorem lin_pay_cast {N K H : ℕ} (d : DotDims ⟨2, ![N, K]⟩ ⟨2, ![K, H]⟩ ⟨2, ![N, H]⟩) (hd : d = DotDims.plain N K H)
    (hb : (⟨2, ![N, 1]⟩ : Shape).Broadcasts ⟨2, ![N, H]⟩) (hs : (⟨2, ![N, 1]⟩ : Shape).ShapeCasts ⟨2, ![N, 1]⟩)
    (hx : (⟨2, ![N, K]⟩ : Shape).ShapeCasts ⟨2, ![N, K]⟩)
    (hlt : FTy.bits .bf16 < FTy.bits .f32)
    (x : FVec Ideal ⟨2, ![N, K]⟩ .f32) (w : FVec Ideal ⟨2, ![K, H]⟩ .f32) (dis2 : FVec Ideal ⟨2, ![N, 1]⟩ .f32) :
    mulf (matmul d none (truncf .bf16 (shapeCast ⟨2, ![N, K]⟩ x hx) hlt) (truncf .bf16 w hlt) (constant ⟨2, ![N, H]⟩ .f32 0x00000000#32))
        (broadcastTo ⟨2, ![N, H]⟩ (shapeCast ⟨2, ![N, 1]⟩ dis2 hs) hb)
      = linOut x w dis2 := by
  rw [shapeCast_self x hx]
  exact lin_pay d hd hb hs hlt x w dis2

theorem linOut_block {n nb Cin Cout : ℕ}
    (X : (Mat n Cin).Idx → EReal) (W : (Mat Cin Cout).Idx → EReal) (D : (Mat n 1).Idx → EReal)
    (xb : (Mat nb Cin).Idx → EReal) (wb : (Mat Cin Cout).Idx → EReal) (db : (Mat nb 1).Idx → EReal)
    (j : (Mat nb Cout).Idx) (i : (Mat n Cout).Idx)
    (hx : ∀ k : Fin Cin, xb (ix2 (j 0) k) = X (ix2 (i 0) k))
    (hw : ∀ k : Fin Cin, wb (ix2 k (j 1)) = W (ix2 k (i 1)))
    (hd : db (ix2 (j 0) 0) = D (ix2 (i 0) 0)) :
    linOut xb wb db j = linOut X W D i := by
  show (∑ k : Fin Cin, xb (ix2 (j 0) k) * wb (ix2 k (j 1))) * db (ix2 (j 0) 0)
      = (∑ k : Fin Cin, X (ix2 (i 0) k) * W (ix2 k (i 1))) * D (ix2 (i 0) 0)
  exact congrArg₂ (· * ·) (Finset.sum_congr rfl fun k _ => congrArg₂ (· * ·) (hx k) (hw k)) hd

end Cert.KernelIdeal.PayA

end
-- ==== Proof.KI.Region0.lean ====
import proofs.«400126_j7060926234635_3_alg».proof.Proof.Gen.KernelIdeal.Frame
import proofs.«400126_j7060926234635_3_alg».proof.Proof.Spec
import proofs.«400126_j7060926234635_3_alg».proof.Proof.KI.PayA
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Idealize.ShloMosaic.Pipeline (Dat)
open Cert.KernelIdeal Cert.KernelIdeal.Gen Cert.GcnNet

namespace R0

variable (V : (c : Dev nD) → (b : Ref sig .tc) → Buf (Elt Ideal) ((c : Thread nD τ).loc b))

theorem zeros : (![0, 0] : Fin 2 → Nat) = fun _ => 0 := funext fun a => by fin_cases a <;> rfl

theorem pay (x0 : Vec Ideal S10000x3 .f32) (x1 : Vec Ideal S3x32 .f32) (x2 : Vec Ideal S10000x1 .f32) :
    k0_pay1 x0 x1 x2 = linOut x0 x1 x2 := by
  unfold k0_pay1
  exact PayA.lin_pay dot_S10000x3_S3x32_S10000x32_1_0_0_1_n_n rfl broadcasts_S10000x1_S10000x32 shapeCasts_S10000x1_S10000x1 bitsLt_bf16_f32 x0 x1 x2

abbrev outFn (c : Dev nD) : S100000x32.Idx → EReal :=
  linOut (V c main_arg0 : S100000x3.Idx → EReal) (V c main_arg1 : S3x32.Idx → EReal) (V c main_v16 : S100000x1.Idx → EReal)

theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem blk_x (c : Dev nD) (t : Fin cfg0.N) (y : S10000x3.Idx) (i : S100000x3.Idx)
    (h0 : (i 0).val = t.val * 10000 + (y 0).val) (h1 : (i 1).val = (y 1).val) :
    (iblk0 V c 0 t : Vec Ideal S10000x3 .f32) y = (V c main_arg0 : S100000x3.Idx → EReal) i := by
  obtain ⟨e0, e1, -⟩ := where_blocks t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * S10000x3.size (1 : Fin 2) + 1 * (y 1).val = (i 1).val; rw [e1, h1]; omega

theorem blk_w (c : Dev nD) (t : Fin cfg0.N) (y : S3x32.Idx) :
    (iblk0 V c 1 t : Vec Ideal S3x32 .f32) y = (V c main_arg1 : S3x32.Idx → EReal) y := by
  obtain ⟨-, -, e0, e1, -⟩ := where_blocks t
  unfold iblk0
  rw [View.read_apply]
  show V c main_arg1 _ = V c main_arg1 _
  refine congrArg (V c main_arg1) (funext fun a => Fin.ext ?_)
  match a with
  | ⟨0, _⟩ => show win0_1.index t (0 : Fin 2) * S3x32.size (0 : Fin 2) + 1 * (y 0).val = (y 0).val; rw [e0]; omega
  | ⟨1, _⟩ => show win0_1.index t (1 : Fin 2) * S3x32.size (1 : Fin 2) + 1 * (y 1).val = (y 1).val; rw [e1]; omega

theorem blk_d (c : Dev nD) (t : Fin cfg0.N) (y : S10000x1.Idx) (i : S100000x1.Idx)
    (h0 : (i 0).val = t.val * 10000 + (y 0).val) (h1 : (i 1).val = (y 1).val) :
    (iblk0 V c 2 t : Vec Ideal S10000x1 .f32) y = (V c main_v16 : S100000x1.Idx → EReal) i := by
  obtain ⟨-, -, -, -, e0, e1, -⟩ := where_blocks t
  unfold iblk0
  rw [View.read_apply]
  show V c main_v16 _ = V c main_v16 _
  refine congrArg (V c main_v16) (funext fun a => Fin.ext ?_)
  match a with
  | ⟨0, _⟩ => show win0_2.index t (0 : Fin 2) * 10000 + 1 * (y 0).val = (i 0).val; rw [e0, h0]; omega
  | ⟨1, _⟩ => show win0_2.index t (1 : Fin 2) * S10000x1.size (1 : Fin 2) + 1 * (y 1).val = (i 1).val; rw [e1, h1]; omega

theorem out_at (t : Fin cfg0.N) (j : S10000x32.Idx) :
    ((((cfg0.win 3).blk t).view.emb j) 0).val = t.val * 10000 + (j 0).val
    ∧ ((((cfg0.win 3).blk t).view.emb j) 1).val = (j 1).val := by
  obtain ⟨-, -, -, -, -, -, e0, e1⟩ := where_blocks t
  constructor
  · show win0_3.index t (0 : Fin 2) * 10000 + 1 * (j 0).val = _; rw [e0]; omega
  · show win0_3.index t (1 : Fin 2) * S10000x32.size (1 : Fin 2) + 1 * (j 1).val = _; rw [e1]; omega

/-- Row r of the scaled product reads only row r of the table and of the column, so what point t writes is block t of the product of the whole arrays. -/
theorem flushed_eq (c : Dev nD) (t : Fin cfg0.N) :
    (dat0 V c).flushed 3 t = ((cfg0.win 3).blk t).view.read (Elt Ideal) (outFn V c) := by
  show (cfg0.win 3).cut (grid0.coords t) ((dat0 V c).after 3 t) = _
  rw [after0_3]
  unfold out0_3
  rw [View.canon_unit_zero zeros]
  simp only [View.ld_unit_zero (S := S10000x3) zeros, View.ld_unit_zero (S := S3x32) zeros, View.ld_unit_zero (S := S10000x1) zeros]
  refine (congrArg ((cfg0.win 3).cut (grid0.coords t)) (pay (iblk0 V c 0 t) (iblk0 V c 1 t) (iblk0 V c 2 t))).trans ?_
  funext j
  obtain ⟨o0, o1⟩ := out_at t j
  show linOut (iblk0 V c 0 t : Vec Ideal S10000x3 .f32) (iblk0 V c 1 t : Vec Ideal S3x32 .f32) (iblk0 V c 2 t : Vec Ideal S10000x1 .f32) j
      = outFn V c (((cfg0.win 3).blk t).view.emb j)
  refine PayA.linOut_block (V c main_arg0 : S100000x3.Idx → EReal) (V c main_arg1 : S3x32.Idx → EReal) (V c main_v16 : S100000x1.Idx → EReal)
    (iblk0 V c 0 t : Vec Ideal S10000x3 .f32) (iblk0 V c 1 t : Vec Ideal S3x32 .f32) (iblk0 V c 2 t : Vec Ideal S10000x1 .f32)
    j (((cfg0.win 3).blk t).view.emb j) (fun k => ?_) (fun k => ?_) ?_
  · exact blk_x V c t (ix2 (j 0) k) (ix2 ((((cfg0.win 3).blk t).view.emb j) 0) k) o0 rfl
  · refine (blk_w V c t (ix2 k (j 1))).trans (congrArg (V c main_arg1 : S3x32.Idx → EReal) ?_)
    exact funext fun a => Fin.ext (match a with | ⟨0, _⟩ => rfl | ⟨1, _⟩ => o1.symm)
  · exact blk_d V c t (ix2 (j 0) 0) (ix2 ((((cfg0.win 3).blk t).view.emb j) 0) 0) o0 rfl

theorem mem_blk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v17).slice (win0_3.rect t)).set ↔ _
  rw [View.set_slice_whole, Rect.mem_set_unit]
  exact Iff.rfl

/-- Row r lies in the block of point r / 10000, so the blocks cover the array. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < S10000x32.size (1 : Fin 2) := (i 1).isLt
  have hN : grid0.N = 100000 / 10000 := N_0
  let t : Fin cfg0.N := ⟨(i 0).val / 10000, by show (i 0).val / 10000 < grid0.N; omega⟩
  obtain ⟨-, -, -, -, -, -, e0, e1⟩ := where_blocks t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e0]; show (i 0).val / 10000 * 10000 ≤ (i 0).val ∧ (i 0).val < (i 0).val / 10000 * 10000 + 10000; omega
  | ⟨1, _⟩ =>
    show win0_3.index t (1 : Fin 2) * S10000x32.size (1 : Fin 2) ≤ (i 1).val
      ∧ (i 1).val < win0_3.index t (1 : Fin 2) * S10000x32.size (1 : Fin 2) + S10000x32.size (1 : Fin 2)
    rw [e1]; omega

theorem arr_eq (c : Dev nD) : (dat0 V c).arrAt 3 cfg0.N = outFn V c :=
  (dat0 V c).arrAt_eq_of_cover 3 (outFn V c) (fun t _ => flushed_eq V c t) cover

end R0

variable (m : (ℓ : Loc nD τ sig) → Buf (Elt Ideal) ℓ) (ρ : Dev nD → PrngReg)

theorem W4_main_v17 (c : Dev nD) :
    (W4 (F := Ideal) m ρ c (Proc.devRef .tc main_v17) : S100000x32.Idx → EReal)
      = linOut (W3 (F := Ideal) m ρ c (Proc.devRef .tc main_arg0) : S100000x3.Idx → EReal)
          (W3 (F := Ideal) m ρ c (Proc.devRef .tc main_arg1) : S3x32.Idx → EReal)
          (W3 (F := Ideal) m ρ c (Proc.devRef .tc main_v16) : S100000x1.Idx → EReal) := by
  have h : W4 (F := Ideal) m ρ c (Proc.devRef .tc main_v17) = (dat0 (V3 (F := Ideal) m ρ) c).arrAt 3 cfg0.N :=
    W4_arr (F := Ideal) m ρ c 3
  exact h.trans (R0.arr_eq (V3 (F := Ideal) m ρ) c)

end Cert.KernelIdeal.Net

end
-- ==== Proof.KI.Region2.lean ====
import proofs.«400126_j7060926234635_3_alg».proof.Proof.Gen.KernelIdeal.Frame
import proofs.«400126_j7060926234635_3_alg».proof.Proof.Spec
import proofs.«400126_j7060926234635_3_alg».proof.Proof.KI.PayA
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Idealize.ShloMosaic.Pipeline (Dat)
open Cert.KernelIdeal Cert.KernelIdeal.Gen Cert.GcnNet

namespace R2

variable (V : (c : Dev nD) → (b : Ref sig .tc) → Buf (Elt Ideal) ((c : Thread nD τ).loc b))

theorem zeros : (![0, 0] : Fin 2 → Nat) = fun _ => 0 := funext fun a => by fin_cases a <;> rfl

theorem pay (x0 : Vec Ideal S10000x32 .f32) (x1 : Vec Ideal S32x64 .f32) (x2 : Vec Ideal S10000x1 .f32) :
    k2_pay1 x0 x1 x2 = linOut x0 x1 x2 := by
  unfold k2_pay1
  exact PayA.lin_pay_cast dot_S10000x32_S32x64_S10000x64_1_0_0_1_n_n rfl broadcasts_S10000x1_S10000x64 shapeCasts_S10000x1_S10000x1 shapeCasts_S10000x32_S10000x32 bitsLt_bf16_f32 x0 x1 x2

abbrev outFn (c : Dev nD) : S200000x64.Idx → EReal :=
  linOut (V c main_v25 : S200000x32.Idx → EReal) (V c main_arg3 : S32x64.Idx → EReal) (V c main_v42 : S200000x1.Idx → EReal)

theorem where_blocks : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem blk_x (c : Dev nD) (t : Fin cfg2.N) (y : S10000x32.Idx) (i : S200000x32.Idx)
    (h0 : (i 0).val = t.val * 10000 + (y 0).val) (h1 : (i 1).val = (y 1).val) :
    (iblk2 V c 0 t : Vec Ideal S10000x32 .f32) y = (V c main_v25 : S200000x32.Idx → EReal) i := by
  obtain ⟨e0, e1, -⟩ := where_blocks t
  unfold iblk2
  rw [View.read_apply]
  show V c main_v25 _ = V c main_v25 _
  refine congrArg (V c main_v25) (funext fun a => Fin.ext ?_)
  match a with
  | ⟨0, _⟩ => show win2_0.index t (0 : Fin 2) * 10000 + 1 * (y 0).val = (i 0).val; rw [e0, h0]; omega
  | ⟨1, _⟩ => show win2_0.index t (1 : Fin 2) * S10000x32.size (1 : Fin 2) + 1 * (y 1).val = (i 1).val; rw [e1, h1]; omega

theorem blk_w (c : Dev nD) (t : Fin cfg2.N) (y : S32x64.Idx) :
    (iblk2 V c 1 t : Vec Ideal S32x64 .f32) y = (V c main_arg3 : S32x64.Idx → EReal) y := by
  obtain ⟨-, -, e0, e1, -⟩ := where_blocks t
  unfold iblk2
  rw [View.read_apply]
  show V c main_arg3 _ = V c main_arg3 _
  refine congrArg (V c main_arg3) (funext fun a => Fin.ext ?_)
  match a with
  | ⟨0, _⟩ => show win2_1.index t (0 : Fin 2) * S32x64.size (0 : Fin 2) + 1 * (y 0).val = (y 0).val; rw [e0]; omega
  | ⟨1, _⟩ => show win2_1.index t (1 : Fin 2) * S32x64.size (1 : Fin 2) + 1 * (y 1).val = (y 1).val; rw [e1]; omega

theorem blk_d (c : Dev nD) (t : Fin cfg2.N) (y : S10000x1.Idx) (i : S200000x1.Idx)
    (h0 : (i 0).val = t.val * 10000 + (y 0).val) (h1 : (i 1).val = (y 1).val) :
    (iblk2 V c 2 t : Vec Ideal S10000x1 .f32) y = (V c main_v42 : S200000x1.Idx → EReal) i := by
  obtain ⟨-, -, -, -, e0, e1, -⟩ := where_blocks t
  unfold iblk2
  rw [View.read_apply]
  show V c main_v42 _ = V c main_v42 _
  refine congrArg (V c main_v42) (funext fun a => Fin.ext ?_)
  match a with
  | ⟨0, _⟩ => show win2_2.index t (0 : Fin 2) * 10000 + 1 * (y 0).val = (i 0).val; rw [e0, h0]; omega
  | ⟨1, _⟩ => show win2_2.index t (1 : Fin 2) * S10000x1.size (1 : Fin 2) + 1 * (y 1).val = (i 1).val; rw [e1, h1]; omega

theorem out_at (t : Fin cfg2.N) (j : S10000x64.Idx) :
    ((((cfg2.win 3).blk t).view.emb j) 0).val = t.val * 10000 + (j 0).val
    ∧ ((((cfg2.win 3).blk t).view.emb j) 1).val = (j 1).val := by
  obtain ⟨-, -, -, -, -, -, e0, e1⟩ := where_blocks t
  constructor
  · show win2_3.index t (0 : Fin 2) * 10000 + 1 * (j 0).val = _; rw [e0]; omega
  · show win2_3.index t (1 : Fin 2) * S10000x64.size (1 : Fin 2) + 1 * (j 1).val = _; rw [e1]; omega

/-- Row r of the scaled product reads only row r of the table and of the column, so what point t writes is block t of the product of the whole arrays. -/
theorem flushed_eq (c : Dev nD) (t : Fin cfg2.N) :
    (dat2 V c).flushed 3 t = ((cfg2.win 3).blk t).view.read (Elt Ideal) (outFn V c) := by
  show (cfg2.win 3).cut (grid2.coords t) ((dat2 V c).after 3 t) = _
  rw [after2_3]
  unfold out2_3
  rw [View.canon_unit_zero zeros]
  simp only [View.ld_unit_zero (S := S10000x32) zeros, View.ld_unit_zero (S := S32x64) zeros, View.ld_unit_zero (S := S10000x1) zeros]
  refine (congrArg ((cfg2.win 3).cut (grid2.coords t)) (pay (iblk2 V c 0 t) (iblk2 V c 1 t) (iblk2 V c 2 t))).trans ?_
  funext j
  obtain ⟨o0, o1⟩ := out_at t j
  show linOut (iblk2 V c 0 t : Vec Ideal S10000x32 .f32) (iblk2 V c 1 t : Vec Ideal S32x64 .f32) (iblk2 V c 2 t : Vec Ideal S10000x1 .f32) j
      = outFn V c (((cfg2.win 3).blk t).view.emb j)
  refine PayA.linOut_block (V c main_v25 : S200000x32.Idx → EReal) (V c main_arg3 : S32x64.Idx → EReal) (V c main_v42 : S200000x1.Idx → EReal)
    (iblk2 V c 0 t : Vec Ideal S10000x32 .f32) (iblk2 V c 1 t : Vec Ideal S32x64 .f32) (iblk2 V c 2 t : Vec Ideal S10000x1 .f32)
    j (((cfg2.win 3).blk t).view.emb j) (fun k => ?_) (fun k => ?_) ?_
  · exact blk_x V c t (ix2 (j 0) k) (ix2 ((((cfg2.win 3).blk t).view.emb j) 0) k) o0 rfl
  · refine (blk_w V c t (ix2 k (j 1))).trans (congrArg (V c main_arg3 : S32x64.Idx → EReal) ?_)
    exact funext fun a => Fin.ext (match a with | ⟨0, _⟩ => rfl | ⟨1, _⟩ => o1.symm)
  · exact blk_d V c t (ix2 (j 0) 0) (ix2 ((((cfg2.win 3).blk t).view.emb j) 0) 0) o0 rfl

theorem mem_blk (t : Fin cfg2.N) (i : S200000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v43).slice (win2_3.rect t)).set ↔ _
  rw [View.set_slice_whole, Rect.mem_set_unit]
  exact Iff.rfl

/-- Row r lies in the block of point r / 10000, so the blocks cover the array. -/
theorem cover (i : S200000x64.Idx) :
    ∃ t : Fin cfg2.N, (cfg2.win 3).flush t = true ∧ i ∈ ((cfg2.win 3).blk t).view.set := by
  have hi0 : (i 0).val < 200000 := (i 0).isLt
  have hi1 : (i 1).val < S10000x64.size (1 : Fin 2) := (i 1).isLt
  have hN : grid2.N = 200000 / 10000 := N_2
  let t : Fin cfg2.N := ⟨(i 0).val / 10000, by show (i 0).val / 10000 < grid2.N; omega⟩
  obtain ⟨-, -, -, -, -, -, e0, e1⟩ := where_blocks t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    rw [e0]; show (i 0).val / 10000 * 10000 ≤ (i 0).val ∧ (i 0).val < (i 0).val / 10000 * 10000 + 10000; omega
  | ⟨1, _⟩ =>
    show win2_3.index t (1 : Fin 2) * S10000x64.size (1 : Fin 2) ≤ (i 1).val
      ∧ (i 1).val < win2_3.index t (1 : Fin 2) * S10000x64.size (1 : Fin 2) + S10000x64.size (1 : Fin 2)
    rw [e1]; omega

theorem arr_eq (c : Dev nD) : (dat2 V c).arrAt 3 cfg2.N = outFn V c :=
  (dat2 V c).arrAt_eq_of_cover 3 (outFn V c) (fun t _ => flushed_eq V c t) cover

end R2

variable (m : (ℓ : Loc nD τ sig) → Buf (Elt Ideal) ℓ) (ρ : Dev nD → PrngReg)

theorem W12_main_v43 (c : Dev nD) :
    (W12 (F := Ideal) m ρ c (Proc.devRef .tc main_v43) : S200000x64.Idx → EReal)
      = linOut (W11 (F := Ideal) m ρ c (Proc.devRef .tc main_v25) : S200000x32.Idx → EReal)
          (W11 (F := Ideal) m ρ c (Proc.devRef .tc main_arg3) : S32x64.Idx → EReal)
          (W11 (F := Ideal) m ρ c (Proc.devRef .tc main_v42) : S200000x1.Idx → EReal) := by
  have h : W12 (F := Ideal) m ρ c (Proc.devRef .tc main_v43) = (dat2 (V11 (F := Ideal) m ρ) c).arrAt 3 cfg2.N :=
    W12_arr (F := Ideal) m ρ c 3
  exact h.trans (R2.arr_eq (V11 (F := Ideal) m ρ) c)

end Cert.KernelIdeal.Net

end
-- ==== Proof.KI.Region4.lean ====
import proofs.«400126_j7060926234635_3_alg».proof.Proof.Gen.KernelIdeal.Frame
import proofs.«400126_j7060926234635_3_alg».proof.Proof.Spec
import proofs.«400126_j7060926234635_3_alg».proof.Proof.KI.PayA
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Idealize.ShloMosaic.Pipeline (Dat)
open Cert.KernelIdeal Cert.KernelIdeal.Gen Cert.GcnNet

namespace R4

variable (V : (c : Dev nD) → (b : Ref sig .tc) → Buf (Elt Ideal) ((c : Thread nD τ).loc b))

theorem zeros : (![0, 0] : Fin 2 → Nat) = fun _ => 0 := funext fun a => by fin_cases a <;> rfl

theorem pay (x0 : Vec Ideal S10000x64 .f32) (x1 : Vec Ideal S64x32 .f32) (x2 : Vec Ideal S10000x1 .f32) :
    k4_pay1 x0 x1 x2 = linOut x0 x1 x2 := by
  unfold k4_pay1
  exact PayA.lin_pay_cast dot_S10000x64_S64x32_S10000x32_1_0_0_1_n_n rfl broadcasts_S10000x1_S10000x32 shapeCasts_S10000x1_S10000x1 shapeCasts_S10000x64_S10000x64 bitsLt_bf16_f32 x0 x1 x2

abbrev outFn (c : Dev nD) : S400000x32.Idx → EReal :=
  linOut (V c main_v51 : S400000x64.Idx → EReal) (V c main_arg5 : S64x32.Idx → EReal) (V c main_v68 : S400000x1.Idx → EReal)

theorem where_blocks : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem blk_x (c : Dev nD) (t : Fin cfg4.N) (y : S10000x64.Idx) (i : S400000x64.Idx)
    (h0 : (i 0).val = t.val * 10000 + (y 0).val) (h1 : (i 1).val = (y 1).val) :
    (iblk4 V c 0 t : Vec Ideal S10000x64 .f32) y = (V c main_v51 : S400000x64.Idx → EReal) i := by
  obtain ⟨e0, e1, -⟩ := where_blocks t
  unfold iblk4
  rw [View.read_apply]
  show V c main_v51 _ = V c main_v51 _
  refine congrArg (V c main_v51) (funext fun a => Fin.ext ?_)
  match a with
  | ⟨0, _⟩ => show win4_0.index t (0 : Fin 2) * 10000 + 1 * (y 0).val = (i 0).val; rw [e0, h0]; omega
  | ⟨1, _⟩ => show win4_0.index t (1 : Fin 2) * S10000x64.size (1 : Fin 2) + 1 * (y 1).val = (i 1).val; rw [e1, h1]; omega

theorem blk_w (c : Dev nD) (t : Fin cfg4.N) (y : S64x32.Idx) :
    (iblk4 V c 1 t : Vec Ideal S64x32 .f32) y = (V c main_arg5 : S64x32.Idx → EReal) y := by
  obtain ⟨-, -, e0, e1, -⟩ := where_blocks t
  unfold iblk4
  rw [View.read_apply]
  show V c main_arg5 _ = V c main_arg5 _
  refine congrArg (V c main_arg5) (funext fun a => Fin.ext ?_)
  match a with
  | ⟨0, _⟩ => show win4_1.index t (0 : Fin 2) * S64x32.size (0 : Fin 2) + 1 * (y 0).val = (y 0).val; rw [e0]; omega
  | ⟨1, _⟩ => show win4_1.index t (1 : Fin 2) * S64x32.size (1 : Fin 2) + 1 * (y 1).val = (y 1).val; rw [e1]; omega

theorem blk_d (c : Dev nD) (t : Fin cfg4.N) (y : S10000x1.Idx) (i : S400000x1.Idx)
    (h0 : (i 0).val = t.val * 10000 + (y 0).val) (h1 : (i 1).val = (y 1).val) :
    (iblk4 V c 2 t : Vec Ideal S10000x1 .f32) y = (V c main_v68 : S400000x1.Idx → EReal) i := by
  obtain ⟨-, -, -, -, e0, e1, -⟩ := where_blocks t
  unfold iblk4
  rw [View.read_apply]
  show V c main_v68 _ = V c main_v68 _
  refine congrArg (V c main_v68) (funext fun a => Fin.ext ?_)
  match a with
  | ⟨0, _⟩ => show win4_2.index t (0 : Fin 2) * 10000 + 1 * (y 0).val = (i 0).val; rw [e0, h0]; omega
  | ⟨1, _⟩ => show win4_2.index t (1 : Fin 2) * S10000x1.size (1 : Fin 2) + 1 * (y 1).val = (i 1).val; rw [e1, h1]; omega

theorem out_at (t : Fin cfg4.N) (j : S10000x32.Idx) :
    ((((cfg4.win 3).blk t).view.emb j) 0).val = t.val * 10000 + (j 0).val
    ∧ ((((cfg4.win 3).blk t).view.emb j) 1).val = (j 1).val := by
  obtain ⟨-, -, -, -, -, -, e0, e1⟩ := where_blocks t
  constructor
  · show win4_3.index t (0 : Fin 2) * 10000 + 1 * (j 0).val = _; rw [e0]; omega
  · show win4_3.index t (1 : Fin 2) * S10000x32.size (1 : Fin 2) + 1 * (j 1).val = _; rw [e1]; omega

/-- Row r of the scaled product reads only row r of the table and of the column, so what point t writes is block t of the product of the whole arrays. -/
theorem flushed_eq (c : Dev nD) (t : Fin cfg4.N) :
    (dat4 V c).flushed 3 t = ((cfg4.win 3).blk t).view.read (Elt Ideal) (outFn V c) := by
  show (cfg4.win 3).cut (grid4.coords t) ((dat4 V c).after 3 t) = _
  rw [after4_3]
  unfold out4_3
  rw [View.canon_unit_zero zeros]
  simp only [View.ld_unit_zero (S := S10000x64) zeros, View.ld_unit_zero (S := S64x32) zeros, View.ld_unit_zero (S := S10000x1) zeros]
  refine (congrArg ((cfg4.win 3).cut (grid4.coords t)) (pay (iblk4 V c 0 t) (iblk4 V c 1 t) (iblk4 V c 2 t))).trans ?_
  funext j
  obtain ⟨o0, o1⟩ := out_at t j
  show linOut (iblk4 V c 0 t : Vec Ideal S10000x64 .f32) (iblk4 V c 1 t : Vec Ideal S64x32 .f32) (iblk4 V c 2 t : Vec Ideal S10000x1 .f32) j
      = outFn V c (((cfg4.win 3).blk t).view.emb j)
  refine PayA.linOut_block (V c main_v51 : S400000x64.Idx → EReal) (V c main_arg5 : S64x32.Idx → EReal) (V c main_v68 : S400000x1.Idx → EReal)
    (iblk4 V c 0 t : Vec Ideal S10000x64 .f32) (iblk4 V c 1 t : Vec Ideal S64x32 .f32) (iblk4 V c 2 t : Vec Ideal S10000x1 .f32)
    j (((cfg4.win 3).blk t).view.emb j) (fun k => ?_) (fun k => ?_) ?_
  · exact blk_x V c t (ix2 (j 0) k) (ix2 ((((cfg4.win 3).blk t).view.emb j) 0) k) o0 rfl
  · refine (blk_w V c t (ix2 k (j 1))).trans (congrArg (V c main_arg5 : S64x32.Idx → EReal) ?_)
    exact funext fun a => Fin.ext (match a with | ⟨0, _⟩ => rfl | ⟨1, _⟩ => o1.symm)
  · exact blk_d V c t (ix2 (j 0) 0) (ix2 ((((cfg4.win 3).blk t).view.emb j) 0) 0) o0 rfl

theorem mem_blk (t : Fin cfg4.N) (i : S400000x32.Idx) :
    i ∈ ((cfg4.win 3).blk t).view.set ↔ ∀ a : Fin 2, win4_3.index t a * S10000x32.size a ≤ (i a).val
      ∧ (i a).val < win4_3.index t a * S10000x32.size a + S10000x32.size a := by
  show i ∈ ((View.whole main_v69).slice (win4_3.rect t)).set ↔ _
  rw [View.set_slice_whole, Rect.mem_set_unit]
  exact Iff.rfl

/-- Row r lies in the block of point r / 10000, so the blocks cover the array. -/
theorem cover (i : S400000x32.Idx) :
    ∃ t : Fin cfg4.N, (cfg4.win 3).flush t = true ∧ i ∈ ((cfg4.win 3).blk t).view.set := by
  have hi0 : (i 0).val < 400000 := (i 0).isLt
  have hi1 : (i 1).val < S10000x32.size (1 : Fin 2) := (i 1).isLt
  have hN : grid4.N = 400000 / 10000 := N_4
  let t : Fin cfg4.N := ⟨(i 0).val / 10000, by show (i 0).val / 10000 < grid4.N; omega⟩
  obtain ⟨-, -, -, -, -, -, e0, e1⟩ := where_blocks t
  refine ⟨t, flush4_3 t, ?_⟩
  rw [mem_blk]
  intro a
  match a with
  | ⟨0, _⟩ =>
    show win4_3.index t (0 : Fin 2) * 10000 ≤ (i 0).val ∧ (i 0).val < win4_3.index t (0 : Fin 2) * 10000 + 10000
    rw [e0]; show (i 0).val / 10000 * 10000 ≤ (i 0).val ∧ (i 0).val < (i 0).val / 10000 * 10000 + 10000; omega
  | ⟨1, _⟩ =>
    show win4_3.index t (1 : Fin 2) * S10000x32.size (1 : Fin 2) ≤ (i 1).val
      ∧ (i 1).val < win4_3.index t (1 : Fin 2) * S10000x32.size (1 : Fin 2) + S10000x32.size (1 : Fin 2)
    rw [e1]; omega

theorem arr_eq (c : Dev nD) : (dat4 V c).arrAt 3 cfg4.N = outFn V c :=
  (dat4 V c).arrAt_eq_of_cover 3 (outFn V c) (fun t _ => flushed_eq V c t) cover

end R4

variable (m : (ℓ : Loc nD τ sig) → Buf (Elt Ideal) ℓ) (ρ : Dev nD → PrngReg)

theorem W20_main_v69 (c : Dev nD) :
    (W20 (F := Ideal) m ρ c (Proc.devRef .tc main_v69) : S400000x32.Idx → EReal)
      = linOut (W19 (F := Ideal) m ρ c (Proc.devRef .tc main_v51) : S400000x64.Idx → EReal)
          (W19 (F := Ideal) m ρ c (Proc.devRef .tc main_arg5) : S64x32.Idx → EReal)
          (W19 (F := Ideal) m ρ c (Proc.devRef .tc main_v68) : S400000x1.Idx → EReal) := by
  have h : W20 (F := Ideal) m ρ c (Proc.devRef .tc main_v69) = (dat4 (V19 (F := Ideal) m ρ) c).arrAt 3 cfg4.N :=
    W20_arr (F := Ideal) m ρ c 3
  exact h.trans (R4.arr_eq (V19 (F := Ideal) m ρ) c)

end Cert.KernelIdeal.Net

end
-- ==== Proof.KI.Region6.lean ====
import proofs.«400126_j7060926234635_3_alg».proof.Proof.Gen.KernelIdeal.Frame
import proofs.«400126_j7060926234635_3_alg».proof.Proof.Spec
import proofs.«400126_j7060926234635_3_alg».proof.Proof.KI.PayA
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Idealize.ShloMosaic.Pipeline (Dat)
open Cert.KernelIdeal Cert.KernelIdeal.Gen Cert.GcnNet

namespace R6

variable (V : (c : Dev nD) → (b : Ref sig .tc) → Buf (Elt Ideal) ((c : Thread nD τ).loc b))

theorem zeros : (![0, 0] : Fin 2 → Nat) = fun _ => 0 := funext fun a => by fin_cases a <;> rfl

theorem pay (x0 : Vec Ideal S10000x32 .f32) (x1 : Vec Ideal S32x3 .f32) (x2 : Vec Ideal S10000x1 .f32) :
    k6_pay1 x0 x1 x2 = linOut x0 x1 x2 := by
  unfold k6_pay1
  exact PayA.lin_pay_cast dot_S10000x32_S32x3_S10000x3_1_0_0_1_n_n rfl broadcasts_S10000x1_S10000x3 shapeCasts_S10000x1_S10000x1 shapeCasts_S10000x32_S10000x32 bitsLt_bf16_f32 x0 x1 x2

abbrev outFn (c : Dev nD) : S800000x3.Idx → EReal :=
  linOut (V c main_v77 : S800000x32.Idx → EReal) (V c main_arg7 : S32x3.Idx → EReal) (V c main_v94 : S800000x1.Idx → EReal)

theorem where_blocks : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

theorem blk_x (c : Dev nD) (t : Fin cfg6.N) (y : S10000x32.Idx) (i : S800000x32.Idx)
    (h0 : (i 0).val = t.val * 10000 + (y 0).val) (h1 : (i 1).val = (y 1).val) :
    (iblk6 V c 0 t : Vec Ideal S10000x32 .f32) y = (V c main_v77 : S800000x32.Idx → EReal) i := by
  obtain ⟨e0, e1, -⟩ := where_blocks t
  unfold iblk6
  rw [View.read_apply]
  show V c main_v77 _ = V c main_v77 _
  refine congrArg (V c main_v77) (funext fun a => Fin.ext ?_)
  match a with
  | ⟨0, _⟩ => show win6_0.index t (0 : Fin 2) * 10000 + 1 * (y 0).val = (i 0).val; rw [e0, h0]; omega
  | ⟨1, _⟩ => show win6_0.index t (1 : Fin 2) * S10000x32.size (1 : Fin 2) + 1 * (y 1).val = (i 1).val; rw [e1, h1]; omega

theorem blk_w (c : Dev nD) (t : Fin cfg6.N) (y : S32x3.Idx) :
    (iblk6 V c 1 t : Vec Ideal S32x3 .f32) y = (V c main_arg7 : S32x3.Idx → EReal) y := by
  obtain ⟨-, -, e0, e1, -⟩ := where_blocks t
  unfold iblk6
  rw [View.read_apply]
  show V c main_arg7 _ = V c main_arg7 _
  refine congrArg (V c main_arg7) (funext fun a => Fin.ext ?_)
  match a with
  | ⟨0, _⟩ => show win6_1.index t (0 : Fin 2) * S32x3.size (0 : Fin 2) + 1 * (y 0).val = (y 0).val; rw [e0]; omega
  | ⟨1, _⟩ => show win6_1.index t (1 : Fin 2) * S32x3.size (1 : Fin 2) + 1 * (y 1).val = (y 1).val; rw [e1]; omega

theorem blk_d (c : Dev nD) (t : Fin cfg6.N) (y : S10000x1.Idx) (i : S800000x1.Idx)
    (h0 : (i 0).val = t.val * 10000 + (y 0).val) (h1 : (i 1).val = (y 1).val) :
    (iblk6 V c 2 t : Vec Ideal S10000x1 .f32) y = (V c main_v94 : S800000x1.Idx → EReal) i := by
  obtain ⟨-, -, -, -, e0, e1, -⟩ := where_blocks t
  unfold iblk6
  rw [View.read_apply]
  show V c main_v94 _ = V c main_v94 _
  refine congrArg (V c main_v94) (funext fun a => Fin.ext ?_)
  match a with
  | ⟨0, _⟩ => show win6_2.index t (0 : Fin 2) * 10000 + 1 * (y 0).val = (i 0).val; rw [e0, h0]; omega
  | ⟨1, _⟩ => show win6_2.index t (1 : Fin 2) * S10000x1.size (1 : Fin 2) + 1 * (y 1).val = (i 1).val; rw [e1, h1]; omega

theorem out_at (t : Fin cfg6.N) (j : S10000x3.Idx) :
    ((((cfg6.win 3).blk t).view.emb j) 0).val = t.val * 10000 + (j 0).val
    ∧ ((((cfg6.win 3).blk t).view.emb j) 1).val = (j 1).val := by
  obtain ⟨-, -, -, -, -, -, e0, e1⟩ := where_blocks t
  constructor
  · show win6_3.index t (0 : Fin 2) * 10000 + 1 * (j 0).val = _; rw [e0]; omega
  · show win6_3.index t (1 : Fin 2) * S10000x3.size (1 : Fin 2) + 1 * (j 1).val = _; rw [e1]; omega

/-- Row r of the scaled product reads only row r of the table and of the column, so what point t writes is block t of the product of the whole arrays. -/
theorem flushed_eq (c : Dev nD) (t : Fin cfg6.N) :
    (dat6 V c).flushed 3 t = ((cfg6.win 3).blk t).view.read (Elt Ideal) (outFn V c) := by
  show (cfg6.win 3).cut (grid6.coords t) ((dat6 V c).after 3 t) = _
  rw [after6_3]
  unfold out6_3
  rw [View.canon_unit_zero zeros]
  simp only [View.ld_unit_zero (S := S10000x32) zeros, View.ld_unit_zero (S := S32x3) zeros, View.ld_unit_zero (S := S10000x1) zeros]
  refine (congrArg ((cfg6.win 3).cut (grid6.coords t)) (pay (iblk6 V c 0 t) (iblk6 V c 1 t) (iblk6 V c 2 t))).trans ?_
  funext j
  obtain ⟨o0, o1⟩ := out_at t j
  show linOut (iblk6 V c 0 t : Vec Ideal S10000x32 .f32) (iblk6 V c 1 t : Vec Ideal S32x3 .f32) (iblk6 V c 2 t : Vec Ideal S10000x1 .f32) j
      = outFn V c (((cfg6.win 3).blk t).view.emb j)
  refine PayA.linOut_block (V c main_v77 : S800000x32.Idx → EReal) (V c main_arg7 : S32x3.Idx → EReal) (V c main_v94 : S800000x1.Idx → EReal)
    (iblk6 V c 0 t : Vec Ideal S10000x32 .f32) (iblk6 V c 1 t : Vec Ideal S32x3 .f32) (iblk6 V c 2 t : Vec Ideal S10000x1 .f32)
    j (((cfg6.win 3).blk t).view.emb j) (fun k => ?_) (fun k => ?_) ?_
  · exact blk_x V c t (ix2 (j 0) k) (ix2 ((((cfg6.win 3).blk t).view.emb j) 0) k) o0 rfl
  · refine (blk_w V c t (ix2 k (j 1))).trans (congrArg (V c main_arg7 : S32x3.Idx → EReal) ?_)
    exact funext fun a => Fin.ext (match a with | ⟨0, _⟩ => rfl | ⟨1, _⟩ => o1.symm)
  · exact blk_d V c t (ix2 (j 0) 0) (ix2 ((((cfg6.win 3).blk t).view.emb j) 0) 0) o0 rfl

theorem mem_blk (t : Fin cfg6.N) (i : S800000x3.Idx) :
    i ∈ ((cfg6.win 3).blk t).view.set ↔ ∀ a : Fin 2, win6_3.index t a * S10000x3.size a ≤ (i a).val
      ∧ (i a).val < win6_3.index t a * S10000x3.size a + S10000x3.size a := by
  show i ∈ ((View.whole main_v95).slice (win6_3.rect t)).set ↔ _
  rw [View.set_slice_whole, Rect.mem_set_unit]
  exact Iff.rfl

/-- Row r lies in the block of point r / 10000, so the blocks cover the array. -/
theorem cover (i : S800000x3.Idx) :
    ∃ t : Fin cfg6.N, (cfg6.win 3).flush t = true ∧ i ∈ ((cfg6.win 3).blk t).view.set := by
  have hi0 : (i 0).val < 800000 := (i 0).isLt
  have hi1 : (i 1).val < S10000x3.size (1 : Fin 2) := (i 1).isLt
  have hN : grid6.N = 800000 / 10000 := N_6
  let t : Fin cfg6.N := ⟨(i 0).val / 10000, by show (i 0).val / 10000 < grid6.N; omega⟩
  obtain ⟨-, -, -, -, -, -, e0, e1⟩ := where_blocks t
  refine ⟨t, flush6_3 t, ?_⟩
  rw [mem_blk]
  intro a
  match a with
  | ⟨0, _⟩ =>
    show win6_3.index t (0 : Fin 2) * 10000 ≤ (i 0).val ∧ (i 0).val < win6_3.index t (0 : Fin 2) * 10000 + 10000
    rw [e0]; show (i 0).val / 10000 * 10000 ≤ (i 0).val ∧ (i 0).val < (i 0).val / 10000 * 10000 + 10000; omega
  | ⟨1, _⟩ =>
    show win6_3.index t (1 : Fin 2) * S10000x3.size (1 : Fin 2) ≤ (i 1).val
      ∧ (i 1).val < win6_3.index t (1 : Fin 2) * S10000x3.size (1 : Fin 2) + S10000x3.size (1 : Fin 2)
    rw [e1]; omega

theorem arr_eq (c : Dev nD) : (dat6 V c).arrAt 3 cfg6.N = outFn V c :=
  (dat6 V c).arrAt_eq_of_cover 3 (outFn V c) (fun t _ => flushed_eq V c t) cover

end R6

variable (m : (ℓ : Loc nD τ sig) → Buf (Elt Ideal) ℓ) (ρ : Dev nD → PrngReg)

theorem W28_main_v95 (c : Dev nD) :
    (W28 (F := Ideal) m ρ c (Proc.devRef .tc main_v95) : S800000x3.Idx → EReal)
      = linOut (W27 (F := Ideal) m ρ c (Proc.devRef .tc main_v77) : S800000x32.Idx → EReal)
          (W27 (F := Ideal) m ρ c (Proc.devRef .tc main_arg7) : S32x3.Idx → EReal)
          (W27 (F := Ideal) m ρ c (Proc.devRef .tc main_v94) : S800000x1.Idx → EReal) := by
  have h : W28 (F := Ideal) m ρ c (Proc.devRef .tc main_v95) = (dat6 (V27 (F := Ideal) m ρ) c).arrAt 3 cfg6.N :=
    W28_arr (F := Ideal) m ρ c 3
  exact h.trans (R6.arr_eq (V27 (F := Ideal) m ρ) c)

end Cert.KernelIdeal.Net

end
-- ==== Proof.KI.RegionsA.lean ====
import proofs.«400126_j7060926234635_3_alg».proof.Proof.KI.Region0
import proofs.«400126_j7060926234635_3_alg».proof.Proof.KI.Region2
import proofs.«400126_j7060926234635_3_alg».proof.Proof.KI.Region4
import proofs.«400126_j7060926234635_3_alg».proof.Proof.KI.Region6
-- ==== Proof.KI.PayB.lean ====
import Idealize.ShloMosaic.PureOps.Ideal
import Idealize.ShloMosaic.PureOps.Ideal.Laws
import Idealize.ShloMosaic.Lib.ValueIdx
import Idealize.ShloMosaic.Lib.Pipeline.Value
import proofs.«400126_j7060926234635_3_alg».proof.Proof.LibColumn
import proofs.«400126_j7060926234635_3_alg».proof.Proof.LibMlp

noncomputable section

open Idealize.ShloMosaic Idealize.ShloMosaic.ValueIdx

namespace Cert.GcnNet.PayB

theorem relu_scale_shift_apply {N H : ℕ}
    (hca : (⟨2, ![N, H]⟩ : Shape).ShapeCasts ⟨2, ![N, H]⟩)
    (hcd : (⟨2, ![N, 1]⟩ : Shape).ShapeCasts ⟨2, ![N, 1]⟩)
    (hcb : (⟨2, ![1, H]⟩ : Shape).ShapeCasts ⟨2, ![1, H]⟩)
    (hbd : (⟨2, ![N, 1]⟩ : Shape).Broadcasts ⟨2, ![N, H]⟩)
    (hbb : (⟨2, ![1, H]⟩ : Shape).Broadcasts ⟨2, ![N, H]⟩)
    (a : FVec Ideal ⟨2, ![N, H]⟩ .f32) (d : FVec Ideal ⟨2, ![N, 1]⟩ .f32) (b : FVec Ideal ⟨2, ![1, H]⟩ .f32)
    (p : Fin N) (q : Fin H) :
    maximumf (addf (mulf (shapeCast (⟨2, ![N, H]⟩ : Shape) a hca)
          (broadcastTo (⟨2, ![N, H]⟩ : Shape) (shapeCast (⟨2, ![N, 1]⟩ : Shape) d hcd) hbd))
        (broadcastTo (⟨2, ![N, H]⟩ : Shape) (shapeCast (⟨2, ![1, H]⟩ : Shape) b hcb) hbb))
      (broadcast (⟨2, ![N, H]⟩ : Shape) (Scalar.ofBits .f32 0x00000000#32)) (ix2 p q)
      = max (a (ix2 p q) * d (ix2 p (0 : Fin 1)) + b (ix2 (0 : Fin 1) q)) 0 := by
  rw [shapeCast_self a hca, shapeCast_self d hcd, shapeCast_self b hcb]
  rw [maximumf_apply, addf_apply, mulf_apply, broadcast_apply]
  rw [Cert.Attn.Column.broadcastTo_a1_ab_apply d hbd p q, Cert.Mlp.bcast_row hbb b p q]
  show max (a (ix2 p q) * d (ix2 p (0 : Fin 1)) + b (ix2 (0 : Fin 1) q)) (Ideal.ofBits .f32 0x00000000#32) = _
  rw [Ideal.ofBits_zero_f32]

end Cert.GcnNet.PayB

end
-- ==== Proof.KI.Region1.lean ====
import proofs.«400126_j7060926234635_3_alg».proof.Proof.Gen.KernelIdeal.Frame
import proofs.«400126_j7060926234635_3_alg».proof.Proof.Spec
import proofs.«400126_j7060926234635_3_alg».proof.Proof.KI.PayB
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet

variable (m : (ℓ : Loc nD τ sig) → Buf (Elt Ideal) ℓ) (ρ : Dev nD → PrngReg)

section Region1

variable (V : (c : Dev nD) → (b : Ref sig .tc) → Buf (Elt Ideal) ((c : Thread nD τ).loc b))

theorem zero_offsets1 : (![0, 0] : Fin 2 → Nat) = fun _ => 0 := funext fun a => by fin_cases a <;> rfl

theorem pay1_at (x0 : Vec Ideal S10000x32 .f32) (x1 : Vec Ideal S10000x1 .f32) (x2 : Vec Ideal S1x32 .f32)
    (p : Fin 10000) (q : Fin 32) :
    k1_pay1 x0 x1 x2 (ix2 p q) = max (x0 (ix2 p q) * x1 (ix2 p (0 : Fin 1)) + x2 (ix2 (0 : Fin 1) q)) 0 :=
  PayB.relu_scale_shift_apply (N := 10000) (H := 32) _ _ _ _ _ x0 x1 x2 p q

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

abbrev arrA1 (c : Dev nD) : S100000x32.Idx → EReal := V c main_v21
abbrev arrD1 (c : Dev nD) : S100000x1.Idx → EReal := V c main_v22
abbrev arrB1 (c : Dev nD) : S1x32.Idx → EReal := V c main_v23

abbrev blkA1 (c : Dev nD) (t : Fin cfg1.N) : Vec Ideal S10000x32 .f32 := iblk1 V c 0 t
abbrev blkD1 (c : Dev nD) (t : Fin cfg1.N) : Vec Ideal S10000x1 .f32 := iblk1 V c 1 t
abbrev blkB1 (c : Dev nD) (t : Fin cfg1.N) : Vec Ideal S1x32 .f32 := iblk1 V c 2 t

abbrev at1 (t : Fin cfg1.N) (p : Fin 10000) (q : Fin 32) : S100000x32.Idx := ((cfg1.win 3).blk t).view.emb (ix2 p q)

theorem blkA1_at (c : Dev nD) (t : Fin cfg1.N) (p : Fin 10000) (q : Fin 32) :
    blkA1 V c t (ix2 p q) = arrA1 V c (at1 t p q) := by
  obtain ⟨e00, e01, -, -, -, -, e30, e31⟩ := idx1 t
  show arrA1 V c (((cfg1.win 0).blk t).view.emb (ix2 p q)) = _
  refine congrArg (arrA1 V c) ?_
  funext a; apply Fin.ext
  match a with
  | ⟨0, _⟩ => show win1_0.index t (0 : Fin 2) * 10000 + 1 * p.val = win1_3.index t (0 : Fin 2) * 10000 + 1 * p.val; omega
  | ⟨1, _⟩ => show win1_0.index t (1 : Fin 2) * 32 + 1 * q.val = win1_3.index t (1 : Fin 2) * 32 + 1 * q.val; omega

theorem blkD1_at (c : Dev nD) (t : Fin cfg1.N) (p : Fin 10000) (q : Fin 32) :
    blkD1 V c t (ix2 p (0 : Fin 1)) = arrD1 V c (ix2 (at1 t p q 0) (0 : Fin 1)) := by
  obtain ⟨-, -, e10, e11, -, -, e30, e31⟩ := idx1 t
  show arrD1 V c (((cfg1.win 1).blk t).view.emb (ix2 p (0 : Fin 1))) = _
  refine congrArg (arrD1 V c) ?_
  funext a; apply Fin.ext
  match a with
  | ⟨0, _⟩ => show win1_1.index t (0 : Fin 2) * 10000 + 1 * p.val = win1_3.index t (0 : Fin 2) * 10000 + 1 * p.val; omega
  | ⟨1, _⟩ => show win1_1.index t (1 : Fin 2) * 1 + 1 * 0 = 0; omega

theorem blkB1_at (c : Dev nD) (t : Fin cfg1.N) (p : Fin 10000) (q : Fin 32) :
    blkB1 V c t (ix2 (0 : Fin 1) q) = arrB1 V c (ix2 (0 : Fin 1) (at1 t p q 1)) := by
  obtain ⟨-, -, -, -, e20, e21, e30, e31⟩ := idx1 t
  show arrB1 V c (((cfg1.win 2).blk t).view.emb (ix2 (0 : Fin 1) q)) = _
  refine congrArg (arrB1 V c) ?_
  funext a; apply Fin.ext
  match a with
  | ⟨0, _⟩ => show win1_2.index t (0 : Fin 2) * 1 + 1 * 0 = 0; omega
  | ⟨1, _⟩ => show win1_2.index t (1 : Fin 2) * 32 + 1 * q.val = win1_3.index t (1 : Fin 2) * 32 + 1 * q.val; omega

theorem point1 (c : Dev nD) (t : Fin cfg1.N) (p : Fin 10000) (q : Fin 32) :
    k1_pay1 (blkA1 V c t) (blkD1 V c t) (blkB1 V c t) (ix2 p q)
      = brOut (arrA1 V c) (arrD1 V c) (arrB1 V c) (at1 t p q) := by
  refine (pay1_at _ _ _ p q).trans ?_
  show max (blkA1 V c t (ix2 p q) * blkD1 V c t (ix2 p (0 : Fin 1)) + blkB1 V c t (ix2 (0 : Fin 1) q)) 0
    = max (arrA1 V c (at1 t p q) * arrD1 V c (ix2 (at1 t p q 0) (0 : Fin 1)) + arrB1 V c (ix2 (0 : Fin 1) (at1 t p q 1))) 0
  rw [blkA1_at V c t p q, blkD1_at V c t p q, blkB1_at V c t p q]

/-- Entry (r, q) of the result reads only row r of the sums and of the column and entry q of the bias, so what point t writes is block t of the whole-array result. -/
theorem flushed1_eq (c : Dev nD) (t : Fin cfg1.N) :
    (dat1 V c).flushed 3 t
      = ((cfg1.win 3).blk t).view.read (Elt Ideal) (brOut (arrA1 V c) (arrD1 V c) (arrB1 V c)) := by
  show (cfg1.win 3).cut (grid1.coords t) ((dat1 V c).after 3 t) = _
  rw [after1_3]
  unfold out1_3
  rw [View.canon_unit_zero zero_offsets1]
  simp only [View.ld_unit_zero (S := S10000x32) zero_offsets1, View.ld_unit_zero (S := S10000x1) zero_offsets1,
    View.ld_unit_zero (S := S1x32) zero_offsets1]
  funext j
  obtain ⟨p, q, rfl⟩ : ∃ (p : Fin 10000) (q : Fin 32), j = ix2 p q := ⟨j 0, j 1, eq_ix2 j⟩
  exact point1 V c t p q

theorem mem_blk1 (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v24).slice (win1_3.rect t)).set ↔ _
  rw [View.set_slice_whole, Rect.mem_set_unit]
  exact Iff.rfl

/-- Row r lies in the block of point r / 10000, so the blocks cover the array. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, e30, e31⟩ := idx1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 32 ≤ (i 1).val ∧ (i 1).val < win1_3.index t (1 : Fin 2) * 32 + 32
    omega

theorem arr1 (c : Dev nD) :
    (dat1 V c).arrAt 3 cfg1.N = brOut (arrA1 V c) (arrD1 V c) (arrB1 V c) :=
  (dat1 V c).arrAt_eq_of_cover 3 (brOut (arrA1 V c) (arrD1 V c) (arrB1 V c)) (fun t _ => flushed1_eq V c t) cover1

end Region1

theorem W7_main_v24 (c : Dev nD) :
    (W7 (F := Ideal) m ρ c (Proc.devRef .tc main_v24) : S100000x32.Idx → EReal)
      = brOut (W6 (F := Ideal) m ρ c (Proc.devRef .tc main_v21) : S100000x32.Idx → EReal)
          (W6 (F := Ideal) m ρ c (Proc.devRef .tc main_v22) : S100000x1.Idx → EReal)
          (W6 (F := Ideal) m ρ c (Proc.devRef .tc main_v23) : S1x32.Idx → EReal) :=
  (W7_arr (F := Ideal) m ρ c 3).trans (arr1 (V6 (F := Ideal) m ρ) c)

end Cert.KernelIdeal.Net

end
-- ==== Proof.KI.Region3.lean ====
import proofs.«400126_j7060926234635_3_alg».proof.Proof.Gen.KernelIdeal.Frame
import proofs.«400126_j7060926234635_3_alg».proof.Proof.Spec
import proofs.«400126_j7060926234635_3_alg».proof.Proof.KI.PayB
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet

variable (m : (ℓ : Loc nD τ sig) → Buf (Elt Ideal) ℓ) (ρ : Dev nD → PrngReg)

section Region3

variable (V : (c : Dev nD) → (b : Ref sig .tc) → Buf (Elt Ideal) ((c : Thread nD τ).loc b))

theorem zero_offsets3 : (![0, 0] : Fin 2 → Nat) = fun _ => 0 := funext fun a => by fin_cases a <;> rfl

theorem pay3_at (x0 : Vec Ideal S10000x64 .f32) (x1 : Vec Ideal S10000x1 .f32) (x2 : Vec Ideal S1x64 .f32)
    (p : Fin 10000) (q : Fin 64) :
    k3_pay1 x0 x1 x2 (ix2 p q) = max (x0 (ix2 p q) * x1 (ix2 p (0 : Fin 1)) + x2 (ix2 (0 : Fin 1) q)) 0 :=
  PayB.relu_scale_shift_apply (N := 10000) (H := 64) _ _ _ _ _ x0 x1 x2 p q

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

abbrev arrA3 (c : Dev nD) : S200000x64.Idx → EReal := V c main_v47
abbrev arrD3 (c : Dev nD) : S200000x1.Idx → EReal := V c main_v48
abbrev arrB3 (c : Dev nD) : S1x64.Idx → EReal := V c main_v49

abbrev blkA3 (c : Dev nD) (t : Fin cfg3.N) : Vec Ideal S10000x64 .f32 := iblk3 V c 0 t
abbrev blkD3 (c : Dev nD) (t : Fin cfg3.N) : Vec Ideal S10000x1 .f32 := iblk3 V c 1 t
abbrev blkB3 (c : Dev nD) (t : Fin cfg3.N) : Vec Ideal S1x64 .f32 := iblk3 V c 2 t

abbrev at3 (t : Fin cfg3.N) (p : Fin 10000) (q : Fin 64) : S200000x64.Idx := ((cfg3.win 3).blk t).view.emb (ix2 p q)

theorem blkA3_at (c : Dev nD) (t : Fin cfg3.N) (p : Fin 10000) (q : Fin 64) :
    blkA3 V c t (ix2 p q) = arrA3 V c (at3 t p q) := by
  obtain ⟨e00, e01, -, -, -, -, e30, e31⟩ := idx3 t
  show arrA3 V c (((cfg3.win 0).blk t).view.emb (ix2 p q)) = _
  refine congrArg (arrA3 V c) ?_
  funext a; apply Fin.ext
  match a with
  | ⟨0, _⟩ => show win3_0.index t (0 : Fin 2) * 10000 + 1 * p.val = win3_3.index t (0 : Fin 2) * 10000 + 1 * p.val; omega
  | ⟨1, _⟩ => show win3_0.index t (1 : Fin 2) * 64 + 1 * q.val = win3_3.index t (1 : Fin 2) * 64 + 1 * q.val; omega

theorem blkD3_at (c : Dev nD) (t : Fin cfg3.N) (p : Fin 10000) (q : Fin 64) :
    blkD3 V c t (ix2 p (0 : Fin 1)) = arrD3 V c (ix2 (at3 t p q 0) (0 : Fin 1)) := by
  obtain ⟨-, -, e10, e11, -, -, e30, e31⟩ := idx3 t
  show arrD3 V c (((cfg3.win 1).blk t).view.emb (ix2 p (0 : Fin 1))) = _
  refine congrArg (arrD3 V c) ?_
  funext a; apply Fin.ext
  match a with
  | ⟨0, _⟩ => show win3_1.index t (0 : Fin 2) * 10000 + 1 * p.val = win3_3.index t (0 : Fin 2) * 10000 + 1 * p.val; omega
  | ⟨1, _⟩ => show win3_1.index t (1 : Fin 2) * 1 + 1 * 0 = 0; omega

theorem blkB3_at (c : Dev nD) (t : Fin cfg3.N) (p : Fin 10000) (q : Fin 64) :
    blkB3 V c t (ix2 (0 : Fin 1) q) = arrB3 V c (ix2 (0 : Fin 1) (at3 t p q 1)) := by
  obtain ⟨-, -, -, -, e20, e21, e30, e31⟩ := idx3 t
  show arrB3 V c (((cfg3.win 2).blk t).view.emb (ix2 (0 : Fin 1) q)) = _
  refine congrArg (arrB3 V c) ?_
  funext a; apply Fin.ext
  match a with
  | ⟨0, _⟩ => show win3_2.index t (0 : Fin 2) * 1 + 1 * 0 = 0; omega
  | ⟨1, _⟩ => show win3_2.index t (1 : Fin 2) * 64 + 1 * q.val = win3_3.index t (1 : Fin 2) * 64 + 1 * q.val; omega

theorem point3 (c : Dev nD) (t : Fin cfg3.N) (p : Fin 10000) (q : Fin 64) :
    k3_pay1 (blkA3 V c t) (blkD3 V c t) (blkB3 V c t) (ix2 p q)
      = brOut (arrA3 V c) (arrD3 V c) (arrB3 V c) (at3 t p q) := by
  refine (pay3_at _ _ _ p q).trans ?_
  show max (blkA3 V c t (ix2 p q) * blkD3 V c t (ix2 p (0 : Fin 1)) + blkB3 V c t (ix2 (0 : Fin 1) q)) 0
    = max (arrA3 V c (at3 t p q) * arrD3 V c (ix2 (at3 t p q 0) (0 : Fin 1)) + arrB3 V c (ix2 (0 : Fin 1) (at3 t p q 1))) 0
  rw [blkA3_at V c t p q, blkD3_at V c t p q, blkB3_at V c t p q]

/-- Entry (r, q) of the result reads only row r of the sums and of the column and entry q of the bias, so what point t writes is block t of the whole-array result. -/
theorem flushed3_eq (c : Dev nD) (t : Fin cfg3.N) :
    (dat3 V c).flushed 3 t
      = ((cfg3.win 3).blk t).view.read (Elt Ideal) (brOut (arrA3 V c) (arrD3 V c) (arrB3 V c)) := by
  show (cfg3.win 3).cut (grid3.coords t) ((dat3 V c).after 3 t) = _
  rw [after3_3]
  unfold out3_3
  rw [View.canon_unit_zero zero_offsets3]
  simp only [View.ld_unit_zero (S := S10000x64) zero_offsets3, View.ld_unit_zero (S := S10000x1) zero_offsets3,
    View.ld_unit_zero (S := S1x64) zero_offsets3]
  funext j
  obtain ⟨p, q, rfl⟩ : ∃ (p : Fin 10000) (q : Fin 64), j = ix2 p q := ⟨j 0, j 1, eq_ix2 j⟩
  exact point3 V c t p q

theorem mem_blk3 (t : Fin cfg3.N) (i : S200000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v50).slice (win3_3.rect t)).set ↔ _
  rw [View.set_slice_whole, Rect.mem_set_unit]
  exact Iff.rfl

/-- Row r lies in the block of point r / 10000, so the blocks cover the array. -/
theorem cover3 (i : S200000x64.Idx) :
    ∃ t : Fin cfg3.N, (cfg3.win 3).flush t = true ∧ i ∈ ((cfg3.win 3).blk t).view.set := by
  have hi0 : (i 0).val < 200000 := (i 0).isLt
  have hi1 : (i 1).val < 64 := (i 1).isLt
  obtain ⟨t, ht⟩ : ∃ t : Fin cfg3.N, t.val = (i 0).val / 10000 :=
    ⟨⟨(i 0).val / 10000, by rw [show cfg3.N = 20 from N_3]; omega⟩, rfl⟩
  obtain ⟨-, -, -, -, -, -, e30, e31⟩ := idx3 t
  refine ⟨t, flush3_3 t, ?_⟩
  rw [mem_blk3]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 64 ≤ (i 1).val ∧ (i 1).val < win3_3.index t (1 : Fin 2) * 64 + 64
    omega

theorem arr3 (c : Dev nD) :
    (dat3 V c).arrAt 3 cfg3.N = brOut (arrA3 V c) (arrD3 V c) (arrB3 V c) :=
  (dat3 V c).arrAt_eq_of_cover 3 (brOut (arrA3 V c) (arrD3 V c) (arrB3 V c)) (fun t _ => flushed3_eq V c t) cover3

end Region3

theorem W15_main_v50 (c : Dev nD) :
    (W15 (F := Ideal) m ρ c (Proc.devRef .tc main_v50) : S200000x64.Idx → EReal)
      = brOut (W14 (F := Ideal) m ρ c (Proc.devRef .tc main_v47) : S200000x64.Idx → EReal)
          (W14 (F := Ideal) m ρ c (Proc.devRef .tc main_v48) : S200000x1.Idx → EReal)
          (W14 (F := Ideal) m ρ c (Proc.devRef .tc main_v49) : S1x64.Idx → EReal) :=
  (W15_arr (F := Ideal) m ρ c 3).trans (arr3 (V14 (F := Ideal) m ρ) c)

end Cert.KernelIdeal.Net

end
-- ==== Proof.KI.Region5.lean ====
import proofs.«400126_j7060926234635_3_alg».proof.Proof.Gen.KernelIdeal.Frame
import proofs.«400126_j7060926234635_3_alg».proof.Proof.Spec
import proofs.«400126_j7060926234635_3_alg».proof.Proof.KI.PayB
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet

variable (m : (ℓ : Loc nD τ sig) → Buf (Elt Ideal) ℓ) (ρ : Dev nD → PrngReg)

section Region5

variable (V : (c : Dev nD) → (b : Ref sig .tc) → Buf (Elt Ideal) ((c : Thread nD τ).loc b))

theorem zero_offsets5 : (![0, 0] : Fin 2 → Nat) = fun _ => 0 := funext fun a => by fin_cases a <;> rfl

theorem pay5_at (x0 : Vec Ideal S10000x32 .f32) (x1 : Vec Ideal S10000x1 .f32) (x2 : Vec Ideal S1x32 .f32)
    (p : Fin 10000) (q : Fin 32) :
    k5_pay1 x0 x1 x2 (ix2 p q) = max (x0 (ix2 p q) * x1 (ix2 p (0 : Fin 1)) + x2 (ix2 (0 : Fin 1) q)) 0 :=
  PayB.relu_scale_shift_apply (N := 10000) (H := 32) _ _ _ _ _ x0 x1 x2 p q

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

abbrev arrA5 (c : Dev nD) : S400000x32.Idx → EReal := V c main_v73
abbrev arrD5 (c : Dev nD) : S400000x1.Idx → EReal := V c main_v74
abbrev arrB5 (c : Dev nD) : S1x32.Idx → EReal := V c main_v75

abbrev blkA5 (c : Dev nD) (t : Fin cfg5.N) : Vec Ideal S10000x32 .f32 := iblk5 V c 0 t
abbrev blkD5 (c : Dev nD) (t : Fin cfg5.N) : Vec Ideal S10000x1 .f32 := iblk5 V c 1 t
abbrev blkB5 (c : Dev nD) (t : Fin cfg5.N) : Vec Ideal S1x32 .f32 := iblk5 V c 2 t

abbrev at5 (t : Fin cfg5.N) (p : Fin 10000) (q : Fin 32) : S400000x32.Idx := ((cfg5.win 3).blk t).view.emb (ix2 p q)

theorem blkA5_at (c : Dev nD) (t : Fin cfg5.N) (p : Fin 10000) (q : Fin 32) :
    blkA5 V c t (ix2 p q) = arrA5 V c (at5 t p q) := by
  obtain ⟨e00, e01, -, -, -, -, e30, e31⟩ := idx5 t
  show arrA5 V c (((cfg5.win 0).blk t).view.emb (ix2 p q)) = _
  refine congrArg (arrA5 V c) ?_
  funext a; apply Fin.ext
  match a with
  | ⟨0, _⟩ => show win5_0.index t (0 : Fin 2) * 10000 + 1 * p.val = win5_3.index t (0 : Fin 2) * 10000 + 1 * p.val; omega
  | ⟨1, _⟩ => show win5_0.index t (1 : Fin 2) * 32 + 1 * q.val = win5_3.index t (1 : Fin 2) * 32 + 1 * q.val; omega

theorem blkD5_at (c : Dev nD) (t : Fin cfg5.N) (p : Fin 10000) (q : Fin 32) :
    blkD5 V c t (ix2 p (0 : Fin 1)) = arrD5 V c (ix2 (at5 t p q 0) (0 : Fin 1)) := by
  obtain ⟨-, -, e10, e11, -, -, e30, e31⟩ := idx5 t
  show arrD5 V c (((cfg5.win 1).blk t).view.emb (ix2 p (0 : Fin 1))) = _
  refine congrArg (arrD5 V c) ?_
  funext a; apply Fin.ext
  match a with
  | ⟨0, _⟩ => show win5_1.index t (0 : Fin 2) * 10000 + 1 * p.val = win5_3.index t (0 : Fin 2) * 10000 + 1 * p.val; omega
  | ⟨1, _⟩ => show win5_1.index t (1 : Fin 2) * 1 + 1 * 0 = 0; omega

theorem blkB5_at (c : Dev nD) (t : Fin cfg5.N) (p : Fin 10000) (q : Fin 32) :
    blkB5 V c t (ix2 (0 : Fin 1) q) = arrB5 V c (ix2 (0 : Fin 1) (at5 t p q 1)) := by
  obtain ⟨-, -, -, -, e20, e21, e30, e31⟩ := idx5 t
  show arrB5 V c (((cfg5.win 2).blk t).view.emb (ix2 (0 : Fin 1) q)) = _
  refine congrArg (arrB5 V c) ?_
  funext a; apply Fin.ext
  match a with
  | ⟨0, _⟩ => show win5_2.index t (0 : Fin 2) * 1 + 1 * 0 = 0; omega
  | ⟨1, _⟩ => show win5_2.index t (1 : Fin 2) * 32 + 1 * q.val = win5_3.index t (1 : Fin 2) * 32 + 1 * q.val; omega

theorem point5 (c : Dev nD) (t : Fin cfg5.N) (p : Fin 10000) (q : Fin 32) :
    k5_pay1 (blkA5 V c t) (blkD5 V c t) (blkB5 V c t) (ix2 p q)
      = brOut (arrA5 V c) (arrD5 V c) (arrB5 V c) (at5 t p q) := by
  refine (pay5_at _ _ _ p q).trans ?_
  show max (blkA5 V c t (ix2 p q) * blkD5 V c t (ix2 p (0 : Fin 1)) + blkB5 V c t (ix2 (0 : Fin 1) q)) 0
    = max (arrA5 V c (at5 t p q) * arrD5 V c (ix2 (at5 t p q 0) (0 : Fin 1)) + arrB5 V c (ix2 (0 : Fin 1) (at5 t p q 1))) 0
  rw [blkA5_at V c t p q, blkD5_at V c t p q, blkB5_at V c t p q]

/-- Entry (r, q) of the result reads only row r of the sums and of the column and entry q of the bias, so what point t writes is block t of the whole-array result. -/
theorem flushed5_eq (c : Dev nD) (t : Fin cfg5.N) :
    (dat5 V c).flushed 3 t
      = ((cfg5.win 3).blk t).view.read (Elt Ideal) (brOut (arrA5 V c) (arrD5 V c) (arrB5 V c)) := by
  show (cfg5.win 3).cut (grid5.coords t) ((dat5 V c).after 3 t) = _
  rw [after5_3]
  unfold out5_3
  rw [View.canon_unit_zero zero_offsets5]
  simp only [View.ld_unit_zero (S := S10000x32) zero_offsets5, View.ld_unit_zero (S := S10000x1) zero_offsets5,
    View.ld_unit_zero (S := S1x32) zero_offsets5]
  funext j
  obtain ⟨p, q, rfl⟩ : ∃ (p : Fin 10000) (q : Fin 32), j = ix2 p q := ⟨j 0, j 1, eq_ix2 j⟩
  exact point5 V c t p q

theorem mem_blk5 (t : Fin cfg5.N) (i : S400000x32.Idx) :
    i ∈ ((cfg5.win 3).blk t).view.set ↔ ∀ a : Fin 2, win5_3.index t a * S10000x32.size a ≤ (i a).val
      ∧ (i a).val < win5_3.index t a * S10000x32.size a + S10000x32.size a := by
  show i ∈ ((View.whole main_v76).slice (win5_3.rect t)).set ↔ _
  rw [View.set_slice_whole, Rect.mem_set_unit]
  exact Iff.rfl

/-- Row r lies in the block of point r / 10000, so the blocks cover the array. -/
theorem cover5 (i : S400000x32.Idx) :
    ∃ t : Fin cfg5.N, (cfg5.win 3).flush t = true ∧ i ∈ ((cfg5.win 3).blk t).view.set := by
  have hi0 : (i 0).val < 400000 := (i 0).isLt
  have hi1 : (i 1).val < 32 := (i 1).isLt
  obtain ⟨t, ht⟩ : ∃ t : Fin cfg5.N, t.val = (i 0).val / 10000 :=
    ⟨⟨(i 0).val / 10000, by rw [show cfg5.N = 40 from N_5]; omega⟩, rfl⟩
  obtain ⟨-, -, -, -, -, -, e30, e31⟩ := idx5 t
  refine ⟨t, flush5_3 t, ?_⟩
  rw [mem_blk5]
  intro a
  match a with
  | ⟨0, _⟩ =>
    show win5_3.index t (0 : Fin 2) * 10000 ≤ (i 0).val ∧ (i 0).val < win5_3.index t (0 : Fin 2) * 10000 + 10000
    omega
  | ⟨1, _⟩ =>
    show win5_3.index t (1 : Fin 2) * 32 ≤ (i 1).val ∧ (i 1).val < win5_3.index t (1 : Fin 2) * 32 + 32
    omega

theorem arr5 (c : Dev nD) :
    (dat5 V c).arrAt 3 cfg5.N = brOut (arrA5 V c) (arrD5 V c) (arrB5 V c) :=
  (dat5 V c).arrAt_eq_of_cover 3 (brOut (arrA5 V c) (arrD5 V c) (arrB5 V c)) (fun t _ => flushed5_eq V c t) cover5

end Region5

theorem W23_main_v76 (c : Dev nD) :
    (W23 (F := Ideal) m ρ c (Proc.devRef .tc main_v76) : S400000x32.Idx → EReal)
      = brOut (W22 (F := Ideal) m ρ c (Proc.devRef .tc main_v73) : S400000x32.Idx → EReal)
          (W22 (F := Ideal) m ρ c (Proc.devRef .tc main_v74) : S400000x1.Idx → EReal)
          (W22 (F := Ideal) m ρ c (Proc.devRef .tc main_v75) : S1x32.Idx → EReal) :=
  (W23_arr (F := Ideal) m ρ c 3).trans (arr5 (V22 (F := Ideal) m ρ) c)

end Cert.KernelIdeal.Net

end
-- ==== Proof.KI.Region7.lean ====
import proofs.«400126_j7060926234635_3_alg».proof.Proof.Gen.KernelIdeal.Frame
import proofs.«400126_j7060926234635_3_alg».proof.Proof.Spec
import proofs.«400126_j7060926234635_3_alg».proof.Proof.KI.PayB
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet

variable (m : (ℓ : Loc nD τ sig) → Buf (Elt Ideal) ℓ) (ρ : Dev nD → PrngReg)

section Region7

variable (V : (c : Dev nD) → (b : Ref sig .tc) → Buf (Elt Ideal) ((c : Thread nD τ).loc b))

theorem zero_offsets7 : (![0, 0] : Fin 2 → Nat) = fun _ => 0 := funext fun a => by fin_cases a <;> rfl

theorem pay7_at (x0 : Vec Ideal S10000x3 .f32) (x1 : Vec Ideal S10000x1 .f32) (x2 : Vec Ideal S1x3 .f32)
    (p : Fin 10000) (q : Fin 3) :
    k7_pay1 x0 x1 x2 (ix2 p q) = max (x0 (ix2 p q) * x1 (ix2 p (0 : Fin 1)) + x2 (ix2 (0 : Fin 1) q)) 0 :=
  PayB.relu_scale_shift_apply (N := 10000) (H := 3) _ _ _ _ _ x0 x1 x2 p q

theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

abbrev arrA7 (c : Dev nD) : S800000x3.Idx → EReal := V c main_v99
abbrev arrD7 (c : Dev nD) : S800000x1.Idx → EReal := V c main_v100
abbrev arrB7 (c : Dev nD) : S1x3.Idx → EReal := V c main_v101

abbrev blkA7 (c : Dev nD) (t : Fin cfg7.N) : Vec Ideal S10000x3 .f32 := iblk7 V c 0 t
abbrev blkD7 (c : Dev nD) (t : Fin cfg7.N) : Vec Ideal S10000x1 .f32 := iblk7 V c 1 t
abbrev blkB7 (c : Dev nD) (t : Fin cfg7.N) : Vec Ideal S1x3 .f32 := iblk7 V c 2 t

abbrev at7 (t : Fin cfg7.N) (p : Fin 10000) (q : Fin 3) : S800000x3.Idx := ((cfg7.win 3).blk t).view.emb (ix2 p q)

theorem blkA7_at (c : Dev nD) (t : Fin cfg7.N) (p : Fin 10000) (q : Fin 3) :
    blkA7 V c t (ix2 p q) = arrA7 V c (at7 t p q) := by
  obtain ⟨e00, e01, -, -, -, -, e30, e31⟩ := idx7 t
  show arrA7 V c (((cfg7.win 0).blk t).view.emb (ix2 p q)) = _
  refine congrArg (arrA7 V c) ?_
  funext a; apply Fin.ext
  match a with
  | ⟨0, _⟩ => show win7_0.index t (0 : Fin 2) * 10000 + 1 * p.val = win7_3.index t (0 : Fin 2) * 10000 + 1 * p.val; omega
  | ⟨1, _⟩ => show win7_0.index t (1 : Fin 2) * 3 + 1 * q.val = win7_3.index t (1 : Fin 2) * 3 + 1 * q.val; omega

theorem blkD7_at (c : Dev nD) (t : Fin cfg7.N) (p : Fin 10000) (q : Fin 3) :
    blkD7 V c t (ix2 p (0 : Fin 1)) = arrD7 V c (ix2 (at7 t p q 0) (0 : Fin 1)) := by
  obtain ⟨-, -, e10, e11, -, -, e30, e31⟩ := idx7 t
  show arrD7 V c (((cfg7.win 1).blk t).view.emb (ix2 p (0 : Fin 1))) = _
  refine congrArg (arrD7 V c) ?_
  funext a; apply Fin.ext
  match a with
  | ⟨0, _⟩ => show win7_1.index t (0 : Fin 2) * 10000 + 1 * p.val = win7_3.index t (0 : Fin 2) * 10000 + 1 * p.val; omega
  | ⟨1, _⟩ => show win7_1.index t (1 : Fin 2) * 1 + 1 * 0 = 0; omega

theorem blkB7_at (c : Dev nD) (t : Fin cfg7.N) (p : Fin 10000) (q : Fin 3) :
    blkB7 V c t (ix2 (0 : Fin 1) q) = arrB7 V c (ix2 (0 : Fin 1) (at7 t p q 1)) := by
  obtain ⟨-, -, -, -, e20, e21, e30, e31⟩ := idx7 t
  show arrB7 V c (((cfg7.win 2).blk t).view.emb (ix2 (0 : Fin 1) q)) = _
  refine congrArg (arrB7 V c) ?_
  funext a; apply Fin.ext
  match a with
  | ⟨0, _⟩ => show win7_2.index t (0 : Fin 2) * 1 + 1 * 0 = 0; omega
  | ⟨1, _⟩ => show win7_2.index t (1 : Fin 2) * 3 + 1 * q.val = win7_3.index t (1 : Fin 2) * 3 + 1 * q.val; omega

theorem point7 (c : Dev nD) (t : Fin cfg7.N) (p : Fin 10000) (q : Fin 3) :
    k7_pay1 (blkA7 V c t) (blkD7 V c t) (blkB7 V c t) (ix2 p q)
      = brOut (arrA7 V c) (arrD7 V c) (arrB7 V c) (at7 t p q) := by
  refine (pay7_at _ _ _ p q).trans ?_
  show max (blkA7 V c t (ix2 p q) * blkD7 V c t (ix2 p (0 : Fin 1)) + blkB7 V c t (ix2 (0 : Fin 1) q)) 0
    = max (arrA7 V c (at7 t p q) * arrD7 V c (ix2 (at7 t p q 0) (0 : Fin 1)) + arrB7 V c (ix2 (0 : Fin 1) (at7 t p q 1))) 0
  rw [blkA7_at V c t p q, blkD7_at V c t p q, blkB7_at V c t p q]

/-- Entry (r, q) of the result reads only row r of the sums and of the column and entry q of the bias, so what point t writes is block t of the whole-array result. -/
theorem flushed7_eq (c : Dev nD) (t : Fin cfg7.N) :
    (dat7 V c).flushed 3 t
      = ((cfg7.win 3).blk t).view.read (Elt Ideal) (brOut (arrA7 V c) (arrD7 V c) (arrB7 V c)) := by
  show (cfg7.win 3).cut (grid7.coords t) ((dat7 V c).after 3 t) = _
  rw [after7_3]
  unfold out7_3
  rw [View.canon_unit_zero zero_offsets7]
  simp only [View.ld_unit_zero (S := S10000x3) zero_offsets7, View.ld_unit_zero (S := S10000x1) zero_offsets7,
    View.ld_unit_zero (S := S1x3) zero_offsets7]
  funext j
  obtain ⟨p, q, rfl⟩ : ∃ (p : Fin 10000) (q : Fin 3), j = ix2 p q := ⟨j 0, j 1, eq_ix2 j⟩
  exact point7 V c t p q

theorem mem_blk7 (t : Fin cfg7.N) (i : S800000x3.Idx) :
    i ∈ ((cfg7.win 3).blk t).view.set ↔ ∀ a : Fin 2, win7_3.index t a * S10000x3.size a ≤ (i a).val
      ∧ (i a).val < win7_3.index t a * S10000x3.size a + S10000x3.size a := by
  show i ∈ ((View.whole main_v102).slice (win7_3.rect t)).set ↔ _
  rw [View.set_slice_whole, Rect.mem_set_unit]
  exact Iff.rfl

/-- Row r lies in the block of point r / 10000, so the blocks cover the array. -/
theorem cover7 (i : S800000x3.Idx) :
    ∃ t : Fin cfg7.N, (cfg7.win 3).flush t = true ∧ i ∈ ((cfg7.win 3).blk t).view.set := by
  have hi0 : (i 0).val < 800000 := (i 0).isLt
  have hi1 : (i 1).val < 3 := (i 1).isLt
  obtain ⟨t, ht⟩ : ∃ t : Fin cfg7.N, t.val = (i 0).val / 10000 :=
    ⟨⟨(i 0).val / 10000, by rw [show cfg7.N = 80 from N_7]; omega⟩, rfl⟩
  obtain ⟨-, -, -, -, -, -, e30, e31⟩ := idx7 t
  refine ⟨t, flush7_3 t, ?_⟩
  rw [mem_blk7]
  intro a
  match a with
  | ⟨0, _⟩ =>
    show win7_3.index t (0 : Fin 2) * 10000 ≤ (i 0).val ∧ (i 0).val < win7_3.index t (0 : Fin 2) * 10000 + 10000
    omega
  | ⟨1, _⟩ =>
    show win7_3.index t (1 : Fin 2) * 3 ≤ (i 1).val ∧ (i 1).val < win7_3.index t (1 : Fin 2) * 3 + 3
    omega

theorem arr7 (c : Dev nD) :
    (dat7 V c).arrAt 3 cfg7.N = brOut (arrA7 V c) (arrD7 V c) (arrB7 V c) :=
  (dat7 V c).arrAt_eq_of_cover 3 (brOut (arrA7 V c) (arrD7 V c) (arrB7 V c)) (fun t _ => flushed7_eq V c t) cover7

end Region7

theorem W31_main_v102 (c : Dev nD) :
    (W31 (F := Ideal) m ρ c (Proc.devRef .tc main_v102) : S800000x3.Idx → EReal)
      = brOut (W30 (F := Ideal) m ρ c (Proc.devRef .tc main_v99) : S800000x3.Idx → EReal)
          (W30 (F := Ideal) m ρ c (Proc.devRef .tc main_v100) : S800000x1.Idx → EReal)
          (W30 (F := Ideal) m ρ c (Proc.devRef .tc main_v101) : S1x3.Idx → EReal) :=
  (W31_arr (F := Ideal) m ρ c 3).trans (arr7 (V30 (F := Ideal) m ρ) c)

end Cert.KernelIdeal.Net

end
-- ==== Proof.KI.RegionsB.lean ====
import proofs.«400126_j7060926234635_3_alg».proof.Proof.KI.Region1
import proofs.«400126_j7060926234635_3_alg».proof.Proof.KI.Region3
import proofs.«400126_j7060926234635_3_alg».proof.Proof.KI.Region5
import proofs.«400126_j7060926234635_3_alg».proof.Proof.KI.Region7
-- ==== Proof.KI.Carry.lean ====
import proofs.«400126_j7060926234635_3_alg».proof.Proof.Gen.KernelIdeal.Frame

set_option maxRecDepth 16384

noncomputable section

namespace Cert.KernelIdeal.Net

open Idealize.ShloMosaic Idealize.ShloMosaic.TcCoe Idealize.SL.Sem Cert.KernelIdeal Cert.KernelIdeal.Gen

variable {F : FTy → Type} [FloatOps F]

/-- Buffers are numbered in program order, so one numbered below a bound differs from every one numbered from it on. -/
theorem ne_of_idx {n : ℕ} {b r : Ref sig .tc} (hb : b.idx.val < n) (hr : n ≤ r.idx.val) : b ≠ r :=
  fun h => absurd (h ▸ hb) (Nat.not_lt.mpr hr)

/-! A host stretch writes only the buffers numbered from its first result on; every earlier buffer, the
    arguments among them, holds after the stretch what it held before. -/

theorem keep0 (V : Valuation τ sig (Elt F)) (b : Ref sig .tc) (hb : b.idx.val < 17) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep1 (V : Valuation τ sig (Elt F)) (b : Ref sig .tc) (hb : b.idx.val < 39) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep2 (V : Valuation τ sig (Elt F)) (b : Ref sig .tc) (hb : b.idx.val < 69) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep3 (V : Valuation τ sig (Elt F)) (b : Ref sig .tc) (hb : b.idx.val < 114) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep4 (V : Valuation τ sig (Elt F)) (b : Ref sig .tc) (hb : b.idx.val < 144) :
    StableHlo.after hostOps4 V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep5 (V : Valuation τ sig (Elt F)) (b : Ref sig .tc) (hb : b.idx.val < 189) :
    StableHlo.after hostOps5 V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep6 (V : Valuation τ sig (Elt F)) (b : Ref sig .tc) (hb : b.idx.val < 219) :
    StableHlo.after hostOps6 V (Proc.devRef .tc b) = V (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep7 (V : Valuation τ sig (Elt F)) (b : Ref sig .tc) (hb : b.idx.val < 264) :
    StableHlo.after hostOps7 V (Proc.devRef .tc b) = V (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep0_1 (V : Valuation τ sig (Elt F)) (b : Ref sig .tc) (hb : b.idx.val < 36) :
    StableHlo.after hostOps0_1 V (Proc.devRef .tc b) = V (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep0_2 (V : Valuation τ sig (Elt F)) (b : Ref sig .tc) (hb : b.idx.val < 37) :
    StableHlo.after hostOps0_2 V (Proc.devRef .tc b) = V (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep1_1 (V : Valuation τ sig (Elt F)) (b : Ref sig .tc) (hb : b.idx.val < 62) :
    StableHlo.after hostOps1_1 V (Proc.devRef .tc b) = V (Proc.devRef .tc b) :=
  StableHlo.after_of_forall_not_mem (b := Proc.devRef .tc b) _ _ (List.forall_iff_forall_mem.mp (by
    simp only [hostOps1_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep2_1 (V : Valuation τ sig (Elt F)) (b : Ref sig .tc) (hb : b.idx.val < 92) :
    StableHlo.after hostOps2_1 V (Proc.devRef .tc b) = V (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep2_2 (V : Valuation τ sig (Elt F)) (b : Ref sig .tc) (hb : b.idx.val < 111) :
    StableHlo.after hostOps2_2 V (Proc.devRef .tc b) = V (Proc.devRef .tc b) :=
  StableHlo.after_of_forall_not_mem (b := Proc.devRef .tc b) _ _ (List.forall_iff_forall_mem.mp (by
    simp only [hostOps2_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep2_3 (V : Valuation τ sig (Elt F)) (b : Ref sig .tc) (hb : b.idx.val < 112) :
    StableHlo.after hostOps2_3 V (Proc.devRef .tc b) = V (Proc.devRef .tc b) :=
  StableHlo.after_of_forall_not_mem (b := Proc.devRef .tc b) _ _ (List.forall_iff_forall_mem.mp (by
    simp only [hostOps2_3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep3_1 (V : Valuation τ sig (Elt F)) (b : Ref sig .tc) (hb : b.idx.val < 137) :
    StableHlo.after hostOps3_1 V (Proc.devRef .tc b) = V (Proc.devRef .tc b) :=
  StableHlo.after_of_forall_not_mem (b := Proc.devRef .tc b) _ _ (List.forall_iff_forall_mem.mp (by
    simp only [hostOps3_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep4_1 (V : Valuation τ sig (Elt F)) (b : Ref sig .tc) (hb : b.idx.val < 167) :
    StableHlo.after hostOps4_1 V (Proc.devRef .tc b) = V (Proc.devRef .tc b) :=
  StableHlo.after_of_forall_not_mem (b := Proc.devRef .tc b) _ _ (List.forall_iff_forall_mem.mp (by
    simp only [hostOps4_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep4_2 (V : Valuation τ sig (Elt F)) (b : Ref sig .tc) (hb : b.idx.val < 186) :
    StableHlo.after hostOps4_2 V (Proc.devRef .tc b) = V (Proc.devRef .tc b) :=
  StableHlo.after_of_forall_not_mem (b := Proc.devRef .tc b) _ _ (List.forall_iff_forall_mem.mp (by
    simp only [hostOps4_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep4_3 (V : Valuation τ sig (Elt F)) (b : Ref sig .tc) (hb : b.idx.val < 187) :
    StableHlo.after hostOps4_3 V (Proc.devRef .tc b) = V (Proc.devRef .tc b) :=
  StableHlo.after_of_forall_not_mem (b := Proc.devRef .tc b) _ _ (List.forall_iff_forall_mem.mp (by
    simp only [hostOps4_3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep5_1 (V : Valuation τ sig (Elt F)) (b : Ref sig .tc) (hb : b.idx.val < 212) :
    StableHlo.after hostOps5_1 V (Proc.devRef .tc b) = V (Proc.devRef .tc b) :=
  StableHlo.after_of_forall_not_mem (b := Proc.devRef .tc b) _ _ (List.forall_iff_forall_mem.mp (by
    simp only [hostOps5_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep6_1 (V : Valuation τ sig (Elt F)) (b : Ref sig .tc) (hb : b.idx.val < 242) :
    StableHlo.after hostOps6_1 V (Proc.devRef .tc b) = V (Proc.devRef .tc b) :=
  StableHlo.after_of_forall_not_mem (b := Proc.devRef .tc b) _ _ (List.forall_iff_forall_mem.mp (by
    simp only [hostOps6_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep6_2 (V : Valuation τ sig (Elt F)) (b : Ref sig .tc) (hb : b.idx.val < 261) :
    StableHlo.after hostOps6_2 V (Proc.devRef .tc b) = V (Proc.devRef .tc b) :=
  StableHlo.after_of_forall_not_mem (b := Proc.devRef .tc b) _ _ (List.forall_iff_forall_mem.mp (by
    simp only [hostOps6_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep6_3 (V : Valuation τ sig (Elt F)) (b : Ref sig .tc) (hb : b.idx.val < 262) :
    StableHlo.after hostOps6_3 V (Proc.devRef .tc b) = V (Proc.devRef .tc b) :=
  StableHlo.after_of_forall_not_mem (b := Proc.devRef .tc b) _ _ (List.forall_iff_forall_mem.mp (by
    simp only [hostOps6_3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

theorem keep7_1 (V : Valuation τ sig (Elt F)) (b : Ref sig .tc) (hb : b.idx.val < 287) :
    StableHlo.after hostOps7_1 V (Proc.devRef .tc b) = V (Proc.devRef .tc b) :=
  StableHlo.after_of_forall_not_mem (b := Proc.devRef .tc b) _ _ (List.forall_iff_forall_mem.mp (by
    simp only [hostOps7_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (ne_of_idx hb (by decide))))

variable (m : (ℓ : Loc nD τ sig) → Buf (Elt F) ℓ) (ρ : Dev nD → PrngReg) (c : Dev nD) (b : Ref sig .tc)
  (hb : b.idx.val < 17 := by decide)
  (h0 : ∀ w, Pipeline.arrRef spec0 w ≠ b := by decide) (h1 : ∀ w, Pipeline.arrRef spec1 w ≠ b := by decide)
  (h2 : ∀ w, Pipeline.arrRef spec2 w ≠ b := by decide) (h3 : ∀ w, Pipeline.arrRef spec3 w ≠ b := by decide)
  (h4 : ∀ w, Pipeline.arrRef spec4 w ≠ b := by decide) (h5 : ∀ w, Pipeline.arrRef spec5 w ≠ b := by decide)
  (h6 : ∀ w, Pipeline.arrRef spec6 w ≠ b := by decide) (h7 : ∀ w, Pipeline.arrRef spec7 w ≠ b := by decide)

/-! An argument that is an array of no region so far still holds its launch contents at each boundary. -/

include hb in
theorem W3_arg : W3 m ρ c (Proc.devRef .tc b) = m ((c : Thread nD τ).loc b) :=
  (keep0_2 _ b (hb.trans_le (by decide))).trans ((keep0_1 _ b (hb.trans_le (by decide))).trans (keep0 _ b hb))
include hb h0 in
theorem W5_arg : W5 m ρ c (Proc.devRef .tc b) = m ((c : Thread nD τ).loc b) :=
  (keep1 _ b (hb.trans_le (by decide))).trans ((W4_of_ne m ρ c b h0).trans (W3_arg m ρ c b hb))
include hb h0 h1 in
theorem W7_arg : W7 m ρ c (Proc.devRef .tc b) = m ((c : Thread nD τ).loc b) :=
  (W7_of_ne m ρ c b h1).trans ((keep1_1 _ b (hb.trans_le (by decide))).trans (W5_arg m ρ c b hb h0))
include hb h0 h1 in
theorem W8_arg : W8 m ρ c (Proc.devRef .tc b) = m ((c : Thread nD τ).loc b) :=
  (keep2 _ b (hb.trans_le (by decide))).trans (W7_arg m ρ c b hb h0 h1)
include hb h0 h1 in
theorem W11_arg : W11 m ρ c (Proc.devRef .tc b) = m ((c : Thread nD τ).loc b) :=
  (keep2_3 _ b (hb.trans_le (by decide))).trans ((keep2_2 _ b (hb.trans_le (by decide))).trans ((keep2_1 _ b (hb.trans_le (by decide))).trans (W8_arg m ρ c b hb h0 h1)))
include hb h0 h1 h2 in
theorem W13_arg : W13 m ρ c (Proc.devRef .tc b) = m ((c : Thread nD τ).loc b) :=
  (keep3 _ b (hb.trans_le (by decide))).trans ((W12_of_ne m ρ c b h2).trans (W11_arg m ρ c b hb h0 h1))
include hb h0 h1 h2 h3 in
theorem W15_arg : W15 m ρ c (Proc.devRef .tc b) = m ((c : Thread nD τ).loc b) :=
  (W15_of_ne m ρ c b h3).trans ((keep3_1 _ b (hb.trans_le (by decide))).trans (W13_arg m ρ c b hb h0 h1 h2))
include hb h0 h1 h2 h3 in
theorem W16_arg : W16 m ρ c (Proc.devRef .tc b) = m ((c : Thread nD τ).loc b) :=
  (keep4 _ b (hb.trans_le (by decide))).trans (W15_arg m ρ c b hb h0 h1 h2 h3)
include hb h0 h1 h2 h3 in
theorem W19_arg : W19 m ρ c (Proc.devRef .tc b) = m ((c : Thread nD τ).loc b) :=
  (keep4_3 _ b (hb.trans_le (by decide))).trans ((keep4_2 _ b (hb.trans_le (by decide))).trans ((keep4_1 _ b (hb.trans_le (by decide))).trans (W16_arg m ρ c b hb h0 h1 h2 h3)))
include hb h0 h1 h2 h3 h4 in
theorem W21_arg : W21 m ρ c (Proc.devRef .tc b) = m ((c : Thread nD τ).loc b) :=
  (keep5 _ b (hb.trans_le (by decide))).trans ((W20_of_ne m ρ c b h4).trans (W19_arg m ρ c b hb h0 h1 h2 h3))
include hb h0 h1 h2 h3 h4 h5 in
theorem W23_arg : W23 m ρ c (Proc.devRef .tc b) = m ((c : Thread nD τ).loc b) :=
  (W23_of_ne m ρ c b h5).trans ((keep5_1 _ b (hb.trans_le (by decide))).trans (W21_arg m ρ c b hb h0 h1 h2 h3 h4))
include hb h0 h1 h2 h3 h4 h5 in
theorem W24_arg : W24 m ρ c (Proc.devRef .tc b) = m ((c : Thread nD τ).loc b) :=
  (keep6 _ b (hb.trans_le (by decide))).trans (W23_arg m ρ c b hb h0 h1 h2 h3 h4 h5)
include hb h0 h1 h2 h3 h4 h5 in
theorem W27_arg : W27 m ρ c (Proc.devRef .tc b) = m ((c : Thread nD τ).loc b) :=
  (keep6_3 _ b (hb.trans_le (by decide))).trans ((keep6_2 _ b (hb.trans_le (by decide))).trans ((keep6_1 _ b (hb.trans_le (by decide))).trans (W24_arg m ρ c b hb h0 h1 h2 h3 h4 h5)))
include hb h0 h1 h2 h3 h4 h5 h6 in
theorem W29_arg : W29 m ρ c (Proc.devRef .tc b) = m ((c : Thread nD τ).loc b) :=
  (keep7 _ b (hb.trans_le (by decide))).trans ((W28_of_ne m ρ c b h6).trans (W27_arg m ρ c b hb h0 h1 h2 h3 h4 h5))
include hb h0 h1 h2 h3 h4 h5 h6 h7 in
theorem W31_arg : W31 m ρ c (Proc.devRef .tc b) = m ((c : Thread nD τ).loc b) :=
  (W31_of_ne m ρ c b h7).trans ((keep7_1 _ b (hb.trans_le (by decide))).trans (W29_arg m ρ c b hb h0 h1 h2 h3 h4 h5 h6))

end Cert.KernelIdeal.Net

end
-- ==== Proof.KI.Parts.lean ====
import proofs.«400126_j7060926234635_3_alg».proof.Proof.Spec

noncomputable section

open Idealize.ShloMosaic Idealize.ShloMosaic.ValueIdx

namespace Cert.GcnNet

/-- A column that holds the degree factors makes the two scaled products one. -/
theorem linOut_eq_scaled {n Cin C : ℕ} (disV : (Vc n).Idx → EReal) (x : (Mat n Cin).Idx → EReal) (w : (Mat Cin C).Idx → EReal)
    (dis2 : (Mat n 1).Idx → EReal) (hd : ∀ i : Fin n, dis2 (ix2 i 0) = disV (ix1 i)) :
    linOut x w dis2 = scaled (fun i => disV (ix1 i)) x w := by
  funext i
  unfold linOut scaled
  rw [hd (i 0)]

/-- Scatter-adding the gathered scaled rows into zeros, then scaling, adding the bias and flooring, is the split-factor layer. -/
theorem layer_of_parts {n Cin C M : ℕ} (hn : 0 < n) (sd : ScatterDims (Mat n C) (Mat M 1) (Mat M C))
    (disV : (Vc n).Idx → EReal) (x : (Mat n Cin).Idx → EReal) (w : (Mat Cin C).Idx → EReal) (b : (Vc C).Idx → EReal)
    (s : IVec (Vc M) 32) (dcol : IVec (Mat M 1) 32)
    (z : FVec Ideal (Mat n C) .f32) (hz : ∀ j, z j = (0 : EReal))
    (dis2 dis2' : (Mat n 1).Idx → EReal) (hd : ∀ i : Fin n, dis2 (ix2 i 0) = disV (ix1 i))
    (hd' : ∀ i : Fin n, dis2' (ix2 i 0) = disV (ix1 i))
    (b2 : (Mat 1 C).Idx → EReal) (hb : ∀ q : Fin C, b2 (ix2 0 q) = b (ix1 q))
    (g : FVec Ideal (Mat M C) .f32)
    (hg : ∀ (p : Fin M) (k : Fin C), g (ix2 p k) = linOut x w dis2 (ix2 (rowOf n hn (s (ix1 p))) k)) :
    brOut (Host.scatterAdd (F := Ideal) (φ := .f32) sd z dcol g) dis2' b2
      = layerK hn sd (fun i => disV (ix1 i)) x w (fun q => b (ix1 q)) (fun e => s (ix1 e)) dcol := by
  have hzf : z = ((fun _ => (0 : EReal)) : FVec Ideal (Mat n C) .f32) := funext hz
  have hgf : g = ((fun y => scaled (fun i => disV (ix1 i)) x w (ix2 (rowOf n hn (s (ix1 (y 0)))) (y 1)))
      : FVec Ideal (Mat M C) .f32) := by
    funext y
    calc g y = g (ix2 (y 0) (y 1)) := congrArg g (eq_ix2 y)
      _ = linOut x w dis2 (ix2 (rowOf n hn (s (ix1 (y 0)))) (y 1)) := hg (y 0) (y 1)
      _ = _ := congrFun (linOut_eq_scaled disV x w dis2 hd) _
  subst hzf
  subst hgf
  funext j
  show max (_ * dis2' (ix2 (j 0) 0) + b2 (ix2 0 (j 1))) 0 = max (_ * disV (ix1 (j 0)) + b (ix1 (j 1))) 0
  rw [hd' (j 0), hb (j 1)]

/-- A table whose row p is the row that word p names is the pick. -/
theorem pick_of_rows {n C N : ℕ} (hn : 0 < n) (X Y : (Mat n C).Idx → EReal) (hXY : X = Y) (u : IVec (Vc N) 32)
    (t : (Mat N C).Idx → EReal) (ht : ∀ (p : Fin N) (k : Fin C), t (ix2 p k) = X (ix2 (rowOf n hn (u (ix1 p))) k)) :
    t = pick hn Y (fun p => u (ix1 p)) := by
  subst hXY
  funext i
  calc t i = t (ix2 (i 0) (i 1)) := congrArg t (eq_ix2 i)
    _ = X (ix2 (rowOf n hn (u (ix1 (i 0)))) (i 1)) := ht (i 0) (i 1)

end Cert.GcnNet

end
-- ==== Proof.LibRowGather.lean ====
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

end Cert.RowGather

end
-- ==== Proof.HostRead.lean ====
import Idealize.ShloMosaic.PureOps
import Idealize.ShloMosaic.PureOps.Ideal
import Idealize.ShloMosaic.Lib.ValueIdx
import Idealize.ShloMosaic.Lib.IdealHost
import Idealize.ShloMosaic.Lib.Pipeline.Value
import Idealize.ShloMosaic.Lib.ReduceAll
import Idealize.ShloMosaic.Lib.StableHlo.Predicate
import proofs.«400126_j7060926234635_3_alg».proof.Proof.Spec
import proofs.«400126_j7060926234635_3_alg».proof.Proof.LibIndexWrap
import proofs.«400126_j7060926234635_3_alg».proof.Proof.LibRowGather
import proofs.«400126_j7060926234635_3_alg».proof.Proof.LibColumn

noncomputable section

open Idealize.ShloMosaic Idealize.ShloMosaic.ValueIdx

namespace Cert.GcnNet

abbrev Sc : Shape := ⟨0, ![]⟩

variable {α : Type} {n C M : ℕ}

def wrapVec (hb0 : Sc.BroadcastsInDim (Vc M) (![] : Fin 0 → Fin (Vc M).rank)) (nW : BitVec 32) (s : IVec (Vc M) 32) :
    IVec (Vc M) 32 :=
  select (cmpi .slt s (broadcastInDim (Vc M) ![] hb0 (constantI Sc 32 0#32)))
    (addi s (broadcastInDim (Vc M) ![] hb0 (constantI Sc 32 nW))) s

theorem col_apply_idx (hb1 : (Vc M).BroadcastsInDim (Mat M 1) (![0] : Fin 1 → Fin (Mat M 1).rank))
    (v : (Vc M).Idx → α) (i : (Mat M 1).Idx) : broadcastInDim (Mat M 1) ![0] hb1 v i = v (ix1 (i 0)) := by
  refine broadcastInDim_apply _ hb1 v i (ix1 (i 0)) fun a => ?_
  match a with
  | ⟨0, _⟩ =>
    show (i 0).val = if M = 1 then 0 else (i 0).val
    split
    · have := idx2_lt0 i; omega
    · rfl

theorem col_apply (hb1 : (Vc M).BroadcastsInDim (Mat M 1) (![0] : Fin 1 → Fin (Mat M 1).rank))
    (v : (Vc M).Idx → α) (e : Fin M) : broadcastInDim (Mat M 1) ![0] hb1 v (ix2 e 0) = v (ix1 e) :=
  col_apply_idx hb1 v (ix2 e 0)

def wrapCol (hb0 : Sc.BroadcastsInDim (Vc M) (![] : Fin 0 → Fin (Vc M).rank))
    (hb1 : (Vc M).BroadcastsInDim (Mat M 1) (![0] : Fin 1 → Fin (Mat M 1).rank)) (nW : BitVec 32) (s : IVec (Vc M) 32) :
    IVec (Mat M 1) 32 :=
  broadcastInDim (Mat M 1) ![0] hb1 (wrapVec hb0 nW s)

theorem wrapCol_apply (hb0 : Sc.BroadcastsInDim (Vc M) (![] : Fin 0 → Fin (Vc M).rank))
    (hb1 : (Vc M).BroadcastsInDim (Mat M 1) (![0] : Fin 1 → Fin (Mat M 1).rank)) (nW : BitVec 32) (s : IVec (Vc M) 32)
    (i : (Mat M 1).Idx) : wrapCol hb0 hb1 nW s i = IndexWrap.wrapWord nW (s (ix1 (i 0))) :=
  col_apply_idx hb1 (wrapVec hb0 nW s) i

def inRange (hb0 : Sc.BroadcastsInDim (Vc M) (![] : Fin 0 → Fin (Vc M).rank))
    (hb1 : (Vc M).BroadcastsInDim (Mat M 1) (![0] : Fin 1 → Fin (Mat M 1).rank))
    (hb2 : Sc.BroadcastsInDim (Mat M 1) (![] : Fin 0 → Fin (Mat M 1).rank))
    (hb3 : (Vc 1).BroadcastsInDim (Mat 1 1) (![1] : Fin 1 → Fin (Mat 1 1).rank))
    (hb4 : (Mat 1 1).BroadcastsInDim (Mat M 1) (![0, 1] : Fin 2 → Fin (Mat M 1).rank))
    (hred : (Mat M 1).ReducesTo [1] (Vc M)) (hS : 0 < Sc.numel) (nW hi : BitVec 32) (s : IVec (Vc M) 32) :
    IVec (Vc M) 1 :=
  Host.reduce IntOp.andi
    (andi (cmpi .sge (wrapCol hb0 hb1 nW s) (broadcastInDim (Mat M 1) ![] hb2 (constantI Sc 32 0#32)))
      (cmpi .sle (wrapCol hb0 hb1 nW s)
        (broadcastInDim (Mat M 1) ![0, 1] hb4 (broadcastInDim (Mat 1 1) ![1] hb3 (constantI (Vc 1) 32 hi)))))
    (constantI Sc 1 1#1) hred hS

theorem inRange_ones (hn : 0 < n) (hn2 : n < 2 ^ 30)
    (hb0 : Sc.BroadcastsInDim (Vc M) (![] : Fin 0 → Fin (Vc M).rank))
    (hb1 : (Vc M).BroadcastsInDim (Mat M 1) (![0] : Fin 1 → Fin (Mat M 1).rank))
    (hb2 : Sc.BroadcastsInDim (Mat M 1) (![] : Fin 0 → Fin (Mat M 1).rank))
    (hb3 : (Vc 1).BroadcastsInDim (Mat 1 1) (![1] : Fin 1 → Fin (Mat 1 1).rank))
    (hb4 : (Mat 1 1).BroadcastsInDim (Mat M 1) (![0, 1] : Fin 2 → Fin (Mat M 1).rank))
    (hred : (Mat M 1).ReducesTo [1] (Vc M)) (hS : 0 < Sc.numel) (hi : BitVec 32) (hhi : hi.toInt = (n : ℤ) - 1)
    (s : IVec (Vc M) 32) (hs : ∀ e, -(n : ℤ) ≤ (s e).toInt ∧ (s e).toInt < n) (j : (Vc M).Idx) :
    inRange hb0 hb1 hb2 hb3 hb4 hred hS (BitVec.ofNat 32 n) hi s j = 1#1 := by
  unfold inRange
  refine IndexWrap.reduce_andi_of_all _ _ hred hS (fun _ => rfl) (fun i => ?_) j
  show IntOp.andi (IntOp.cmpi .sge (wrapCol hb0 hb1 (BitVec.ofNat 32 n) s i) 0#32)
    (IntOp.cmpi .sle (wrapCol hb0 hb1 (BitVec.ofNat 32 n) s i) hi) = 1#1
  rw [wrapCol_apply]
  exact IndexWrap.rangeTest_wrap n hn hn2 hi hhi _ (hs _).1 (hs _).2

def gatherWrap (hb0 : Sc.BroadcastsInDim (Vc M) (![] : Fin 0 → Fin (Vc M).rank))
    (hb1 : (Vc M).BroadcastsInDim (Mat M 1) (![0] : Fin 1 → Fin (Mat M 1).rank))
    (gd : GatherDims (Mat n C) (Mat M 1) (Mat M C)) (nW : BitVec 32) (x : (Mat n C).Idx → α) (s : IVec (Vc M) 32) :
    (Mat M C).Idx → α :=
  Host.gather gd x (wrapCol hb0 hb1 nW s)

theorem gatherWrap_apply (hn : 0 < n) (hb0 : Sc.BroadcastsInDim (Vc M) (![] : Fin 0 → Fin (Vc M).rank))
    (hb1 : (Vc M).BroadcastsInDim (Mat M 1) (![0] : Fin 1 → Fin (Mat M 1).rank))
    (wf : GatherDims.WF (Mat n C) (Mat M 1) (Mat M C) [1] [0] [] [0] [] 1 ![1, C])
    (x : (Mat n C).Idx → α) (s : IVec (Vc M) 32) (p : Fin M) (k : Fin C) :
    gatherWrap hb0 hb1 (RowGather.rowsDims n C M wf) (BitVec.ofNat 32 n) x s (ix2 p k)
      = x (ix2 (rowOf n hn (s (ix1 p))) k) := by
  unfold gatherWrap
  rw [RowGather.gather_rows_apply hn wf x _ p k]
  have hw : wrapCol hb0 hb1 (BitVec.ofNat 32 n) s (ix2 p 0) = IndexWrap.wrapWord (BitVec.ofNat 32 n) (s (ix1 p)) :=
    wrapCol_apply hb0 hb1 _ s (ix2 p 0)
  refine congrArg (fun r => x (ix2 r k)) (Fin.ext ?_)
  show min (wrapCol hb0 hb1 (BitVec.ofNat 32 n) s (ix2 p 0)).toInt.toNat (n - 1)
    = min (IndexWrap.wrapWord (BitVec.ofNat 32 n) (s (ix1 p))).toInt.toNat (n - 1)
  rw [hw]

def takeFill (hb0 : Sc.BroadcastsInDim (Vc M) (![] : Fin 0 → Fin (Vc M).rank))
    (hb1 : (Vc M).BroadcastsInDim (Mat M 1) (![0] : Fin 1 → Fin (Mat M 1).rank))
    (hb2 : Sc.BroadcastsInDim (Mat M 1) (![] : Fin 0 → Fin (Mat M 1).rank))
    (hb3 : (Vc 1).BroadcastsInDim (Mat 1 1) (![1] : Fin 1 → Fin (Mat 1 1).rank))
    (hb4 : (Mat 1 1).BroadcastsInDim (Mat M 1) (![0, 1] : Fin 2 → Fin (Mat M 1).rank))
    (hred : (Mat M 1).ReducesTo [1] (Vc M)) (hS : 0 < Sc.numel)
    (gd : GatherDims (Mat n C) (Mat M 1) (Mat M C))
    (hb5 : (Vc M).BroadcastsInDim (Mat M C) (![0] : Fin 1 → Fin (Mat M C).rank))
    (hb6 : Sc.BroadcastsInDim (Mat M C) (![] : Fin 0 → Fin (Mat M C).rank))
    (nW hi : BitVec 32) (x : FVec Ideal (Mat n C) .f32) (s : IVec (Vc M) 32) : FVec Ideal (Mat M C) .f32 :=
  select (broadcastInDim (Mat M C) ![0] hb5 (inRange hb0 hb1 hb2 hb3 hb4 hred hS nW hi s))
    (gatherWrap hb0 hb1 gd nW x s)
    (broadcastInDim (Mat M C) ![] hb6 (constant (F := Ideal) Sc .f32 0x7FC00000#32))

theorem takeFill_apply (hn : 0 < n) (hn2 : n < 2 ^ 30)
    (hb0 : Sc.BroadcastsInDim (Vc M) (![] : Fin 0 → Fin (Vc M).rank))
    (hb1 : (Vc M).BroadcastsInDim (Mat M 1) (![0] : Fin 1 → Fin (Mat M 1).rank))
    (hb2 : Sc.BroadcastsInDim (Mat M 1) (![] : Fin 0 → Fin (Mat M 1).rank))
    (hb3 : (Vc 1).BroadcastsInDim (Mat 1 1) (![1] : Fin 1 → Fin (Mat 1 1).rank))
    (hb4 : (Mat 1 1).BroadcastsInDim (Mat M 1) (![0, 1] : Fin 2 → Fin (Mat M 1).rank))
    (hred : (Mat M 1).ReducesTo [1] (Vc M)) (hS : 0 < Sc.numel)
    (wf : GatherDims.WF (Mat n C) (Mat M 1) (Mat M C) [1] [0] [] [0] [] 1 ![1, C])
    (hb5 : (Vc M).BroadcastsInDim (Mat M C) (![0] : Fin 1 → Fin (Mat M C).rank))
    (hb6 : Sc.BroadcastsInDim (Mat M C) (![] : Fin 0 → Fin (Mat M C).rank))
    (hi : BitVec 32) (hhi : hi.toInt = (n : ℤ) - 1) (x : FVec Ideal (Mat n C) .f32) (s : IVec (Vc M) 32)
    (hs : ∀ e, -(n : ℤ) ≤ (s e).toInt ∧ (s e).toInt < n) (p : Fin M) (k : Fin C) :
    takeFill hb0 hb1 hb2 hb3 hb4 hred hS (RowGather.rowsDims n C M wf) hb5 hb6 (BitVec.ofNat 32 n) hi x s (ix2 p k)
      = x (ix2 (rowOf n hn (s (ix1 p))) k) := by
  unfold takeFill
  rw [IndexWrap.select_of_ones _ _ _ (fun j => by
    unfold broadcastInDim
    exact inRange_ones hn hn2 hb0 hb1 hb2 hb3 hb4 hred hS hi hhi s hs _)]
  exact gatherWrap_apply hn hb0 hb1 wf x s p k

end Cert.GcnNet

end
-- ==== Proof.LibTRef.lean ====
import Idealize.ShloMosaic.Lib.StableHlo

namespace Idealize.ShloMosaic.StableHlo.TRef

variable {sig : RefSig} {Val : EltTy → Type} {T : BufTy}

theorem ofBuf_toBuf (x : TRef sig T) (v : T.Contents Val) : x.ofBuf (x.toBuf v) = v := by
  obtain ⟨r, rfl, h1, h2⟩ := x
  rfl

end Idealize.ShloMosaic.StableHlo.TRef
-- ==== Proof.KI.Stage0.lean ====
import proofs.«400126_j7060926234635_3_alg».proof.Proof.Gen.KernelIdeal.Frame
import proofs.«400126_j7060926234635_3_alg».proof.Proof.KI.Defs
import proofs.«400126_j7060926234635_3_alg».proof.Proof.KI.RegionsA
import proofs.«400126_j7060926234635_3_alg».proof.Proof.KI.RegionsB
import proofs.«400126_j7060926234635_3_alg».proof.Proof.KI.Carry
import proofs.«400126_j7060926234635_3_alg».proof.Proof.KI.Parts
import proofs.«400126_j7060926234635_3_alg».proof.Proof.HostRead
import proofs.«400126_j7060926234635_3_alg».proof.Proof.LibTRef
import proofs.«400126_j7060926234635_3_alg».proof.Proof.LibColumn
import proofs.«400126_j7060926234635_3_alg».proof.Proof.LibMlp

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet
open Cert.KernelIdeal.Facts₀ Cert.KernelIdeal.Facts

variable (m : (ℓ : Loc nD τ sig) → Buf (Elt Ideal) ℓ) (ρ : Dev nD → PrngReg)

abbrev zeroN0 : FVec Ideal S100000 .f32 := broadcastInDim S100000 ![] Facts₀.bcast_S_S100000 (constant S_ .f32 0x00000000#32)
abbrev oneM0 : FVec Ideal S700000 .f32 := broadcastInDim S700000 ![] Facts₀.bcast_S_S700000 (constant S_ .f32 0x3F800000#32)
abbrev deg0 (ei : IVec S2x600000 32) : FVec Ideal S100000 .f32 :=
  Host.scatterAdd scatter_S100000_S700000x1_S700000_n_0_0_1 zeroN0 (dcol0 ei) oneM0

theorem W1_main_v5 (c : Dev nD) :
    (W1 (F := Ideal) m ρ c (Proc.devRef .tc main_v5) : IVec S700000 32) = sIdx0 (m ((c : Thread nD τ).loc main_arg9) : IVec S2x600000 32) := by
  show StableHlo.after hostOps0 (W0 (F := Ideal) m ρ c) (Proc.devRef .tc main_v5) = _
  after_results <;> rfl

theorem W1_main_v6 (c : Dev nD) :
    (W1 (F := Ideal) m ρ c (Proc.devRef .tc main_v6) : IVec S700000 32) = dIdx0 (m ((c : Thread nD τ).loc main_arg9) : IVec S2x600000 32) := by
  show StableHlo.after hostOps0 (W0 (F := Ideal) m ρ c) (Proc.devRef .tc main_v6) = _
  after_results <;> rfl

theorem W1_main_v12 (c : Dev nD) :
    (W1 (F := Ideal) m ρ c (Proc.devRef .tc main_v12) : IVec S100000 1) = cmpf .ogt (deg0 (m ((c : Thread nD τ).loc main_arg9) : IVec S2x600000 32)) zeroN0 := by
  show StableHlo.after hostOps0 (W0 (F := Ideal) m ρ c) (Proc.devRef .tc main_v12) = _
  after_results <;> rfl

theorem W1_main_v13 (c : Dev nD) :
    (W1 (F := Ideal) m ρ c (Proc.devRef .tc main_v13) : FVec Ideal S100000 .f32) = Host.rsqrt (deg0 (m ((c : Thread nD τ).loc main_arg9) : IVec S2x600000 32)) := by
  show StableHlo.after hostOps0 (W0 (F := Ideal) m ρ c) (Proc.devRef .tc main_v13) = _
  after_results <;> rfl

theorem W1_main_v14 (c : Dev nD) :
    (W1 (F := Ideal) m ρ c (Proc.devRef .tc main_v14) : FVec Ideal S100000 .f32) = zeroN0 := by
  show StableHlo.after hostOps0 (W0 (F := Ideal) m ρ c) (Proc.devRef .tc main_v14) = _
  after_results <;> rfl

theorem after_hostOps0_1_v15 (V : Valuation τ sig (Elt Ideal)) :
    (StableHlo.after hostOps0_1 V (Proc.devRef .tc main_v15) : FVec Ideal S100000 .f32)
      = select (V (Proc.devRef .tc main_v12) : IVec S100000 1) (V (Proc.devRef .tc main_v13) : FVec Ideal S100000 .f32)
          (V (Proc.devRef .tc main_v14) : FVec Ideal S100000 .f32) := by
  after_results <;> rfl

theorem W2_main_v15 (c : Dev nD) :
    (W2 (F := Ideal) m ρ c (Proc.devRef .tc main_v15) : FVec Ideal S100000 .f32) = disV0 (m ((c : Thread nD τ).loc main_arg9) : IVec S2x600000 32) := by
  show StableHlo.after hostOps0_1 (W1 (F := Ideal) m ρ c) (Proc.devRef .tc main_v15) = _
  rw [after_hostOps0_1_v15, W1_main_v12, W1_main_v13, W1_main_v14]
  rfl

theorem after_hostOps0_2_v16 (V : Valuation τ sig (Elt Ideal)) :
    (StableHlo.after hostOps0_2 V (Proc.devRef .tc main_v16) : FVec Ideal S100000x1 .f32)
      = shapeCast S100000x1 (V (Proc.devRef .tc main_v15) : FVec Ideal S100000 .f32) Facts₀.shapeCasts_S100000_S100000x1 := by
  after_results <;> rfl

theorem W3_main_v16 (c : Dev nD) :
    (W3 (F := Ideal) m ρ c (Proc.devRef .tc main_v16) : FVec Ideal S100000x1 .f32) = (shapeCast S100000x1 (disV0 (m ((c : Thread nD τ).loc main_arg9) : IVec S2x600000 32)) Facts₀.shapeCasts_S100000_S100000x1) := by
  show StableHlo.after hostOps0_2 (W2 (F := Ideal) m ρ c) (Proc.devRef .tc main_v16) = _
  rw [after_hostOps0_2_v16, W2_main_v15]

theorem W4_main_v5 (c : Dev nD) :
    (W4 (F := Ideal) m ρ c (Proc.devRef .tc main_v5) : IVec S700000 32) = sIdx0 (m ((c : Thread nD τ).loc main_arg9) : IVec S2x600000 32) :=
  calc W4 (F := Ideal) m ρ c (Proc.devRef .tc main_v5)
    _ = W3 (F := Ideal) m ρ c (Proc.devRef .tc main_v5) := W4_of_ne m ρ c main_v5 (by decide)
    _ = W2 (F := Ideal) m ρ c (Proc.devRef .tc main_v5) := keep0_2 _ main_v5 (by decide)
    _ = W1 (F := Ideal) m ρ c (Proc.devRef .tc main_v5) := keep0_1 _ main_v5 (by decide)
    _ = _ := W1_main_v5 m ρ c

theorem W5_main_v6 (c : Dev nD) :
    (W5 (F := Ideal) m ρ c (Proc.devRef .tc main_v6) : IVec S700000 32) = dIdx0 (m ((c : Thread nD τ).loc main_arg9) : IVec S2x600000 32) :=
  calc W5 (F := Ideal) m ρ c (Proc.devRef .tc main_v6)
    _ = W4 (F := Ideal) m ρ c (Proc.devRef .tc main_v6) := keep1 _ main_v6 (by decide)
    _ = W3 (F := Ideal) m ρ c (Proc.devRef .tc main_v6) := W4_of_ne m ρ c main_v6 (by decide)
    _ = W2 (F := Ideal) m ρ c (Proc.devRef .tc main_v6) := keep0_2 _ main_v6 (by decide)
    _ = W1 (F := Ideal) m ρ c (Proc.devRef .tc main_v6) := keep0_1 _ main_v6 (by decide)
    _ = _ := W1_main_v6 m ρ c

theorem W5_main_v15 (c : Dev nD) :
    (W5 (F := Ideal) m ρ c (Proc.devRef .tc main_v15) : FVec Ideal S100000 .f32) = disV0 (m ((c : Thread nD τ).loc main_arg9) : IVec S2x600000 32) :=
  calc W5 (F := Ideal) m ρ c (Proc.devRef .tc main_v15)
    _ = W4 (F := Ideal) m ρ c (Proc.devRef .tc main_v15) := keep1 _ main_v15 (by decide)
    _ = W3 (F := Ideal) m ρ c (Proc.devRef .tc main_v15) := W4_of_ne m ρ c main_v15 (by decide)
    _ = W2 (F := Ideal) m ρ c (Proc.devRef .tc main_v15) := keep0_2 _ main_v15 (by decide)
    _ = _ := W2_main_v15 m ρ c

abbrev take0s (x : FVec Ideal S100000x32 .f32) (s : IVec S700000 32) : FVec Ideal S700000x32 .f32 :=
  takeFill Facts₀.bcast_S_S700000 Facts₀.bcast_S700000_S700000x1_0 Facts₀.bcast_S_S700000x1 Facts₀.bcast_S1_S1x1_1
    Facts₀.bcast_S1x1_S700000x1_0_1 Facts₀.reducesTo_S700000x1_S700000_d1 Facts₀.h_S_
    gather_S100000x32_S700000x1_S700000x32_1_0_n_n_0_1_132 Facts₀.bcast_S700000_S700000x32_0 Facts₀.bcast_S_S700000x32
    100000#32 99999#32 x s

theorem take0s_apply (x : FVec Ideal S100000x32 .f32) (s : IVec S700000 32)
    (hs : ∀ e, -(100000 : ℤ) ≤ (s e).toInt ∧ (s e).toInt < 100000) (p : Fin 700000) (k : Fin 32) :
    take0s x s (ix2 p k) = x (ix2 (rowOf 100000 (by decide) (s (ix1 p))) k) :=
  takeFill_apply (n := 100000) (by decide) (by decide) Facts₀.bcast_S_S700000 Facts₀.bcast_S700000_S700000x1_0
    Facts₀.bcast_S_S700000x1 Facts₀.bcast_S1_S1x1_1 Facts₀.bcast_S1x1_S700000x1_0_1 Facts₀.reducesTo_S700000x1_S700000_d1
    Facts₀.h_S_ Facts₀.gather_S100000x32_S700000x1_S700000x32_1_0_n_n_0_1_132_wf Facts₀.bcast_S700000_S700000x32_0
    Facts₀.bcast_S_S700000x32 99999#32 (by decide) x s (fun e => by exact_mod_cast hs e) p k

abbrev take0u (x : FVec Ideal S100000x32 .f32) (u : IVec S200000 32) : FVec Ideal S200000x32 .f32 :=
  takeFill Facts₀.bcast_S_S200000 Facts₀.bcast_S200000_S200000x1_0 Facts₀.bcast_S_S200000x1 Facts₀.bcast_S1_S1x1_1
    Facts₀.bcast_S1x1_S200000x1_0_1 Facts₀.reducesTo_S200000x1_S200000_d1 Facts₀.h_S_
    gather_S100000x32_S200000x1_S200000x32_1_0_n_n_0_1_132 Facts₀.bcast_S200000_S200000x32_0 Facts₀.bcast_S_S200000x32
    100000#32 99999#32 x u

theorem take0u_apply (x : FVec Ideal S100000x32 .f32) (u : IVec S200000 32)
    (hu : ∀ e, -(100000 : ℤ) ≤ (u e).toInt ∧ (u e).toInt < 100000) (p : Fin 200000) (k : Fin 32) :
    take0u x u (ix2 p k) = x (ix2 (rowOf 100000 (by decide) (u (ix1 p))) k) :=
  takeFill_apply (n := 100000) (by decide) (by decide) Facts₀.bcast_S_S200000 Facts₀.bcast_S200000_S200000x1_0
    Facts₀.bcast_S_S200000x1 Facts₀.bcast_S1_S1x1_1 Facts₀.bcast_S1x1_S200000x1_0_1 Facts₀.reducesTo_S200000x1_S200000_d1
    Facts₀.h_S_ Facts₀.gather_S100000x32_S200000x1_S200000x32_1_0_n_n_0_1_132_wf Facts₀.bcast_S200000_S200000x32_0
    Facts₀.bcast_S_S200000x32 99999#32 (by decide) x u (fun e => by exact_mod_cast hu e) p k

theorem ofBuf_v17 (V : Valuation τ sig (Elt Ideal)) :
    (StableHlo.TRef.of main_v17 : StableHlo.TRef sig ⟨S100000x32, .f32⟩).ofBuf (V (Proc.devRef .tc main_v17))
      = (V (Proc.devRef .tc main_v17) : S100000x32.Idx → EReal) := rfl
theorem ofBuf_v5 (V : Valuation τ sig (Elt Ideal)) :
    (StableHlo.TRef.of main_v5 : StableHlo.TRef sig ⟨S700000, .i32⟩).ofBuf (V (Proc.devRef .tc main_v5))
      = (V (Proc.devRef .tc main_v5) : IVec S700000 32) := rfl
theorem toBuf_v18 (v : S700000x32.Idx → EReal) :
    ((StableHlo.TRef.of main_v18 : StableHlo.TRef sig ⟨S700000x32, .f32⟩).toBuf (Val := Elt Ideal) v : S700000x32.Idx → EReal) = v := rfl
theorem ofBuf_v24 (V : Valuation τ sig (Elt Ideal)) :
    (StableHlo.TRef.of main_v24 : StableHlo.TRef sig ⟨S100000x32, .f32⟩).ofBuf (V (Proc.devRef .tc main_v24))
      = (V (Proc.devRef .tc main_v24) : S100000x32.Idx → EReal) := rfl
theorem ofBuf_arg10 (V : Valuation τ sig (Elt Ideal)) :
    (StableHlo.TRef.of main_arg10 : StableHlo.TRef sig ⟨S200000, .i32⟩).ofBuf (V (Proc.devRef .tc main_arg10))
      = (V (Proc.devRef .tc main_arg10) : IVec S200000 32) := rfl
theorem toBuf_v25 (v : S200000x32.Idx → EReal) :
    ((StableHlo.TRef.of main_v25 : StableHlo.TRef sig ⟨S200000x32, .f32⟩).toBuf (Val := Elt Ideal) v : S200000x32.Idx → EReal) = v := rfl

theorem after_hostOps1_v18 (V : Valuation τ sig (Elt Ideal)) :
    (StableHlo.after hostOps1 V (Proc.devRef .tc main_v18) : FVec Ideal S700000x32 .f32)
      = take0s (V (Proc.devRef .tc main_v17) : FVec Ideal S100000x32 .f32) (V (Proc.devRef .tc main_v5) : IVec S700000 32) := by
  after_results_simp
  simp only [StableHlo.TRef.ofBuf_toBuf]
  refine (toBuf_v18 _).trans ?_
  simp only [ofBuf_v17 V, ofBuf_v5 V]
  rfl

theorem after_hostOps2_v25 (V : Valuation τ sig (Elt Ideal)) :
    (StableHlo.after hostOps2 V (Proc.devRef .tc main_v25) : FVec Ideal S200000x32 .f32)
      = take0u (V (Proc.devRef .tc main_v24) : FVec Ideal S100000x32 .f32) (V (Proc.devRef .tc main_arg10) : IVec S200000 32) := by
  after_results_simp
  simp only [StableHlo.TRef.ofBuf_toBuf]
  refine (toBuf_v25 _).trans ?_
  simp only [ofBuf_v24 V, ofBuf_arg10 V]
  rfl

theorem W5_main_v18 (c : Dev nD) :
    (W5 (F := Ideal) m ρ c (Proc.devRef .tc main_v18) : FVec Ideal S700000x32 .f32) = take0s (linOut (m ((c : Thread nD τ).loc main_arg0) : S100000x3.Idx → EReal) (m ((c : Thread nD τ).loc main_arg1) : S3x32.Idx → EReal) (shapeCast S100000x1 (disV0 (m ((c : Thread nD τ).loc main_arg9) : IVec S2x600000 32)) Facts₀.shapeCasts_S100000_S100000x1)) (sIdx0 (m ((c : Thread nD τ).loc main_arg9) : IVec S2x600000 32)) := by
  show StableHlo.after hostOps1 (W4 (F := Ideal) m ρ c) (Proc.devRef .tc main_v18) = _
  rw [after_hostOps1_v18, W4_main_v17, W4_main_v5, W3_arg _ _ _ main_arg0, W3_arg _ _ _ main_arg1, W3_main_v16]

theorem after_hostOps1_1_v21 (V : Valuation τ sig (Elt Ideal)) :
    (StableHlo.after hostOps1_1 V (Proc.devRef .tc main_v21) : FVec Ideal S100000x32 .f32)
      = Host.scatterAdd scatter_S100000x32_S700000x1_S700000x32_1_0_0_1
          (broadcastInDim S100000x32 ![] Facts₀.bcast_S_S100000x32 (constant (F := Ideal) S_ .f32 0x00000000#32))
          (broadcastInDim S700000x1 ![0] Facts₀.bcast_S700000_S700000x1_0 (V (Proc.devRef .tc main_v6) : IVec S700000 32))
          (V (Proc.devRef .tc main_v18) : FVec Ideal S700000x32 .f32) := by
  after_results <;> rfl

theorem after_hostOps1_1_v22 (V : Valuation τ sig (Elt Ideal)) :
    (StableHlo.after hostOps1_1 V (Proc.devRef .tc main_v22) : FVec Ideal S100000x1 .f32)
      = shapeCast S100000x1 (V (Proc.devRef .tc main_v15) : FVec Ideal S100000 .f32) Facts₀.shapeCasts_S100000_S100000x1 := by
  after_results <;> rfl

theorem after_hostOps1_1_v23 (V : Valuation τ sig (Elt Ideal)) :
    (StableHlo.after hostOps1_1 V (Proc.devRef .tc main_v23) : FVec Ideal S1x32 .f32)
      = shapeCast S1x32 (V (Proc.devRef .tc main_arg2) : FVec Ideal S32 .f32) Facts₀.shapeCasts_S32_S1x32 := by
  after_results <;> rfl

theorem zeros0_apply (j : S100000x32.Idx) :
    (broadcastInDim S100000x32 ![] Facts₀.bcast_S_S100000x32 (constant (F := Ideal) S_ .f32 0x00000000#32) : FVec Ideal S100000x32 .f32) j
      = (0 : EReal) := by
  show Ideal.ofBits .f32 0x00000000#32 = (0 : EReal)
  exact Ideal.ofBits_zero_f32

theorem W7_main_v24_layer (c : Dev nD)
    (hs : ∀ e, -(100000 : ℤ) ≤ (sIdx0 (m ((c : Thread nD τ).loc main_arg9) : IVec S2x600000 32) e).toInt ∧ (sIdx0 (m ((c : Thread nD τ).loc main_arg9) : IVec S2x600000 32) e).toInt < 100000) :
    (W7 (F := Ideal) m ρ c (Proc.devRef .tc main_v24) : S100000x32.Idx → EReal)
      = layerK (by decide) scatter_S100000x32_S700000x1_S700000x32_1_0_0_1
          (fun i => disV0 (m ((c : Thread nD τ).loc main_arg9) : IVec S2x600000 32) (ix1 i))
          (W0 (F := Ideal) m ρ c (Proc.devRef .tc main_arg0) : S100000x3.Idx → EReal)
          (m ((c : Thread nD τ).loc main_arg1) : S3x32.Idx → EReal)
          (fun q => (m ((c : Thread nD τ).loc main_arg2) : S32.Idx → EReal) (ix1 q))
          (fun e => sIdx0 (m ((c : Thread nD τ).loc main_arg9) : IVec S2x600000 32) (ix1 e))
          (dcol0 (m ((c : Thread nD τ).loc main_arg9) : IVec S2x600000 32)) := by
  have h21 : (W6 (F := Ideal) m ρ c (Proc.devRef .tc main_v21) : FVec Ideal S100000x32 .f32)
      = Host.scatterAdd scatter_S100000x32_S700000x1_S700000x32_1_0_0_1
          (broadcastInDim S100000x32 ![] Facts₀.bcast_S_S100000x32 (constant (F := Ideal) S_ .f32 0x00000000#32))
          (dcol0 (m ((c : Thread nD τ).loc main_arg9) : IVec S2x600000 32)) (take0s (linOut (m ((c : Thread nD τ).loc main_arg0) : S100000x3.Idx → EReal) (m ((c : Thread nD τ).loc main_arg1) : S3x32.Idx → EReal) (shapeCast S100000x1 (disV0 (m ((c : Thread nD τ).loc main_arg9) : IVec S2x600000 32)) Facts₀.shapeCasts_S100000_S100000x1)) (sIdx0 (m ((c : Thread nD τ).loc main_arg9) : IVec S2x600000 32))) := by
    show StableHlo.after hostOps1_1 (W5 (F := Ideal) m ρ c) (Proc.devRef .tc main_v21) = _
    rw [after_hostOps1_1_v21, W5_main_v6, W5_main_v18]
    rfl
  have h22 : (W6 (F := Ideal) m ρ c (Proc.devRef .tc main_v22) : FVec Ideal S100000x1 .f32) = (shapeCast S100000x1 (disV0 (m ((c : Thread nD τ).loc main_arg9) : IVec S2x600000 32)) Facts₀.shapeCasts_S100000_S100000x1) := by
    show StableHlo.after hostOps1_1 (W5 (F := Ideal) m ρ c) (Proc.devRef .tc main_v22) = _
    rw [after_hostOps1_1_v22, W5_main_v15]
  have h23 : (W6 (F := Ideal) m ρ c (Proc.devRef .tc main_v23) : FVec Ideal S1x32 .f32) = shapeCast S1x32 (m ((c : Thread nD τ).loc main_arg2) : S32.Idx → EReal) Facts₀.shapeCasts_S32_S1x32 := by
    show StableHlo.after hostOps1_1 (W5 (F := Ideal) m ρ c) (Proc.devRef .tc main_v23) = _
    rw [after_hostOps1_1_v23, W5_arg _ _ _ main_arg2]
  rw [W7_main_v24, h21, h22, h23]
  have hd : ∀ i : Fin 100000, (shapeCast S100000x1 (disV0 (m ((c : Thread nD τ).loc main_arg9) : IVec S2x600000 32)) Facts₀.shapeCasts_S100000_S100000x1) (ix2 i 0) = disV0 (m ((c : Thread nD τ).loc main_arg9) : IVec S2x600000 32) (ix1 i) :=
    fun i => Cert.Attn.Column.shapeCast_a_a1_apply _ _ i 0
  have hb : ∀ q : Fin 32, shapeCast S1x32 (m ((c : Thread nD τ).loc main_arg2) : S32.Idx → EReal) Facts₀.shapeCasts_S32_S1x32 (ix2 0 q) = (m ((c : Thread nD τ).loc main_arg2) : S32.Idx → EReal) (ix1 q) :=
    fun q => congrFun (Cert.Mlp.row_shapeCast _ _) q
  exact layer_of_parts (n := 100000) (Cin := 3) (C := 32) (M := 700000) (by decide)
    scatter_S100000x32_S700000x1_S700000x32_1_0_0_1 (disV0 (m ((c : Thread nD τ).loc main_arg9) : IVec S2x600000 32)) (m ((c : Thread nD τ).loc main_arg0) : S100000x3.Idx → EReal) (m ((c : Thread nD τ).loc main_arg1) : S3x32.Idx → EReal) (m ((c : Thread nD τ).loc main_arg2) : S32.Idx → EReal) (sIdx0 (m ((c : Thread nD τ).loc main_arg9) : IVec S2x600000 32)) (dcol0 (m ((c : Thread nD τ).loc main_arg9) : IVec S2x600000 32))
    _ (zeros0_apply) _ _ hd hd _ hb _ (fun p k => take0s_apply _ _ hs p k)

/-- Layer 0 on the kernel side: with the source and unpooling words in range, the unpooled table is the pick of the split-factor layer. -/
theorem stage0 (c : Dev nD)
    (hs : ∀ e, -(100000 : ℤ) ≤ (sIdx0 (m ((c : Thread nD τ).loc main_arg9) : IVec S2x600000 32) e).toInt ∧ (sIdx0 (m ((c : Thread nD τ).loc main_arg9) : IVec S2x600000 32) e).toInt < 100000)
    (hu : ∀ p, -(100000 : ℤ) ≤ ((m ((c : Thread nD τ).loc main_arg10) : IVec S200000 32) p).toInt ∧ ((m ((c : Thread nD τ).loc main_arg10) : IVec S200000 32) p).toInt < 100000) :
    (W8 (F := Ideal) m ρ c (Proc.devRef .tc main_v25) : S200000x32.Idx → EReal)
      = pick (n := 100000) (by decide)
          (layerK (by decide) scatter_S100000x32_S700000x1_S700000x32_1_0_0_1
            (fun i => disV0 (m ((c : Thread nD τ).loc main_arg9) : IVec S2x600000 32) (ix1 i))
            (W0 (F := Ideal) m ρ c (Proc.devRef .tc main_arg0) : S100000x3.Idx → EReal)
            (m ((c : Thread nD τ).loc main_arg1) : S3x32.Idx → EReal)
            (fun q => (m ((c : Thread nD τ).loc main_arg2) : S32.Idx → EReal) (ix1 q))
            (fun e => sIdx0 (m ((c : Thread nD τ).loc main_arg9) : IVec S2x600000 32) (ix1 e))
            (dcol0 (m ((c : Thread nD τ).loc main_arg9) : IVec S2x600000 32)))
          (fun p => (m ((c : Thread nD τ).loc main_arg10) : IVec S200000 32) (ix1 p)) := by
  refine pick_of_rows (n := 100000) (C := 32) (N := 200000) (by decide)
    (W7 (F := Ideal) m ρ c (Proc.devRef .tc main_v24) : S100000x32.Idx → EReal) _ (W7_main_v24_layer m ρ c hs) (m ((c : Thread nD τ).loc main_arg10) : IVec S200000 32) _ (fun p k => ?_)
  show StableHlo.after hostOps2 (W7 (F := Ideal) m ρ c) (Proc.devRef .tc main_v25) (ix2 p k) = _
  rw [after_hostOps2_v25, W7_arg _ _ _ main_arg10]
  exact take0u_apply _ _ hu p k

end Cert.KernelIdeal.Net

end
-- ==== Proof.KI.Stage1.lean ====
import proofs.«400126_j7060926234635_3_alg».proof.Proof.Gen.KernelIdeal.Frame
import proofs.«400126_j7060926234635_3_alg».proof.Proof.KI.Defs
import proofs.«400126_j7060926234635_3_alg».proof.Proof.KI.RegionsA
import proofs.«400126_j7060926234635_3_alg».proof.Proof.KI.RegionsB
import proofs.«400126_j7060926234635_3_alg».proof.Proof.KI.Carry
import proofs.«400126_j7060926234635_3_alg».proof.Proof.KI.Parts
import proofs.«400126_j7060926234635_3_alg».proof.Proof.HostRead
import proofs.«400126_j7060926234635_3_alg».proof.Proof.LibColumn
import proofs.«400126_j7060926234635_3_alg».proof.Proof.LibTRef
import Idealize.ShloMosaic.Lib.IdealHost

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet
open Cert.KernelIdeal.Facts₀ Cert.KernelIdeal.Facts

variable (m : (ℓ : Loc nD τ sig) → Buf (Elt Ideal) ℓ) (ρ : Dev nD → PrngReg)

theorem W11_main_v31 (c : Dev nD) :
    (W11 (F := Ideal) m ρ c (Proc.devRef .tc main_v31) : IVec S1400000 32) = sIdx1 (m ((c : Thread nD τ).loc main_arg11) : IVec S2x1200000 32) := by
  rw [← W8_arg (F := Ideal) m ρ c main_arg11]
  show StableHlo.after hostOps2_3 (StableHlo.after hostOps2_2 (StableHlo.after hostOps2_1 (W8 (F := Ideal) m ρ c)))
    (Proc.devRef .tc main_v31) = _
  generalize W8 (F := Ideal) m ρ c = X
  after_results
  rfl

theorem W11_main_v32 (c : Dev nD) :
    (W11 (F := Ideal) m ρ c (Proc.devRef .tc main_v32) : IVec S1400000 32) = dIdx1 (m ((c : Thread nD τ).loc main_arg11) : IVec S2x1200000 32) := by
  rw [← W8_arg (F := Ideal) m ρ c main_arg11]
  show StableHlo.after hostOps2_3 (StableHlo.after hostOps2_2 (StableHlo.after hostOps2_1 (W8 (F := Ideal) m ρ c)))
    (Proc.devRef .tc main_v32) = _
  generalize W8 (F := Ideal) m ρ c = X
  after_results
  rfl

theorem W9_main_v38 (c : Dev nD) :
    (W9 (F := Ideal) m ρ c (Proc.devRef .tc main_v38) : IVec S200000 1)
      = cmpf .ogt (Host.scatterAdd scatter_S200000_S1400000x1_S1400000_n_0_0_1
            (broadcastInDim S200000 ![] Gen.bcast_S_S200000 (constant (F := Ideal) S_ .f32 0x00000000#32))
            (dcol1 (m ((c : Thread nD τ).loc main_arg11) : IVec S2x1200000 32))
            (broadcastInDim S1400000 ![] Gen.bcast_S_S1400000 (constant (F := Ideal) S_ .f32 0x3F800000#32)))
          (broadcastInDim S200000 ![] Gen.bcast_S_S200000 (constant (F := Ideal) S_ .f32 0x00000000#32)) := by
  rw [← W8_arg (F := Ideal) m ρ c main_arg11]
  show StableHlo.after hostOps2_1 (W8 (F := Ideal) m ρ c) (Proc.devRef .tc main_v38) = _
  generalize W8 (F := Ideal) m ρ c = X
  after_results
  rfl

theorem W9_main_v39 (c : Dev nD) :
    (W9 (F := Ideal) m ρ c (Proc.devRef .tc main_v39) : S200000.Idx → EReal)
      = Host.rsqrt (Host.scatterAdd scatter_S200000_S1400000x1_S1400000_n_0_0_1
            (broadcastInDim S200000 ![] Gen.bcast_S_S200000 (constant (F := Ideal) S_ .f32 0x00000000#32))
            (dcol1 (m ((c : Thread nD τ).loc main_arg11) : IVec S2x1200000 32))
            (broadcastInDim S1400000 ![] Gen.bcast_S_S1400000 (constant (F := Ideal) S_ .f32 0x3F800000#32))) := by
  rw [← W8_arg (F := Ideal) m ρ c main_arg11]
  show StableHlo.after hostOps2_1 (W8 (F := Ideal) m ρ c) (Proc.devRef .tc main_v39) = _
  generalize W8 (F := Ideal) m ρ c = X
  after_results
  rfl

theorem W9_main_v40 (c : Dev nD) :
    (W9 (F := Ideal) m ρ c (Proc.devRef .tc main_v40) : S200000.Idx → EReal)
      = broadcastInDim S200000 ![] Gen.bcast_S_S200000 (constant (F := Ideal) S_ .f32 0x00000000#32) := by
  show StableHlo.after hostOps2_1 (W8 (F := Ideal) m ρ c) (Proc.devRef .tc main_v40) = _
  generalize W8 (F := Ideal) m ρ c = X
  after_results

theorem W10_main_v41 (c : Dev nD) :
    (W10 (F := Ideal) m ρ c (Proc.devRef .tc main_v41) : S200000.Idx → EReal) = disV1 (m ((c : Thread nD τ).loc main_arg11) : IVec S2x1200000 32) := by
  have e : (W10 (F := Ideal) m ρ c (Proc.devRef .tc main_v41) : S200000.Idx → EReal)
      = select (W9 (F := Ideal) m ρ c (Proc.devRef .tc main_v38) : IVec S200000 1)
          (W9 (F := Ideal) m ρ c (Proc.devRef .tc main_v39) : S200000.Idx → EReal)
          (W9 (F := Ideal) m ρ c (Proc.devRef .tc main_v40) : S200000.Idx → EReal) := by
    show StableHlo.after hostOps2_2 (W9 (F := Ideal) m ρ c) (Proc.devRef .tc main_v41) = _
    generalize W9 (F := Ideal) m ρ c = X
    after_results
    rfl
  rw [e, W9_main_v38, W9_main_v39, W9_main_v40]
  rfl

theorem W11_main_v41 (c : Dev nD) :
    (W11 (F := Ideal) m ρ c (Proc.devRef .tc main_v41) : S200000.Idx → EReal) = disV1 (m ((c : Thread nD τ).loc main_arg11) : IVec S2x1200000 32) := by
  rw [← W10_main_v41]
  show StableHlo.after hostOps2_3 (W10 (F := Ideal) m ρ c) (Proc.devRef .tc main_v41) = _
  generalize W10 (F := Ideal) m ρ c = X
  after_results

theorem W11_main_v42 (c : Dev nD) :
    (W11 (F := Ideal) m ρ c (Proc.devRef .tc main_v42) : S200000x1.Idx → EReal)
      = shapeCast S200000x1 (disV1 (m ((c : Thread nD τ).loc main_arg11) : IVec S2x1200000 32)) Gen.shapeCasts_S200000_S200000x1 := by
  rw [← W10_main_v41]
  show StableHlo.after hostOps2_3 (W10 (F := Ideal) m ρ c) (Proc.devRef .tc main_v42) = _
  generalize W10 (F := Ideal) m ρ c = X
  after_results
  rfl

theorem W11_main_v25 (c : Dev nD) :
    W11 (F := Ideal) m ρ c (Proc.devRef .tc main_v25) = W8 (F := Ideal) m ρ c (Proc.devRef .tc main_v25) := by
  show StableHlo.after hostOps2_3 (StableHlo.after hostOps2_2 (StableHlo.after hostOps2_1 (W8 (F := Ideal) m ρ c)))
    (Proc.devRef .tc main_v25) = _
  generalize W8 (F := Ideal) m ρ c = X
  after_results

private theorem ofBuf_v43 (V : Valuation τ sig (Elt Ideal)) :
    (StableHlo.TRef.of main_v43 : StableHlo.TRef sig ⟨S200000x64, .f32⟩).ofBuf (V (Proc.devRef .tc main_v43))
      = (V (Proc.devRef .tc main_v43) : S200000x64.Idx → EReal) := rfl
private theorem ofBuf_v31 (V : Valuation τ sig (Elt Ideal)) :
    (StableHlo.TRef.of main_v31 : StableHlo.TRef sig ⟨S1400000, .i32⟩).ofBuf (V (Proc.devRef .tc main_v31))
      = (V (Proc.devRef .tc main_v31) : IVec S1400000 32) := rfl
private theorem toBuf_v44 (v : S1400000x64.Idx → EReal) :
    ((StableHlo.TRef.of main_v44 : StableHlo.TRef sig ⟨S1400000x64, .f32⟩).toBuf (Val := Elt Ideal) v
      : S1400000x64.Idx → EReal) = v := rfl
private theorem ofBuf_v50 (V : Valuation τ sig (Elt Ideal)) :
    (StableHlo.TRef.of main_v50 : StableHlo.TRef sig ⟨S200000x64, .f32⟩).ofBuf (V (Proc.devRef .tc main_v50))
      = (V (Proc.devRef .tc main_v50) : S200000x64.Idx → EReal) := rfl
private theorem ofBuf_arg12 (V : Valuation τ sig (Elt Ideal)) :
    (StableHlo.TRef.of main_arg12 : StableHlo.TRef sig ⟨S400000, .i32⟩).ofBuf (V (Proc.devRef .tc main_arg12))
      = (V (Proc.devRef .tc main_arg12) : IVec S400000 32) := rfl
private theorem toBuf_v51 (v : S400000x64.Idx → EReal) :
    ((StableHlo.TRef.of main_v51 : StableHlo.TRef sig ⟨S400000x64, .f32⟩).toBuf (Val := Elt Ideal) v
      : S400000x64.Idx → EReal) = v := rfl

theorem W12_main_v31 (c : Dev nD) : W12 (F := Ideal) m ρ c (Proc.devRef .tc main_v31) = W11 (F := Ideal) m ρ c (Proc.devRef .tc main_v31) :=
  W12_of_ne m ρ c main_v31 (by decide)
theorem W12_main_v32 (c : Dev nD) : W12 (F := Ideal) m ρ c (Proc.devRef .tc main_v32) = W11 (F := Ideal) m ρ c (Proc.devRef .tc main_v32) :=
  W12_of_ne m ρ c main_v32 (by decide)
theorem W12_main_v41 (c : Dev nD) : W12 (F := Ideal) m ρ c (Proc.devRef .tc main_v41) = W11 (F := Ideal) m ρ c (Proc.devRef .tc main_v41) :=
  W12_of_ne m ρ c main_v41 (by decide)

theorem W13_main_v32 (c : Dev nD) : W13 (F := Ideal) m ρ c (Proc.devRef .tc main_v32) = W12 (F := Ideal) m ρ c (Proc.devRef .tc main_v32) :=
  keep3 _ main_v32 (by decide)
theorem W13_main_v41 (c : Dev nD) : W13 (F := Ideal) m ρ c (Proc.devRef .tc main_v41) = W12 (F := Ideal) m ρ c (Proc.devRef .tc main_v41) :=
  keep3 _ main_v41 (by decide)

theorem W13_main_v44 (c : Dev nD) :
    (W13 (F := Ideal) m ρ c (Proc.devRef .tc main_v44) : S1400000x64.Idx → EReal)
      = takeFill Gen.bcast_S_S1400000 Gen.bcast_S1400000_S1400000x1_0 Gen.bcast_S_S1400000x1 Gen.bcast_S1_S1x1_1
          Gen.bcast_S1x1_S1400000x1_0_1 Gen.reducesTo_S1400000x1_S1400000_d1 Gen.h_S_
          gather_S200000x64_S1400000x1_S1400000x64_1_0_n_n_0_1_164 Gen.bcast_S1400000_S1400000x64_0
          Gen.bcast_S_S1400000x64 200000#32 199999#32
          (W12 (F := Ideal) m ρ c (Proc.devRef .tc main_v43) : S200000x64.Idx → EReal)
          (W12 (F := Ideal) m ρ c (Proc.devRef .tc main_v31) : IVec S1400000 32) := by
  show StableHlo.after hostOps3 (W12 (F := Ideal) m ρ c) (Proc.devRef .tc main_v44) = _
  generalize W12 (F := Ideal) m ρ c = X
  after_results_simp
  simp only [StableHlo.TRef.ofBuf_toBuf]
  refine (toBuf_v44 _).trans ?_
  simp only [ofBuf_v43 X, ofBuf_v31 X]
  rfl

theorem W14_main_v47 (c : Dev nD) :
    (W14 (F := Ideal) m ρ c (Proc.devRef .tc main_v47) : S200000x64.Idx → EReal)
      = Host.scatterAdd scatter_S200000x64_S1400000x1_S1400000x64_1_0_0_1
          (broadcastInDim S200000x64 ![] Gen.bcast_S_S200000x64 (constant (F := Ideal) S_ .f32 0x00000000#32))
          (dcol1 (m ((c : Thread nD τ).loc main_arg11) : IVec S2x1200000 32))
          (W13 (F := Ideal) m ρ c (Proc.devRef .tc main_v44) : S1400000x64.Idx → EReal) := by
  have e : dcol1 (m ((c : Thread nD τ).loc main_arg11) : IVec S2x1200000 32)
      = broadcastInDim S1400000x1 ![0] Gen.bcast_S1400000_S1400000x1_0 (W13 (F := Ideal) m ρ c (Proc.devRef .tc main_v32) : IVec S1400000 32) := by
    rw [W13_main_v32, W12_main_v32, W11_main_v32]
    rfl
  rw [e]
  show StableHlo.after hostOps3_1 (W13 (F := Ideal) m ρ c) (Proc.devRef .tc main_v47) = _
  generalize W13 (F := Ideal) m ρ c = X
  after_results

theorem W14_main_v48 (c : Dev nD) :
    (W14 (F := Ideal) m ρ c (Proc.devRef .tc main_v48) : S200000x1.Idx → EReal)
      = shapeCast S200000x1 (disV1 (m ((c : Thread nD τ).loc main_arg11) : IVec S2x1200000 32)) Gen.shapeCasts_S200000_S200000x1 := by
  rw [← W11_main_v41, ← W12_main_v41, ← W13_main_v41]
  show StableHlo.after hostOps3_1 (W13 (F := Ideal) m ρ c) (Proc.devRef .tc main_v48) = _
  generalize W13 (F := Ideal) m ρ c = X
  after_results
  rfl

theorem W14_main_v49 (c : Dev nD) :
    (W14 (F := Ideal) m ρ c (Proc.devRef .tc main_v49) : S1x64.Idx → EReal)
      = shapeCast S1x64 (m ((c : Thread nD τ).loc main_arg4) : S64.Idx → EReal) Gen.shapeCasts_S64_S1x64 := by
  rw [← W13_arg (F := Ideal) m ρ c main_arg4]
  show StableHlo.after hostOps3_1 (W13 (F := Ideal) m ρ c) (Proc.devRef .tc main_v49) = _
  generalize W13 (F := Ideal) m ρ c = X
  after_results
  rfl

theorem W16_main_v51 (c : Dev nD) :
    (W16 (F := Ideal) m ρ c (Proc.devRef .tc main_v51) : S400000x64.Idx → EReal)
      = takeFill Gen.bcast_S_S400000 Gen.bcast_S400000_S400000x1_0 Gen.bcast_S_S400000x1 Gen.bcast_S1_S1x1_1
          Gen.bcast_S1x1_S400000x1_0_1 Gen.reducesTo_S400000x1_S400000_d1 Gen.h_S_
          gather_S200000x64_S400000x1_S400000x64_1_0_n_n_0_1_164 Gen.bcast_S400000_S400000x64_0
          Gen.bcast_S_S400000x64 200000#32 199999#32
          (W15 (F := Ideal) m ρ c (Proc.devRef .tc main_v50) : S200000x64.Idx → EReal)
          (m ((c : Thread nD τ).loc main_arg12) : IVec S400000 32) := by
  rw [← W15_arg (F := Ideal) m ρ c main_arg12]
  show StableHlo.after hostOps4 (W15 (F := Ideal) m ρ c) (Proc.devRef .tc main_v51) = _
  generalize W15 (F := Ideal) m ρ c = X
  after_results_simp
  simp only [StableHlo.TRef.ofBuf_toBuf]
  refine (toBuf_v51 _).trans ?_
  simp only [ofBuf_v50 X, ofBuf_arg12 X]
  rfl

private theorem zeros_apply {T : Shape} (h : S_.BroadcastsInDim T ![]) (j : T.Idx) :
    broadcastInDim T ![] h (constant (F := Ideal) S_ .f32 0x00000000#32) j = (0 : EReal) := by
  rw [broadcastInDim_scalar_apply, constant_apply, Ideal.ofBits_zero_f32]

private theorem oneRow_apply {H : ℕ} (y : (⟨1, ![H]⟩ : Shape).Idx → EReal)
    (h : (⟨1, ![H]⟩ : Shape).ShapeCasts ⟨2, ![1, H]⟩) (q : Fin H) :
    shapeCast (⟨2, ![1, H]⟩ : Shape) y h (ix2 0 q) = y (ix1 q) :=
  shapeCast_apply y h (ix2 0 q) (ix1 q) (by
    rw [Shape.rowMajor_val_two, Shape.rowMajor_val_one]; show q.val = 0 * H + q.val; omega)

/-- Layer 1 on the kernel side, from layer 0's unpooled table. -/
theorem stage1 (c : Dev nD)
    (hs : ∀ e, -(200000 : ℤ) ≤ (sIdx1 (m ((c : Thread nD τ).loc main_arg11) : IVec S2x1200000 32) e).toInt ∧ (sIdx1 (m ((c : Thread nD τ).loc main_arg11) : IVec S2x1200000 32) e).toInt < 200000)
    (hu : ∀ p, -(200000 : ℤ) ≤ ((m ((c : Thread nD τ).loc main_arg12) : IVec S400000 32) p).toInt ∧ ((m ((c : Thread nD τ).loc main_arg12) : IVec S400000 32) p).toInt < 200000) :
    (W16 (F := Ideal) m ρ c (Proc.devRef .tc main_v51) : S400000x64.Idx → EReal)
      = pick (n := 200000) (by decide)
          (layerK (by decide) scatter_S200000x64_S1400000x1_S1400000x64_1_0_0_1
            (fun i => disV1 (m ((c : Thread nD τ).loc main_arg11) : IVec S2x1200000 32) (ix1 i))
            (W8 (F := Ideal) m ρ c (Proc.devRef .tc main_v25) : S200000x32.Idx → EReal)
            (m ((c : Thread nD τ).loc main_arg3) : S32x64.Idx → EReal)
            (fun q => (m ((c : Thread nD τ).loc main_arg4) : S64.Idx → EReal) (ix1 q))
            (fun e => sIdx1 (m ((c : Thread nD τ).loc main_arg11) : IVec S2x1200000 32) (ix1 e))
            (dcol1 (m ((c : Thread nD τ).loc main_arg11) : IVec S2x1200000 32)))
          (fun p => (m ((c : Thread nD τ).loc main_arg12) : IVec S400000 32) (ix1 p)) := by
  have hs' : ∀ e, -((200000 : ℕ) : ℤ) ≤ (sIdx1 (m ((c : Thread nD τ).loc main_arg11) : IVec S2x1200000 32) e).toInt ∧ (sIdx1 (m ((c : Thread nD τ).loc main_arg11) : IVec S2x1200000 32) e).toInt < ((200000 : ℕ) : ℤ) :=
    fun e => by exact_mod_cast hs e
  have hu' : ∀ p, -((200000 : ℕ) : ℤ) ≤ ((m ((c : Thread nD τ).loc main_arg12) : IVec S400000 32) p).toInt
      ∧ ((m ((c : Thread nD τ).loc main_arg12) : IVec S400000 32) p).toInt < ((200000 : ℕ) : ℤ) :=
    fun p => by exact_mod_cast hu p
  have hL : (W15 (F := Ideal) m ρ c (Proc.devRef .tc main_v50) : S200000x64.Idx → EReal)
      = layerK (by decide) scatter_S200000x64_S1400000x1_S1400000x64_1_0_0_1
            (fun i => disV1 (m ((c : Thread nD τ).loc main_arg11) : IVec S2x1200000 32) (ix1 i))
            (W8 (F := Ideal) m ρ c (Proc.devRef .tc main_v25) : S200000x32.Idx → EReal)
            (m ((c : Thread nD τ).loc main_arg3) : S32x64.Idx → EReal)
            (fun q => (m ((c : Thread nD τ).loc main_arg4) : S64.Idx → EReal) (ix1 q))
            (fun e => sIdx1 (m ((c : Thread nD τ).loc main_arg11) : IVec S2x1200000 32) (ix1 e))
            (dcol1 (m ((c : Thread nD τ).loc main_arg11) : IVec S2x1200000 32)) := by
    rw [W15_main_v50, W14_main_v47]
    exact layer_of_parts (by decide) scatter_S200000x64_S1400000x1_S1400000x64_1_0_0_1
      (disV1 (m ((c : Thread nD τ).loc main_arg11) : IVec S2x1200000 32))
      (W8 (F := Ideal) m ρ c (Proc.devRef .tc main_v25) : S200000x32.Idx → EReal)
      (m ((c : Thread nD τ).loc main_arg3) : S32x64.Idx → EReal)
      (m ((c : Thread nD τ).loc main_arg4) : S64.Idx → EReal)
      (sIdx1 (m ((c : Thread nD τ).loc main_arg11) : IVec S2x1200000 32)) (dcol1 (m ((c : Thread nD τ).loc main_arg11) : IVec S2x1200000 32))
      (broadcastInDim S200000x64 ![] Gen.bcast_S_S200000x64 (constant (F := Ideal) S_ .f32 0x00000000#32))
      (zeros_apply Gen.bcast_S_S200000x64)
      (W11 (F := Ideal) m ρ c (Proc.devRef .tc main_v42) : S200000x1.Idx → EReal)
      (W14 (F := Ideal) m ρ c (Proc.devRef .tc main_v48) : S200000x1.Idx → EReal)
      (fun i => by rw [W11_main_v42, Cert.Attn.Column.shapeCast_a_a1_apply])
      (fun i => by rw [W14_main_v48, Cert.Attn.Column.shapeCast_a_a1_apply])
      (W14 (F := Ideal) m ρ c (Proc.devRef .tc main_v49) : S1x64.Idx → EReal)
      (fun q => by rw [W14_main_v49, oneRow_apply])
      (W13 (F := Ideal) m ρ c (Proc.devRef .tc main_v44) : S1400000x64.Idx → EReal)
      (fun p k => by
        rw [W13_main_v44, W12_main_v31, W11_main_v31, W12_main_v43, W11_main_v25, W11_arg (F := Ideal) m ρ c main_arg3]
        exact takeFill_apply (n := 200000) (by decide) (by decide) _ _ _ _ _ _ _
          Gen.gather_S200000x64_S1400000x1_S1400000x64_1_0_n_n_0_1_164_wf _ _ 199999#32 (by decide) _ _ hs' p k)
  exact pick_of_rows (by decide) _ _ hL (m ((c : Thread nD τ).loc main_arg12) : IVec S400000 32) _ (fun p k => by
    rw [W16_main_v51]
    exact takeFill_apply (n := 200000) (by decide) (by decide) _ _ _ _ _ _ _
      Gen.gather_S200000x64_S400000x1_S400000x64_1_0_n_n_0_1_164_wf _ _ 199999#32 (by decide) _ _ hu' p k)

end Cert.KernelIdeal.Net

end
-- ==== Proof.KI.Stage2.lean ====
import proofs.«400126_j7060926234635_3_alg».proof.Proof.Gen.KernelIdeal.Frame
import proofs.«400126_j7060926234635_3_alg».proof.Proof.KI.Defs
import proofs.«400126_j7060926234635_3_alg».proof.Proof.KI.RegionsA
import proofs.«400126_j7060926234635_3_alg».proof.Proof.KI.RegionsB
import proofs.«400126_j7060926234635_3_alg».proof.Proof.KI.Carry
import proofs.«400126_j7060926234635_3_alg».proof.Proof.KI.Parts
import proofs.«400126_j7060926234635_3_alg».proof.Proof.HostRead
import proofs.«400126_j7060926234635_3_alg».proof.Proof.LibTRef
import proofs.«400126_j7060926234635_3_alg».proof.Proof.LibColumn
import proofs.«400126_j7060926234635_3_alg».proof.Proof.LibMlp

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet
open Cert.KernelIdeal.Facts₀ Cert.KernelIdeal.Facts

variable (m : (ℓ : Loc nD τ sig) → Buf (Elt Ideal) ℓ) (ρ : Dev nD → PrngReg)

abbrev zeroN2 : FVec Ideal S400000 .f32 := broadcastInDim S400000 ![] Facts₀.bcast_S_S400000 (constant S_ .f32 0x00000000#32)
abbrev oneM2 : FVec Ideal S2800000 .f32 := broadcastInDim S2800000 ![] Facts₀.bcast_S_S2800000 (constant S_ .f32 0x3F800000#32)
abbrev deg2 (ei : IVec S2x2400000 32) : FVec Ideal S400000 .f32 :=
  Host.scatterAdd scatter_S400000_S2800000x1_S2800000_n_0_0_1 zeroN2 (dcol2 ei) oneM2

theorem after_hostOps4_1_v57 (V : Valuation τ sig (Elt Ideal)) :
    (StableHlo.after hostOps4_1 V (Proc.devRef .tc main_v57) : IVec S2800000 32)
      = sIdx2 (V (Proc.devRef .tc main_arg13) : IVec S2x2400000 32) := by
  after_results <;> rfl

theorem after_hostOps4_1_v58 (V : Valuation τ sig (Elt Ideal)) :
    (StableHlo.after hostOps4_1 V (Proc.devRef .tc main_v58) : IVec S2800000 32)
      = dIdx2 (V (Proc.devRef .tc main_arg13) : IVec S2x2400000 32) := by
  after_results <;> rfl

theorem after_hostOps4_1_v64 (V : Valuation τ sig (Elt Ideal)) :
    (StableHlo.after hostOps4_1 V (Proc.devRef .tc main_v64) : IVec S400000 1)
      = cmpf .ogt (deg2 (V (Proc.devRef .tc main_arg13) : IVec S2x2400000 32)) zeroN2 := by
  after_results <;> rfl

theorem after_hostOps4_1_v65 (V : Valuation τ sig (Elt Ideal)) :
    (StableHlo.after hostOps4_1 V (Proc.devRef .tc main_v65) : FVec Ideal S400000 .f32)
      = Host.rsqrt (deg2 (V (Proc.devRef .tc main_arg13) : IVec S2x2400000 32)) := by
  after_results <;> rfl

theorem after_hostOps4_1_v66 (V : Valuation τ sig (Elt Ideal)) :
    (StableHlo.after hostOps4_1 V (Proc.devRef .tc main_v66) : FVec Ideal S400000 .f32) = zeroN2 := by
  after_results <;> rfl

theorem after_hostOps4_2_v67 (V : Valuation τ sig (Elt Ideal)) :
    (StableHlo.after hostOps4_2 V (Proc.devRef .tc main_v67) : FVec Ideal S400000 .f32)
      = select (V (Proc.devRef .tc main_v64) : IVec S400000 1) (V (Proc.devRef .tc main_v65) : FVec Ideal S400000 .f32)
          (V (Proc.devRef .tc main_v66) : FVec Ideal S400000 .f32) := by
  after_results <;> rfl

theorem after_hostOps4_3_v68 (V : Valuation τ sig (Elt Ideal)) :
    (StableHlo.after hostOps4_3 V (Proc.devRef .tc main_v68) : FVec Ideal S400000x1 .f32)
      = shapeCast S400000x1 (V (Proc.devRef .tc main_v67) : FVec Ideal S400000 .f32) Facts₀.shapeCasts_S400000_S400000x1 := by
  after_results <;> rfl

theorem after_hostOps5_1_v73 (V : Valuation τ sig (Elt Ideal)) :
    (StableHlo.after hostOps5_1 V (Proc.devRef .tc main_v73) : FVec Ideal S400000x32 .f32)
      = Host.scatterAdd scatter_S400000x32_S2800000x1_S2800000x32_1_0_0_1
          (broadcastInDim S400000x32 ![] Facts₀.bcast_S_S400000x32 (constant (F := Ideal) S_ .f32 0x00000000#32))
          (broadcastInDim S2800000x1 ![0] Facts₀.bcast_S2800000_S2800000x1_0 (V (Proc.devRef .tc main_v58) : IVec S2800000 32))
          (V (Proc.devRef .tc main_v70) : FVec Ideal S2800000x32 .f32) := by
  after_results <;> rfl

theorem after_hostOps5_1_v74 (V : Valuation τ sig (Elt Ideal)) :
    (StableHlo.after hostOps5_1 V (Proc.devRef .tc main_v74) : FVec Ideal S400000x1 .f32)
      = shapeCast S400000x1 (V (Proc.devRef .tc main_v67) : FVec Ideal S400000 .f32) Facts₀.shapeCasts_S400000_S400000x1 := by
  after_results <;> rfl

theorem after_hostOps5_1_v75 (V : Valuation τ sig (Elt Ideal)) :
    (StableHlo.after hostOps5_1 V (Proc.devRef .tc main_v75) : FVec Ideal S1x32 .f32)
      = shapeCast S1x32 (V (Proc.devRef .tc main_arg6) : FVec Ideal S32 .f32) Facts₀.shapeCasts_S32_S1x32 := by
  after_results <;> rfl

private theorem after_split (k : ℕ) (l : List (HloOp τ sig (Elt Ideal))) (V : Valuation τ sig (Elt Ideal)) :
    StableHlo.after l V = StableHlo.after (l.drop k) (StableHlo.after (l.take k) V) := by
  induction k generalizing l V with
  | zero => rfl
  | succ k ih =>
    cases l with
    | nil => rfl
    | cons op ops => exact ih ops (op.result V)

theorem ofBuf_v69 (V : Valuation τ sig (Elt Ideal)) :
    (StableHlo.TRef.of main_v69 : StableHlo.TRef sig ⟨S400000x32, .f32⟩).ofBuf (V (Proc.devRef .tc main_v69))
      = (V (Proc.devRef .tc main_v69) : S400000x32.Idx → EReal) := rfl
theorem ofBuf_c7v5 (V : Valuation τ sig (Elt Ideal)) :
    (StableHlo.TRef.of main_call7_v5 : StableHlo.TRef sig ⟨S2800000x1, .i32⟩).ofBuf (V (Proc.devRef .tc main_call7_v5))
      = (V (Proc.devRef .tc main_call7_v5) : IVec S2800000x1 32) := rfl
theorem toBuf_v70 (v : S2800000x32.Idx → EReal) :
    ((StableHlo.TRef.of main_v70 : StableHlo.TRef sig ⟨S2800000x32, .f32⟩).toBuf (Val := Elt Ideal) v : S2800000x32.Idx → EReal) = v := rfl
theorem ofBuf_v76 (V : Valuation τ sig (Elt Ideal)) :
    (StableHlo.TRef.of main_v76 : StableHlo.TRef sig ⟨S400000x32, .f32⟩).ofBuf (V (Proc.devRef .tc main_v76))
      = (V (Proc.devRef .tc main_v76) : S400000x32.Idx → EReal) := rfl
theorem ofBuf_c8v5 (V : Valuation τ sig (Elt Ideal)) :
    (StableHlo.TRef.of main_call8_v5 : StableHlo.TRef sig ⟨S800000x1, .i32⟩).ofBuf (V (Proc.devRef .tc main_call8_v5))
      = (V (Proc.devRef .tc main_call8_v5) : IVec S800000x1 32) := rfl
theorem toBuf_v77 (v : S800000x32.Idx → EReal) :
    ((StableHlo.TRef.of main_v77 : StableHlo.TRef sig ⟨S800000x32, .f32⟩).toBuf (Val := Elt Ideal) v : S800000x32.Idx → EReal) = v := rfl

theorem take7_head_v5 (V : Valuation τ sig (Elt Ideal)) :
    (StableHlo.after (List.take 8 hostOps5) V (Proc.devRef .tc main_call7_v5) : IVec S2800000x1 32)
      = wrapCol Facts₀.bcast_S_S2800000 Facts₀.bcast_S2800000_S2800000x1_0 400000#32
          (V (Proc.devRef .tc main_v57) : IVec S2800000 32) := by
  simp only [hostOps5, List.take_succ_cons, List.take_zero]
  after_results <;> rfl

theorem take7_head_v69 (V : Valuation τ sig (Elt Ideal)) :
    StableHlo.after (List.take 8 hostOps5) V (Proc.devRef .tc main_v69) = V (Proc.devRef .tc main_v69) := by
  simp only [hostOps5, List.take_succ_cons, List.take_zero]
  after_results

theorem take7_tail_v70 (V : Valuation τ sig (Elt Ideal)) :
    (StableHlo.after (List.drop 8 hostOps5) V (Proc.devRef .tc main_v70) : FVec Ideal S2800000x32 .f32)
      = select (broadcastInDim S2800000x32 ![0] Facts₀.bcast_S2800000_S2800000x32_0
          (Host.reduce IntOp.andi
            (andi (cmpi .sge (V (Proc.devRef .tc main_call7_v5) : IVec S2800000x1 32)
                    (broadcastInDim S2800000x1 ![] Facts₀.bcast_S_S2800000x1 (constantI S_ 32 0#32)))
                  (cmpi .sle (V (Proc.devRef .tc main_call7_v5) : IVec S2800000x1 32)
                    (broadcastInDim S2800000x1 ![0, 1] Facts₀.bcast_S1x1_S2800000x1_0_1
                      (broadcastInDim S1x1 ![1] Facts₀.bcast_S1_S1x1_1 (constantI S1 32 399999#32)))))
            (constantI S_ 1 1#1) Facts₀.reducesTo_S2800000x1_S2800000_d1 Facts₀.h_S_))
        (Host.gather gather_S400000x32_S2800000x1_S2800000x32_1_0_n_n_0_1_132
          (V (Proc.devRef .tc main_v69) : FVec Ideal S400000x32 .f32) (V (Proc.devRef .tc main_call7_v5) : IVec S2800000x1 32))
        (broadcastInDim S2800000x32 ![] Facts₀.bcast_S_S2800000x32 (constant (F := Ideal) S_ .f32 0x7FC00000#32)) := by
  simp only [hostOps5, List.drop_succ_cons, List.drop_zero]
  after_results
  simp only [StableHlo.TRef.ofBuf_toBuf]
  refine (toBuf_v70 _).trans ?_
  simp only [ofBuf_v69 V, ofBuf_c7v5 V] <;> rfl

theorem after_hostOps5_v70 (V : Valuation τ sig (Elt Ideal)) :
    (StableHlo.after hostOps5 V (Proc.devRef .tc main_v70) : FVec Ideal S2800000x32 .f32)
      = takeFill Facts₀.bcast_S_S2800000 Facts₀.bcast_S2800000_S2800000x1_0 Facts₀.bcast_S_S2800000x1 Facts₀.bcast_S1_S1x1_1
          Facts₀.bcast_S1x1_S2800000x1_0_1 Facts₀.reducesTo_S2800000x1_S2800000_d1 Facts₀.h_S_
          gather_S400000x32_S2800000x1_S2800000x32_1_0_n_n_0_1_132
          Facts₀.bcast_S2800000_S2800000x32_0 Facts₀.bcast_S_S2800000x32 400000#32 399999#32
          (V (Proc.devRef .tc main_v69) : FVec Ideal S400000x32 .f32) (V (Proc.devRef .tc main_v57) : IVec S2800000 32) := by
  rw [after_split 8 hostOps5 V, take7_tail_v70, take7_head_v5, take7_head_v69]
  rfl

theorem take8_head_v5 (V : Valuation τ sig (Elt Ideal)) :
    (StableHlo.after (List.take 8 hostOps6) V (Proc.devRef .tc main_call8_v5) : IVec S800000x1 32)
      = wrapCol Facts₀.bcast_S_S800000 Facts₀.bcast_S800000_S800000x1_0 400000#32
          (V (Proc.devRef .tc main_arg14) : IVec S800000 32) := by
  simp only [hostOps6, List.take_succ_cons, List.take_zero]
  after_results <;> rfl

theorem take8_head_v76 (V : Valuation τ sig (Elt Ideal)) :
    StableHlo.after (List.take 8 hostOps6) V (Proc.devRef .tc main_v76) = V (Proc.devRef .tc main_v76) := by
  simp only [hostOps6, List.take_succ_cons, List.take_zero]
  after_results

theorem take8_tail_v77 (V : Valuation τ sig (Elt Ideal)) :
    (StableHlo.after (List.drop 8 hostOps6) V (Proc.devRef .tc main_v77) : FVec Ideal S800000x32 .f32)
      = select (broadcastInDim S800000x32 ![0] Facts₀.bcast_S800000_S800000x32_0
          (Host.reduce IntOp.andi
            (andi (cmpi .sge (V (Proc.devRef .tc main_call8_v5) : IVec S800000x1 32)
                    (broadcastInDim S800000x1 ![] Facts₀.bcast_S_S800000x1 (constantI S_ 32 0#32)))
                  (cmpi .sle (V (Proc.devRef .tc main_call8_v5) : IVec S800000x1 32)
                    (broadcastInDim S800000x1 ![0, 1] Facts₀.bcast_S1x1_S800000x1_0_1
                      (broadcastInDim S1x1 ![1] Facts₀.bcast_S1_S1x1_1 (constantI S1 32 399999#32)))))
            (constantI S_ 1 1#1) Facts₀.reducesTo_S800000x1_S800000_d1 Facts₀.h_S_))
        (Host.gather gather_S400000x32_S800000x1_S800000x32_1_0_n_n_0_1_132
          (V (Proc.devRef .tc main_v76) : FVec Ideal S400000x32 .f32) (V (Proc.devRef .tc main_call8_v5) : IVec S800000x1 32))
        (broadcastInDim S800000x32 ![] Facts₀.bcast_S_S800000x32 (constant (F := Ideal) S_ .f32 0x7FC00000#32)) := by
  simp only [hostOps6, List.drop_succ_cons, List.drop_zero]
  after_results
  simp only [StableHlo.TRef.ofBuf_toBuf]
  refine (toBuf_v77 _).trans ?_
  simp only [ofBuf_v76 V, ofBuf_c8v5 V] <;> rfl

theorem after_hostOps6_v77 (V : Valuation τ sig (Elt Ideal)) :
    (StableHlo.after hostOps6 V (Proc.devRef .tc main_v77) : FVec Ideal S800000x32 .f32)
      = takeFill Facts₀.bcast_S_S800000 Facts₀.bcast_S800000_S800000x1_0 Facts₀.bcast_S_S800000x1 Facts₀.bcast_S1_S1x1_1
          Facts₀.bcast_S1x1_S800000x1_0_1 Facts₀.reducesTo_S800000x1_S800000_d1 Facts₀.h_S_
          gather_S400000x32_S800000x1_S800000x32_1_0_n_n_0_1_132
          Facts₀.bcast_S800000_S800000x32_0 Facts₀.bcast_S_S800000x32 400000#32 399999#32
          (V (Proc.devRef .tc main_v76) : FVec Ideal S400000x32 .f32) (V (Proc.devRef .tc main_arg14) : IVec S800000 32) := by
  rw [after_split 8 hostOps6 V, take8_tail_v77, take8_head_v5, take8_head_v76]
  rfl

theorem bound2 : ((400000 : ℕ) : ℤ) = 400000 := by norm_num

theorem takeS2_apply (x : FVec Ideal S400000x32 .f32) (s : IVec S2800000 32)
    (hs : ∀ e, -(400000 : ℤ) ≤ (s e).toInt ∧ (s e).toInt < 400000) (p : Fin 2800000) (k : Fin 32) :
    takeFill Facts₀.bcast_S_S2800000 Facts₀.bcast_S2800000_S2800000x1_0 Facts₀.bcast_S_S2800000x1 Facts₀.bcast_S1_S1x1_1
        Facts₀.bcast_S1x1_S2800000x1_0_1 Facts₀.reducesTo_S2800000x1_S2800000_d1 Facts₀.h_S_
        gather_S400000x32_S2800000x1_S2800000x32_1_0_n_n_0_1_132
        Facts₀.bcast_S2800000_S2800000x32_0 Facts₀.bcast_S_S2800000x32 400000#32 399999#32 x s (ix2 p k)
      = x (ix2 (rowOf 400000 (by decide) (s (ix1 p))) k) :=
  takeFill_apply (n := 400000) (by decide) (by decide) Facts₀.bcast_S_S2800000 Facts₀.bcast_S2800000_S2800000x1_0
    Facts₀.bcast_S_S2800000x1 Facts₀.bcast_S1_S1x1_1 Facts₀.bcast_S1x1_S2800000x1_0_1 Facts₀.reducesTo_S2800000x1_S2800000_d1
    Facts₀.h_S_ Facts₀.gather_S400000x32_S2800000x1_S2800000x32_1_0_n_n_0_1_132_wf
    Facts₀.bcast_S2800000_S2800000x32_0 Facts₀.bcast_S_S2800000x32 399999#32 (by decide) x s
    (fun e => by rw [bound2]; exact hs e) p k

theorem takeU2_apply (x : FVec Ideal S400000x32 .f32) (u : IVec S800000 32)
    (hu : ∀ p, -(400000 : ℤ) ≤ (u p).toInt ∧ (u p).toInt < 400000) (p : Fin 800000) (k : Fin 32) :
    takeFill Facts₀.bcast_S_S800000 Facts₀.bcast_S800000_S800000x1_0 Facts₀.bcast_S_S800000x1 Facts₀.bcast_S1_S1x1_1
        Facts₀.bcast_S1x1_S800000x1_0_1 Facts₀.reducesTo_S800000x1_S800000_d1 Facts₀.h_S_
        gather_S400000x32_S800000x1_S800000x32_1_0_n_n_0_1_132
        Facts₀.bcast_S800000_S800000x32_0 Facts₀.bcast_S_S800000x32 400000#32 399999#32 x u (ix2 p k)
      = x (ix2 (rowOf 400000 (by decide) (u (ix1 p))) k) :=
  takeFill_apply (n := 400000) (by decide) (by decide) Facts₀.bcast_S_S800000 Facts₀.bcast_S800000_S800000x1_0
    Facts₀.bcast_S_S800000x1 Facts₀.bcast_S1_S1x1_1 Facts₀.bcast_S1x1_S800000x1_0_1 Facts₀.reducesTo_S800000x1_S800000_d1
    Facts₀.h_S_ Facts₀.gather_S400000x32_S800000x1_S800000x32_1_0_n_n_0_1_132_wf
    Facts₀.bcast_S800000_S800000x32_0 Facts₀.bcast_S_S800000x32 399999#32 (by decide) x u
    (fun e => by rw [bound2]; exact hu e) p k

theorem W17_main_v57 (c : Dev nD) :
    (W17 (F := Ideal) m ρ c (Proc.devRef .tc main_v57) : IVec S2800000 32)
      = sIdx2 (W16 (F := Ideal) m ρ c (Proc.devRef .tc main_arg13) : IVec S2x2400000 32) :=
  after_hostOps4_1_v57 (W16 (F := Ideal) m ρ c)

theorem W17_main_v58 (c : Dev nD) :
    (W17 (F := Ideal) m ρ c (Proc.devRef .tc main_v58) : IVec S2800000 32)
      = dIdx2 (W16 (F := Ideal) m ρ c (Proc.devRef .tc main_arg13) : IVec S2x2400000 32) :=
  after_hostOps4_1_v58 (W16 (F := Ideal) m ρ c)

theorem W17_main_v64 (c : Dev nD) :
    (W17 (F := Ideal) m ρ c (Proc.devRef .tc main_v64) : IVec S400000 1)
      = cmpf .ogt (deg2 (W16 (F := Ideal) m ρ c (Proc.devRef .tc main_arg13) : IVec S2x2400000 32)) zeroN2 :=
  after_hostOps4_1_v64 (W16 (F := Ideal) m ρ c)

theorem W17_main_v65 (c : Dev nD) :
    (W17 (F := Ideal) m ρ c (Proc.devRef .tc main_v65) : FVec Ideal S400000 .f32)
      = Host.rsqrt (deg2 (W16 (F := Ideal) m ρ c (Proc.devRef .tc main_arg13) : IVec S2x2400000 32)) :=
  after_hostOps4_1_v65 (W16 (F := Ideal) m ρ c)

theorem W17_main_v66 (c : Dev nD) :
    (W17 (F := Ideal) m ρ c (Proc.devRef .tc main_v66) : FVec Ideal S400000 .f32) = zeroN2 :=
  after_hostOps4_1_v66 (W16 (F := Ideal) m ρ c)

theorem W18_main_v67 (c : Dev nD) :
    (W18 (F := Ideal) m ρ c (Proc.devRef .tc main_v67) : FVec Ideal S400000 .f32)
      = disV2 (W16 (F := Ideal) m ρ c (Proc.devRef .tc main_arg13) : IVec S2x2400000 32) := by
  show StableHlo.after hostOps4_2 (W17 (F := Ideal) m ρ c) (Proc.devRef .tc main_v67) = _
  rw [after_hostOps4_2_v67, W17_main_v64, W17_main_v65, W17_main_v66]
  rfl

theorem W19_main_v68 (c : Dev nD) :
    (W19 (F := Ideal) m ρ c (Proc.devRef .tc main_v68) : FVec Ideal S400000x1 .f32)
      = shapeCast S400000x1 (disV2 (W16 (F := Ideal) m ρ c (Proc.devRef .tc main_arg13) : IVec S2x2400000 32))
          Facts₀.shapeCasts_S400000_S400000x1 := by
  show StableHlo.after hostOps4_3 (W18 (F := Ideal) m ρ c) (Proc.devRef .tc main_v68) = _
  rw [after_hostOps4_3_v68, W18_main_v67]

theorem W19_main_v51 (c : Dev nD) :
    W19 (F := Ideal) m ρ c (Proc.devRef .tc main_v51) = W16 (F := Ideal) m ρ c (Proc.devRef .tc main_v51) :=
  calc W19 (F := Ideal) m ρ c (Proc.devRef .tc main_v51)
    _ = W18 (F := Ideal) m ρ c (Proc.devRef .tc main_v51) :=
          keep4_3 _ main_v51 (by decide)
    _ = W17 (F := Ideal) m ρ c (Proc.devRef .tc main_v51) :=
          keep4_2 _ main_v51 (by decide)
    _ = W16 (F := Ideal) m ρ c (Proc.devRef .tc main_v51) :=
          keep4_1 _ main_v51 (by decide)

theorem W20_main_v57 (c : Dev nD) :
    (W20 (F := Ideal) m ρ c (Proc.devRef .tc main_v57) : IVec S2800000 32)
      = sIdx2 (W16 (F := Ideal) m ρ c (Proc.devRef .tc main_arg13) : IVec S2x2400000 32) :=
  calc W20 (F := Ideal) m ρ c (Proc.devRef .tc main_v57)
    _ = W19 (F := Ideal) m ρ c (Proc.devRef .tc main_v57) := W20_of_ne m ρ c main_v57 (by decide)
    _ = W18 (F := Ideal) m ρ c (Proc.devRef .tc main_v57) :=
          keep4_3 _ main_v57 (by decide)
    _ = W17 (F := Ideal) m ρ c (Proc.devRef .tc main_v57) :=
          keep4_2 _ main_v57 (by decide)
    _ = _ := W17_main_v57 m ρ c

theorem W21_main_v58 (c : Dev nD) :
    (W21 (F := Ideal) m ρ c (Proc.devRef .tc main_v58) : IVec S2800000 32)
      = dIdx2 (W16 (F := Ideal) m ρ c (Proc.devRef .tc main_arg13) : IVec S2x2400000 32) :=
  calc W21 (F := Ideal) m ρ c (Proc.devRef .tc main_v58)
    _ = W20 (F := Ideal) m ρ c (Proc.devRef .tc main_v58) :=
          keep5 _ main_v58 (by decide)
    _ = W19 (F := Ideal) m ρ c (Proc.devRef .tc main_v58) := W20_of_ne m ρ c main_v58 (by decide)
    _ = W18 (F := Ideal) m ρ c (Proc.devRef .tc main_v58) :=
          keep4_3 _ main_v58 (by decide)
    _ = W17 (F := Ideal) m ρ c (Proc.devRef .tc main_v58) :=
          keep4_2 _ main_v58 (by decide)
    _ = _ := W17_main_v58 m ρ c

theorem W21_main_v67 (c : Dev nD) :
    (W21 (F := Ideal) m ρ c (Proc.devRef .tc main_v67) : FVec Ideal S400000 .f32)
      = disV2 (W16 (F := Ideal) m ρ c (Proc.devRef .tc main_arg13) : IVec S2x2400000 32) :=
  calc W21 (F := Ideal) m ρ c (Proc.devRef .tc main_v67)
    _ = W20 (F := Ideal) m ρ c (Proc.devRef .tc main_v67) :=
          keep5 _ main_v67 (by decide)
    _ = W19 (F := Ideal) m ρ c (Proc.devRef .tc main_v67) := W20_of_ne m ρ c main_v67 (by decide)
    _ = W18 (F := Ideal) m ρ c (Proc.devRef .tc main_v67) :=
          keep4_3 _ main_v67 (by decide)
    _ = _ := W18_main_v67 m ρ c

theorem W21_main_v70 (c : Dev nD) :
    (W21 (F := Ideal) m ρ c (Proc.devRef .tc main_v70) : FVec Ideal S2800000x32 .f32)
      = takeFill Facts₀.bcast_S_S2800000 Facts₀.bcast_S2800000_S2800000x1_0 Facts₀.bcast_S_S2800000x1 Facts₀.bcast_S1_S1x1_1
          Facts₀.bcast_S1x1_S2800000x1_0_1 Facts₀.reducesTo_S2800000x1_S2800000_d1 Facts₀.h_S_
          gather_S400000x32_S2800000x1_S2800000x32_1_0_n_n_0_1_132
          Facts₀.bcast_S2800000_S2800000x32_0 Facts₀.bcast_S_S2800000x32 400000#32 399999#32
          (linOut (W16 (F := Ideal) m ρ c (Proc.devRef .tc main_v51) : S400000x64.Idx → EReal)
            (m ((c : Thread nD τ).loc main_arg5) : S64x32.Idx → EReal)
            (shapeCast S400000x1 (disV2 (W16 (F := Ideal) m ρ c (Proc.devRef .tc main_arg13) : IVec S2x2400000 32))
              Facts₀.shapeCasts_S400000_S400000x1))
          (sIdx2 (W16 (F := Ideal) m ρ c (Proc.devRef .tc main_arg13) : IVec S2x2400000 32)) := by
  show StableHlo.after hostOps5 (W20 (F := Ideal) m ρ c) (Proc.devRef .tc main_v70) = _
  rw [after_hostOps5_v70, W20_main_v69, W20_main_v57, W19_main_v51, W19_arg _ _ _ main_arg5, W19_main_v68]

theorem zeros2_apply (j : S400000x32.Idx) :
    (broadcastInDim S400000x32 ![] Facts₀.bcast_S_S400000x32 (constant (F := Ideal) S_ .f32 0x00000000#32) : FVec Ideal S400000x32 .f32) j
      = (0 : EReal) := by
  show Ideal.ofBits .f32 0x00000000#32 = (0 : EReal)
  exact Ideal.ofBits_zero_f32

theorem W22_main_v73 (c : Dev nD) :
    (W22 (F := Ideal) m ρ c (Proc.devRef .tc main_v73) : FVec Ideal S400000x32 .f32)
      = Host.scatterAdd scatter_S400000x32_S2800000x1_S2800000x32_1_0_0_1
          (broadcastInDim S400000x32 ![] Facts₀.bcast_S_S400000x32 (constant (F := Ideal) S_ .f32 0x00000000#32))
          (dcol2 (W16 (F := Ideal) m ρ c (Proc.devRef .tc main_arg13) : IVec S2x2400000 32))
          (W21 (F := Ideal) m ρ c (Proc.devRef .tc main_v70) : FVec Ideal S2800000x32 .f32) := by
  show StableHlo.after hostOps5_1 (W21 (F := Ideal) m ρ c) (Proc.devRef .tc main_v73) = _
  rw [after_hostOps5_1_v73, W21_main_v58]
  rfl

theorem W22_main_v74 (c : Dev nD) :
    (W22 (F := Ideal) m ρ c (Proc.devRef .tc main_v74) : FVec Ideal S400000x1 .f32)
      = shapeCast S400000x1 (disV2 (W16 (F := Ideal) m ρ c (Proc.devRef .tc main_arg13) : IVec S2x2400000 32))
          Facts₀.shapeCasts_S400000_S400000x1 := by
  show StableHlo.after hostOps5_1 (W21 (F := Ideal) m ρ c) (Proc.devRef .tc main_v74) = _
  rw [after_hostOps5_1_v74, W21_main_v67]

theorem W22_main_v75 (c : Dev nD) :
    (W22 (F := Ideal) m ρ c (Proc.devRef .tc main_v75) : FVec Ideal S1x32 .f32)
      = shapeCast S1x32 (m ((c : Thread nD τ).loc main_arg6) : S32.Idx → EReal) Facts₀.shapeCasts_S32_S1x32 := by
  show StableHlo.after hostOps5_1 (W21 (F := Ideal) m ρ c) (Proc.devRef .tc main_v75) = _
  rw [after_hostOps5_1_v75, W21_arg _ _ _ main_arg6]

theorem W23_main_v76_layer (c : Dev nD)
    (hs : ∀ e, -(400000 : ℤ) ≤ (sIdx2 (m ((c : Thread nD τ).loc main_arg13) : IVec S2x2400000 32) e).toInt ∧ (sIdx2 (m ((c : Thread nD τ).loc main_arg13) : IVec S2x2400000 32) e).toInt < 400000) :
    (W23 (F := Ideal) m ρ c (Proc.devRef .tc main_v76) : S400000x32.Idx → EReal)
      = layerK (by decide) scatter_S400000x32_S2800000x1_S2800000x32_1_0_0_1
          (fun i => disV2 (m ((c : Thread nD τ).loc main_arg13) : IVec S2x2400000 32) (ix1 i))
          (W16 (F := Ideal) m ρ c (Proc.devRef .tc main_v51) : S400000x64.Idx → EReal)
          (m ((c : Thread nD τ).loc main_arg5) : S64x32.Idx → EReal)
          (fun q => (m ((c : Thread nD τ).loc main_arg6) : S32.Idx → EReal) (ix1 q))
          (fun e => sIdx2 (m ((c : Thread nD τ).loc main_arg13) : IVec S2x2400000 32) (ix1 e))
          (dcol2 (m ((c : Thread nD τ).loc main_arg13) : IVec S2x2400000 32)) := by
  rw [W23_main_v76, W22_main_v73, W22_main_v74, W22_main_v75, W21_main_v70, W16_arg _ _ _ main_arg13]
  have hd : ∀ i : Fin 400000, (shapeCast S400000x1 (disV2 (m ((c : Thread nD τ).loc main_arg13) : IVec S2x2400000 32)) Facts₀.shapeCasts_S400000_S400000x1) (ix2 i 0) = disV2 (m ((c : Thread nD τ).loc main_arg13) : IVec S2x2400000 32) (ix1 i) :=
    fun i => Cert.Attn.Column.shapeCast_a_a1_apply _ _ i 0
  have hb : ∀ q : Fin 32, shapeCast S1x32 (m ((c : Thread nD τ).loc main_arg6) : S32.Idx → EReal) Facts₀.shapeCasts_S32_S1x32 (ix2 0 q) = (m ((c : Thread nD τ).loc main_arg6) : S32.Idx → EReal) (ix1 q) :=
    fun q => congrFun (Cert.Mlp.row_shapeCast _ _) q
  exact layer_of_parts (n := 400000) (Cin := 64) (C := 32) (M := 2800000) (by decide)
    scatter_S400000x32_S2800000x1_S2800000x32_1_0_0_1
    (disV2 (m ((c : Thread nD τ).loc main_arg13) : IVec S2x2400000 32))
    (W16 (F := Ideal) m ρ c (Proc.devRef .tc main_v51) : S400000x64.Idx → EReal)
    (m ((c : Thread nD τ).loc main_arg5) : S64x32.Idx → EReal)
    (m ((c : Thread nD τ).loc main_arg6) : S32.Idx → EReal)
    (sIdx2 (m ((c : Thread nD τ).loc main_arg13) : IVec S2x2400000 32))
    (dcol2 (m ((c : Thread nD τ).loc main_arg13) : IVec S2x2400000 32))
    _ zeros2_apply _ _ hd hd _ hb _ (fun p k => takeS2_apply _ _ hs p k)

/-- Layer 2 on the kernel side, from layer 1's unpooled table. -/
theorem stage2 (c : Dev nD)
    (hs : ∀ e, -(400000 : ℤ) ≤ (sIdx2 (m ((c : Thread nD τ).loc main_arg13) : IVec S2x2400000 32) e).toInt ∧ (sIdx2 (m ((c : Thread nD τ).loc main_arg13) : IVec S2x2400000 32) e).toInt < 400000)
    (hu : ∀ p, -(400000 : ℤ) ≤ ((m ((c : Thread nD τ).loc main_arg14) : IVec S800000 32) p).toInt ∧ ((m ((c : Thread nD τ).loc main_arg14) : IVec S800000 32) p).toInt < 400000) :
    (W24 (F := Ideal) m ρ c (Proc.devRef .tc main_v77) : S800000x32.Idx → EReal)
      = pick (n := 400000) (by decide)
          (layerK (by decide) scatter_S400000x32_S2800000x1_S2800000x32_1_0_0_1
            (fun i => disV2 (m ((c : Thread nD τ).loc main_arg13) : IVec S2x2400000 32) (ix1 i))
            (W16 (F := Ideal) m ρ c (Proc.devRef .tc main_v51) : S400000x64.Idx → EReal)
            (m ((c : Thread nD τ).loc main_arg5) : S64x32.Idx → EReal)
            (fun q => (m ((c : Thread nD τ).loc main_arg6) : S32.Idx → EReal) (ix1 q))
            (fun e => sIdx2 (m ((c : Thread nD τ).loc main_arg13) : IVec S2x2400000 32) (ix1 e))
            (dcol2 (m ((c : Thread nD τ).loc main_arg13) : IVec S2x2400000 32)))
          (fun p => (m ((c : Thread nD τ).loc main_arg14) : IVec S800000 32) (ix1 p)) := by
  refine pick_of_rows (n := 400000) (C := 32) (N := 800000) (by decide)
    (W23 (F := Ideal) m ρ c (Proc.devRef .tc main_v76) : S400000x32.Idx → EReal) _ (W23_main_v76_layer m ρ c hs)
    (m ((c : Thread nD τ).loc main_arg14) : IVec S800000 32) _ (fun p k => ?_)
  show StableHlo.after hostOps6 (W23 (F := Ideal) m ρ c) (Proc.devRef .tc main_v77) (ix2 p k) = _
  rw [after_hostOps6_v77, W23_arg _ _ _ main_arg14]
  exact takeU2_apply _ _ hu p k

end Cert.KernelIdeal.Net

end
-- ==== Proof.KI.Stage3.lean ====
import proofs.«400126_j7060926234635_3_alg».proof.Proof.Gen.KernelIdeal.Frame
import proofs.«400126_j7060926234635_3_alg».proof.Proof.KI.Defs
import proofs.«400126_j7060926234635_3_alg».proof.Proof.KI.RegionsA
import proofs.«400126_j7060926234635_3_alg».proof.Proof.KI.RegionsB
import proofs.«400126_j7060926234635_3_alg».proof.Proof.KI.Carry
import proofs.«400126_j7060926234635_3_alg».proof.Proof.KI.Parts
import proofs.«400126_j7060926234635_3_alg».proof.Proof.HostRead
import proofs.«400126_j7060926234635_3_alg».proof.Proof.LibTRef
import proofs.«400126_j7060926234635_3_alg».proof.Proof.LibColumn
import proofs.«400126_j7060926234635_3_alg».proof.Proof.LibMlp

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.GcnNet
open Cert.KernelIdeal.Facts₀ Cert.KernelIdeal.Facts

variable (m : (ℓ : Loc nD τ sig) → Buf (Elt Ideal) ℓ) (ρ : Dev nD → PrngReg)

theorem ofBuf_v90 (V : Valuation τ sig (Elt Ideal)) :
    (StableHlo.TRef.of main_v90 : StableHlo.TRef sig ⟨S800000, .i1⟩).ofBuf (V (Proc.devRef .tc main_v90)) = (V (Proc.devRef .tc main_v90) : IVec S800000 1) := rfl
theorem ofBuf_v91 (V : Valuation τ sig (Elt Ideal)) :
    (StableHlo.TRef.of main_v91 : StableHlo.TRef sig ⟨S800000, .f32⟩).ofBuf (V (Proc.devRef .tc main_v91)) = (V (Proc.devRef .tc main_v91) : S800000.Idx → EReal) := rfl
theorem ofBuf_v92 (V : Valuation τ sig (Elt Ideal)) :
    (StableHlo.TRef.of main_v92 : StableHlo.TRef sig ⟨S800000, .f32⟩).ofBuf (V (Proc.devRef .tc main_v92)) = (V (Proc.devRef .tc main_v92) : S800000.Idx → EReal) := rfl
theorem toBuf_v93 (v : S800000.Idx → EReal) :
    ((StableHlo.TRef.of main_v93 : StableHlo.TRef sig ⟨S800000, .f32⟩).toBuf (Val := Elt Ideal) v : S800000.Idx → EReal) = v := rfl
theorem ofBuf_v95 (V : Valuation τ sig (Elt Ideal)) :
    (StableHlo.TRef.of main_v95 : StableHlo.TRef sig ⟨S800000x3, .f32⟩).ofBuf (V (Proc.devRef .tc main_v95)) = (V (Proc.devRef .tc main_v95) : S800000x3.Idx → EReal) := rfl
theorem ofBuf_v83 (V : Valuation τ sig (Elt Ideal)) :
    (StableHlo.TRef.of main_v83 : StableHlo.TRef sig ⟨S5600000, .i32⟩).ofBuf (V (Proc.devRef .tc main_v83)) = (V (Proc.devRef .tc main_v83) : IVec S5600000 32) := rfl
theorem toBuf_v96 (v : S5600000x3.Idx → EReal) :
    ((StableHlo.TRef.of main_v96 : StableHlo.TRef sig ⟨S5600000x3, .f32⟩).toBuf (Val := Elt Ideal) v : S5600000x3.Idx → EReal) = v := rfl
theorem ofBuf_v102 (V : Valuation τ sig (Elt Ideal)) :
    (StableHlo.TRef.of main_v102 : StableHlo.TRef sig ⟨S800000x3, .f32⟩).ofBuf (V (Proc.devRef .tc main_v102)) = (V (Proc.devRef .tc main_v102) : S800000x3.Idx → EReal) := rfl
theorem ofBuf_arg16 (V : Valuation τ sig (Elt Ideal)) :
    (StableHlo.TRef.of main_arg16 : StableHlo.TRef sig ⟨S1600000, .i32⟩).ofBuf (V (Proc.devRef .tc main_arg16)) = (V (Proc.devRef .tc main_arg16) : IVec S1600000 32) := rfl
theorem toBuf_v103 (v : S1600000x3.Idx → EReal) :
    ((StableHlo.TRef.of main_v103 : StableHlo.TRef sig ⟨S1600000x3, .f32⟩).toBuf (Val := Elt Ideal) v : S1600000x3.Idx → EReal) = v := rfl

theorem read_v83 (V : Valuation τ sig (Elt Ideal)) :
    (StableHlo.after hostOps6_1 V (Proc.devRef .tc main_v83) : IVec S5600000 32) = sIdx3 (V (Proc.devRef .tc main_arg15) : IVec S2x4800000 32) := by
  after_results_simp
  rfl

theorem read_v84 (V : Valuation τ sig (Elt Ideal)) :
    (StableHlo.after hostOps6_1 V (Proc.devRef .tc main_v84) : IVec S5600000 32) = dIdx3 (V (Proc.devRef .tc main_arg15) : IVec S2x4800000 32) := by
  after_results_simp
  rfl

theorem read_v90 (V : Valuation τ sig (Elt Ideal)) :
    (StableHlo.after hostOps6_1 V (Proc.devRef .tc main_v90) : IVec S800000 1)
      = cmpf .ogt (Host.scatterAdd (F := Ideal) (φ := .f32) scatter_S800000_S5600000x1_S5600000_n_0_0_1 (broadcastInDim S800000 ![] Facts₀.bcast_S_S800000 (constant (F := Ideal) S_ .f32 0x00000000#32)) (dcol3 (V (Proc.devRef .tc main_arg15) : IVec S2x4800000 32)) (broadcastInDim S5600000 ![] Facts₀.bcast_S_S5600000 (constant (F := Ideal) S_ .f32 0x3F800000#32))) (broadcastInDim S800000 ![] Facts₀.bcast_S_S800000 (constant (F := Ideal) S_ .f32 0x00000000#32)) := by
  after_results_simp
  rfl

theorem read_v91 (V : Valuation τ sig (Elt Ideal)) :
    (StableHlo.after hostOps6_1 V (Proc.devRef .tc main_v91) : S800000.Idx → EReal)
      = Host.rsqrt (F := Ideal) (Host.scatterAdd (F := Ideal) (φ := .f32) scatter_S800000_S5600000x1_S5600000_n_0_0_1 (broadcastInDim S800000 ![] Facts₀.bcast_S_S800000 (constant (F := Ideal) S_ .f32 0x00000000#32)) (dcol3 (V (Proc.devRef .tc main_arg15) : IVec S2x4800000 32)) (broadcastInDim S5600000 ![] Facts₀.bcast_S_S5600000 (constant (F := Ideal) S_ .f32 0x3F800000#32))) := by
  after_results_simp
  rfl

theorem read_v92 (V : Valuation τ sig (Elt Ideal)) :
    (StableHlo.after hostOps6_1 V (Proc.devRef .tc main_v92) : S800000.Idx → EReal) = (broadcastInDim S800000 ![] Facts₀.bcast_S_S800000 (constant (F := Ideal) S_ .f32 0x00000000#32)) := by
  after_results_simp

theorem read_v93 (V : Valuation τ sig (Elt Ideal)) :
    (StableHlo.after hostOps6_2 V (Proc.devRef .tc main_v93) : S800000.Idx → EReal)
      = select (V (Proc.devRef .tc main_v90) : IVec S800000 1) (V (Proc.devRef .tc main_v91) : S800000.Idx → EReal)
          (V (Proc.devRef .tc main_v92) : S800000.Idx → EReal) := by
  after_results_simp
  refine (toBuf_v93 _).trans ?_
  simp only [ofBuf_v90 V, ofBuf_v91 V, ofBuf_v92 V]

theorem read_v94 (V : Valuation τ sig (Elt Ideal)) :
    (StableHlo.after hostOps6_3 V (Proc.devRef .tc main_v94) : S800000x1.Idx → EReal)
      = shapeCast S800000x1 (V (Proc.devRef .tc main_v93) : S800000.Idx → EReal) Facts₀.shapeCasts_S800000_S800000x1 := by
  after_results <;> rfl

theorem read_v96 (V : Valuation τ sig (Elt Ideal)) :
    (StableHlo.after hostOps7 V (Proc.devRef .tc main_v96) : S5600000x3.Idx → EReal)
      = takeFill Facts₀.bcast_S_S5600000 Facts₀.bcast_S5600000_S5600000x1_0 Facts₀.bcast_S_S5600000x1 Facts₀.bcast_S1_S1x1_1
          Facts₀.bcast_S1x1_S5600000x1_0_1 Facts₀.reducesTo_S5600000x1_S5600000_d1 Facts₀.h_S_ gather_S800000x3_S5600000x1_S5600000x3_1_0_n_n_0_1_13
          Facts₀.bcast_S5600000_S5600000x3_0 Facts₀.bcast_S_S5600000x3 800000#32 799999#32
          (V (Proc.devRef .tc main_v95) : S800000x3.Idx → EReal) (V (Proc.devRef .tc main_v83) : IVec S5600000 32) := by
  after_results_simp
  simp only [StableHlo.TRef.ofBuf_toBuf]
  refine (toBuf_v96 _).trans ?_
  simp only [ofBuf_v95 V, ofBuf_v83 V]
  rfl

theorem read_v99 (V : Valuation τ sig (Elt Ideal)) :
    (StableHlo.after hostOps7_1 V (Proc.devRef .tc main_v99) : S800000x3.Idx → EReal)
      = Host.scatterAdd (F := Ideal) (φ := .f32) scatter_S800000x3_S5600000x1_S5600000x3_1_0_0_1 (broadcastInDim S800000x3 ![] Facts₀.bcast_S_S800000x3 (constant (F := Ideal) S_ .f32 0x00000000#32))
          (broadcastInDim S5600000x1 ![0] Facts₀.bcast_S5600000_S5600000x1_0 (V (Proc.devRef .tc main_v84) : IVec S5600000 32))
          (V (Proc.devRef .tc main_v96) : S5600000x3.Idx → EReal) := by
  after_results <;> rfl

theorem read_v100 (V : Valuation τ sig (Elt Ideal)) :
    (StableHlo.after hostOps7_1 V (Proc.devRef .tc main_v100) : S800000x1.Idx → EReal)
      = shapeCast S800000x1 (V (Proc.devRef .tc main_v93) : S800000.Idx → EReal) Facts₀.shapeCasts_S800000_S800000x1 := by
  after_results <;> rfl

theorem read_v101 (V : Valuation τ sig (Elt Ideal)) :
    (StableHlo.after hostOps7_1 V (Proc.devRef .tc main_v101) : S1x3.Idx → EReal)
      = shapeCast S1x3 (V (Proc.devRef .tc main_arg8) : S3.Idx → EReal) Facts₀.shapeCasts_S3_S1x3 := by
  after_results <;> rfl

theorem read_v103 (V : Valuation τ sig (Elt Ideal)) :
    (StableHlo.after hostOps8 V (Proc.devRef .tc main_v103) : S1600000x3.Idx → EReal)
      = takeFill Facts₀.bcast_S_S1600000 Facts₀.bcast_S1600000_S1600000x1_0 Facts₀.bcast_S_S1600000x1 Facts₀.bcast_S1_S1x1_1
          Facts₀.bcast_S1x1_S1600000x1_0_1 Facts₀.reducesTo_S1600000x1_S1600000_d1 Facts₀.h_S_ gather_S800000x3_S1600000x1_S1600000x3_1_0_n_n_0_1_13
          Facts₀.bcast_S1600000_S1600000x3_0 Facts₀.bcast_S_S1600000x3 800000#32 799999#32
          (V (Proc.devRef .tc main_v102) : S800000x3.Idx → EReal) (V (Proc.devRef .tc main_arg16) : IVec S1600000 32) := by
  after_results_simp
  simp only [StableHlo.TRef.ofBuf_toBuf]
  refine (toBuf_v103 _).trans ?_
  simp only [ofBuf_v102 V, ofBuf_arg16 V]
  rfl

abbrev ei3 (c : Dev nD) : IVec S2x4800000 32 := m ((c : Thread nD τ).loc main_arg15)

theorem W25_v83 (c : Dev nD) : (W25 (F := Ideal) m ρ c (Proc.devRef .tc main_v83) : IVec S5600000 32) = sIdx3 (ei3 m c) :=
  (read_v83 (W24 (F := Ideal) m ρ c)).trans (congrArg sIdx3 (W24_arg m ρ c main_arg15))
theorem W25_v84 (c : Dev nD) : (W25 (F := Ideal) m ρ c (Proc.devRef .tc main_v84) : IVec S5600000 32) = dIdx3 (ei3 m c) :=
  (read_v84 (W24 (F := Ideal) m ρ c)).trans (congrArg dIdx3 (W24_arg m ρ c main_arg15))
theorem W25_v90 (c : Dev nD) : (W25 (F := Ideal) m ρ c (Proc.devRef .tc main_v90) : IVec S800000 1) = cmpf .ogt (Host.scatterAdd (F := Ideal) (φ := .f32) scatter_S800000_S5600000x1_S5600000_n_0_0_1 (broadcastInDim S800000 ![] Facts₀.bcast_S_S800000 (constant (F := Ideal) S_ .f32 0x00000000#32)) (dcol3 (ei3 m c)) (broadcastInDim S5600000 ![] Facts₀.bcast_S_S5600000 (constant (F := Ideal) S_ .f32 0x3F800000#32))) (broadcastInDim S800000 ![] Facts₀.bcast_S_S800000 (constant (F := Ideal) S_ .f32 0x00000000#32)) := by
  refine (read_v90 (W24 (F := Ideal) m ρ c)).trans ?_
  rw [W24_arg _ _ _ main_arg15]
theorem W25_v91 (c : Dev nD) : (W25 (F := Ideal) m ρ c (Proc.devRef .tc main_v91) : S800000.Idx → EReal) = Host.rsqrt (F := Ideal) (Host.scatterAdd (F := Ideal) (φ := .f32) scatter_S800000_S5600000x1_S5600000_n_0_0_1 (broadcastInDim S800000 ![] Facts₀.bcast_S_S800000 (constant (F := Ideal) S_ .f32 0x00000000#32)) (dcol3 (ei3 m c)) (broadcastInDim S5600000 ![] Facts₀.bcast_S_S5600000 (constant (F := Ideal) S_ .f32 0x3F800000#32))) := by
  refine (read_v91 (W24 (F := Ideal) m ρ c)).trans ?_
  rw [W24_arg _ _ _ main_arg15]
theorem W25_v92 (c : Dev nD) : (W25 (F := Ideal) m ρ c (Proc.devRef .tc main_v92) : S800000.Idx → EReal) = (broadcastInDim S800000 ![] Facts₀.bcast_S_S800000 (constant (F := Ideal) S_ .f32 0x00000000#32)) :=
  read_v92 (W24 (F := Ideal) m ρ c)
theorem W25_v77 (c : Dev nD) : W25 (F := Ideal) m ρ c (Proc.devRef .tc main_v77) = W24 (F := Ideal) m ρ c (Proc.devRef .tc main_v77) :=
  keep6_1 (W24 (F := Ideal) m ρ c) main_v77 (by decide)

theorem W26_v93 (c : Dev nD) : (W26 (F := Ideal) m ρ c (Proc.devRef .tc main_v93) : S800000.Idx → EReal) = disV3 (ei3 m c) := by
  refine (read_v93 (W25 (F := Ideal) m ρ c)).trans ?_
  rw [W25_v90, W25_v91, W25_v92]
  rfl
theorem W26_v77 (c : Dev nD) : W26 (F := Ideal) m ρ c (Proc.devRef .tc main_v77) = W24 (F := Ideal) m ρ c (Proc.devRef .tc main_v77) :=
  (keep6_2 (W25 (F := Ideal) m ρ c) main_v77 (by decide)).trans (W25_v77 m ρ c)
theorem W26_v83 (c : Dev nD) : (W26 (F := Ideal) m ρ c (Proc.devRef .tc main_v83) : IVec S5600000 32) = sIdx3 (ei3 m c) :=
  (keep6_2 (W25 (F := Ideal) m ρ c) main_v83 (by decide)).trans (W25_v83 m ρ c)
theorem W26_v84 (c : Dev nD) : (W26 (F := Ideal) m ρ c (Proc.devRef .tc main_v84) : IVec S5600000 32) = dIdx3 (ei3 m c) :=
  (keep6_2 (W25 (F := Ideal) m ρ c) main_v84 (by decide)).trans (W25_v84 m ρ c)

theorem W27_v94 (c : Dev nD) : (W27 (F := Ideal) m ρ c (Proc.devRef .tc main_v94) : S800000x1.Idx → EReal) = (shapeCast S800000x1 (disV3 (ei3 m c)) Facts₀.shapeCasts_S800000_S800000x1) := by
  refine (read_v94 (W26 (F := Ideal) m ρ c)).trans ?_
  rw [W26_v93]
theorem W27_v77 (c : Dev nD) : W27 (F := Ideal) m ρ c (Proc.devRef .tc main_v77) = W24 (F := Ideal) m ρ c (Proc.devRef .tc main_v77) :=
  (keep6_3 (W26 (F := Ideal) m ρ c) main_v77 (by decide)).trans (W26_v77 m ρ c)
theorem W27_v83 (c : Dev nD) : (W27 (F := Ideal) m ρ c (Proc.devRef .tc main_v83) : IVec S5600000 32) = sIdx3 (ei3 m c) :=
  (keep6_3 (W26 (F := Ideal) m ρ c) main_v83 (by decide)).trans (W26_v83 m ρ c)
theorem W27_v84 (c : Dev nD) : (W27 (F := Ideal) m ρ c (Proc.devRef .tc main_v84) : IVec S5600000 32) = dIdx3 (ei3 m c) :=
  (keep6_3 (W26 (F := Ideal) m ρ c) main_v84 (by decide)).trans (W26_v84 m ρ c)
theorem W27_v93 (c : Dev nD) : (W27 (F := Ideal) m ρ c (Proc.devRef .tc main_v93) : S800000.Idx → EReal) = disV3 (ei3 m c) :=
  (keep6_3 (W26 (F := Ideal) m ρ c) main_v93 (by decide)).trans (W26_v93 m ρ c)

theorem W28_v95 (c : Dev nD) : (W28 (F := Ideal) m ρ c (Proc.devRef .tc main_v95) : S800000x3.Idx → EReal) = linOut (W24 (F := Ideal) m ρ c (Proc.devRef .tc main_v77) : S800000x32.Idx → EReal) (m ((c : Thread nD τ).loc main_arg7) : S32x3.Idx → EReal) (shapeCast S800000x1 (disV3 (ei3 m c)) Facts₀.shapeCasts_S800000_S800000x1) := by
  rw [W28_main_v95, W27_v77, W27_arg _ _ _ main_arg7, W27_v94]
theorem W28_v83 (c : Dev nD) : (W28 (F := Ideal) m ρ c (Proc.devRef .tc main_v83) : IVec S5600000 32) = sIdx3 (ei3 m c) :=
  (W28_of_ne m ρ c main_v83 (by decide)).trans (W27_v83 m ρ c)
theorem W28_v84 (c : Dev nD) : (W28 (F := Ideal) m ρ c (Proc.devRef .tc main_v84) : IVec S5600000 32) = dIdx3 (ei3 m c) :=
  (W28_of_ne m ρ c main_v84 (by decide)).trans (W27_v84 m ρ c)
theorem W28_v93 (c : Dev nD) : (W28 (F := Ideal) m ρ c (Proc.devRef .tc main_v93) : S800000.Idx → EReal) = disV3 (ei3 m c) :=
  (W28_of_ne m ρ c main_v93 (by decide)).trans (W27_v93 m ρ c)

theorem W29_v96 (c : Dev nD) : (W29 (F := Ideal) m ρ c (Proc.devRef .tc main_v96) : S5600000x3.Idx → EReal)
      = takeFill Facts₀.bcast_S_S5600000 Facts₀.bcast_S5600000_S5600000x1_0 Facts₀.bcast_S_S5600000x1 Facts₀.bcast_S1_S1x1_1
          Facts₀.bcast_S1x1_S5600000x1_0_1 Facts₀.reducesTo_S5600000x1_S5600000_d1 Facts₀.h_S_ gather_S800000x3_S5600000x1_S5600000x3_1_0_n_n_0_1_13
          Facts₀.bcast_S5600000_S5600000x3_0 Facts₀.bcast_S_S5600000x3 800000#32 799999#32
          (linOut (W24 (F := Ideal) m ρ c (Proc.devRef .tc main_v77) : S800000x32.Idx → EReal) (m ((c : Thread nD τ).loc main_arg7) : S32x3.Idx → EReal) (shapeCast S800000x1 (disV3 (ei3 m c)) Facts₀.shapeCasts_S800000_S800000x1)) (sIdx3 (ei3 m c)) := by
  refine (read_v96 (W28 (F := Ideal) m ρ c)).trans ?_
  rw [W28_v95, W28_v83]
theorem W29_v96_apply (c : Dev nD) (hs : ∀ e, -(800000 : ℤ) ≤ (sIdx3 (m ((c : Thread nD τ).loc main_arg15) : IVec S2x4800000 32) e).toInt ∧ (sIdx3 (m ((c : Thread nD τ).loc main_arg15) : IVec S2x4800000 32) e).toInt < 800000) (p : Fin 5600000) (k : Fin 3) :
    (W29 (F := Ideal) m ρ c (Proc.devRef .tc main_v96) : S5600000x3.Idx → EReal) (ix2 p k)
      = linOut (W24 (F := Ideal) m ρ c (Proc.devRef .tc main_v77) : S800000x32.Idx → EReal) (m ((c : Thread nD τ).loc main_arg7) : S32x3.Idx → EReal) (shapeCast S800000x1 (disV3 (ei3 m c)) Facts₀.shapeCasts_S800000_S800000x1) (ix2 (rowOf 800000 (by decide) (sIdx3 (ei3 m c) (ix1 p))) k) := by
  rw [W29_v96]
  exact takeFill_apply (n := 800000) (C := 3) (M := 5600000) (by decide) (by decide) _ _ _ _ _ _ _ Facts₀.gather_S800000x3_S5600000x1_S5600000x3_1_0_n_n_0_1_13_wf _ _
    799999#32 (by decide) _ _ (fun e => by exact_mod_cast hs e) p k
theorem W29_v84 (c : Dev nD) : (W29 (F := Ideal) m ρ c (Proc.devRef .tc main_v84) : IVec S5600000 32) = dIdx3 (ei3 m c) :=
  (keep7 (W28 (F := Ideal) m ρ c) main_v84 (by decide)).trans (W28_v84 m ρ c)
theorem W29_v93 (c : Dev nD) : (W29 (F := Ideal) m ρ c (Proc.devRef .tc main_v93) : S800000.Idx → EReal) = disV3 (ei3 m c) :=
  (keep7 (W28 (F := Ideal) m ρ c) main_v93 (by decide)).trans (W28_v93 m ρ c)

theorem W30_v99 (c : Dev nD) : (W30 (F := Ideal) m ρ c (Proc.devRef .tc main_v99) : S800000x3.Idx → EReal)
      = Host.scatterAdd (F := Ideal) (φ := .f32) scatter_S800000x3_S5600000x1_S5600000x3_1_0_0_1 (broadcastInDim S800000x3 ![] Facts₀.bcast_S_S800000x3 (constant (F := Ideal) S_ .f32 0x00000000#32)) (dcol3 (ei3 m c)) (W29 (F := Ideal) m ρ c (Proc.devRef .tc main_v96) : S5600000x3.Idx → EReal) := by
  refine (read_v99 (W29 (F := Ideal) m ρ c)).trans ?_
  rw [W29_v84]
  rfl
theorem W30_v100 (c : Dev nD) : (W30 (F := Ideal) m ρ c (Proc.devRef .tc main_v100) : S800000x1.Idx → EReal) = (shapeCast S800000x1 (disV3 (ei3 m c)) Facts₀.shapeCasts_S800000_S800000x1) := by
  refine (read_v100 (W29 (F := Ideal) m ρ c)).trans ?_
  rw [W29_v93]
theorem W30_v101 (c : Dev nD) : (W30 (F := Ideal) m ρ c (Proc.devRef .tc main_v101) : S1x3.Idx → EReal) = (shapeCast S1x3 (m ((c : Thread nD τ).loc main_arg8) : S3.Idx → EReal) Facts₀.shapeCasts_S3_S1x3) := by
  refine (read_v101 (W29 (F := Ideal) m ρ c)).trans ?_
  rw [W29_arg _ _ _ main_arg8]

theorem W31_v102 (c : Dev nD) (hs : ∀ e, -(800000 : ℤ) ≤ (sIdx3 (m ((c : Thread nD τ).loc main_arg15) : IVec S2x4800000 32) e).toInt ∧ (sIdx3 (m ((c : Thread nD τ).loc main_arg15) : IVec S2x4800000 32) e).toInt < 800000) :
    (W31 (F := Ideal) m ρ c (Proc.devRef .tc main_v102) : S800000x3.Idx → EReal)
      = layerK (by decide) scatter_S800000x3_S5600000x1_S5600000x3_1_0_0_1
          (fun i => disV3 (ei3 m c) (ix1 i)) (W24 (F := Ideal) m ρ c (Proc.devRef .tc main_v77) : S800000x32.Idx → EReal) (m ((c : Thread nD τ).loc main_arg7) : S32x3.Idx → EReal)
          (fun q => (m ((c : Thread nD τ).loc main_arg8) : S3.Idx → EReal) (ix1 q)) (fun e => sIdx3 (ei3 m c) (ix1 e)) (dcol3 (ei3 m c)) := by
  rw [W31_main_v102, W30_v99, W30_v100, W30_v101]
  refine layer_of_parts (n := 800000) (Cin := 32) (C := 3) (M := 5600000) (by decide) scatter_S800000x3_S5600000x1_S5600000x3_1_0_0_1 (disV3 (ei3 m c)) (W24 (F := Ideal) m ρ c (Proc.devRef .tc main_v77) : S800000x32.Idx → EReal) (m ((c : Thread nD τ).loc main_arg7) : S32x3.Idx → EReal) (m ((c : Thread nD τ).loc main_arg8) : S3.Idx → EReal)
    (sIdx3 (ei3 m c)) (dcol3 (ei3 m c)) (broadcastInDim S800000x3 ![] Facts₀.bcast_S_S800000x3 (constant (F := Ideal) S_ .f32 0x00000000#32)) (fun j => ?_) (shapeCast S800000x1 (disV3 (ei3 m c)) Facts₀.shapeCasts_S800000_S800000x1) (shapeCast S800000x1 (disV3 (ei3 m c)) Facts₀.shapeCasts_S800000_S800000x1) (fun i => ?_) (fun i => ?_) (shapeCast S1x3 (m ((c : Thread nD τ).loc main_arg8) : S3.Idx → EReal) Facts₀.shapeCasts_S3_S1x3) (fun q => ?_)
    (W29 (F := Ideal) m ρ c (Proc.devRef .tc main_v96) : S5600000x3.Idx → EReal) (W29_v96_apply m ρ c hs)
  ·
    show Ideal.ofBits .f32 0x00000000#32 = 0
    exact Ideal.ofBits_zero_f32
  ·
    exact Cert.Attn.Column.shapeCast_a_a1_apply _ _ i 0
  · exact Cert.Attn.Column.shapeCast_a_a1_apply _ _ i 0
  ·
    exact congrFun (Cert.Mlp.row_shapeCast (m ((c : Thread nD τ).loc main_arg8) : S3.Idx → EReal) Facts₀.shapeCasts_S3_S1x3) q

theorem W32_v103 (c : Dev nD) : (W32 (F := Ideal) m ρ c (Proc.devRef .tc main_v103) : S1600000x3.Idx → EReal)
      = takeFill Facts₀.bcast_S_S1600000 Facts₀.bcast_S1600000_S1600000x1_0 Facts₀.bcast_S_S1600000x1 Facts₀.bcast_S1_S1x1_1
          Facts₀.bcast_S1x1_S1600000x1_0_1 Facts₀.reducesTo_S1600000x1_S1600000_d1 Facts₀.h_S_ gather_S800000x3_S1600000x1_S1600000x3_1_0_n_n_0_1_13
          Facts₀.bcast_S1600000_S1600000x3_0 Facts₀.bcast_S_S1600000x3 800000#32 799999#32
          (W31 (F := Ideal) m ρ c (Proc.devRef .tc main_v102) : S800000x3.Idx → EReal) (m ((c : Thread nD τ).loc main_arg16) : IVec S1600000 32) := by
  refine (read_v103 (W31 (F := Ideal) m ρ c)).trans ?_
  rw [W31_arg _ _ _ main_arg16]

/-- Layer 3 on the kernel side, from layer 2's unpooled table. -/
theorem stage3 (c : Dev nD)
    (hs : ∀ e, -(800000 : ℤ) ≤ (sIdx3 (m ((c : Thread nD τ).loc main_arg15) : IVec S2x4800000 32) e).toInt ∧ (sIdx3 (m ((c : Thread nD τ).loc main_arg15) : IVec S2x4800000 32) e).toInt < 800000)
    (hu : ∀ p, -(800000 : ℤ) ≤ ((m ((c : Thread nD τ).loc main_arg16) : IVec S1600000 32) p).toInt ∧ ((m ((c : Thread nD τ).loc main_arg16) : IVec S1600000 32) p).toInt < 800000) :
    (W32 (F := Ideal) m ρ c (Proc.devRef .tc main_v103) : S1600000x3.Idx → EReal)
      = pick (n := 800000) (by decide)
          (layerK (by decide) scatter_S800000x3_S5600000x1_S5600000x3_1_0_0_1
            (fun i => disV3 (m ((c : Thread nD τ).loc main_arg15) : IVec S2x4800000 32) (ix1 i))
            (W24 (F := Ideal) m ρ c (Proc.devRef .tc main_v77) : S800000x32.Idx → EReal)
            (m ((c : Thread nD τ).loc main_arg7) : S32x3.Idx → EReal)
            (fun q => (m ((c : Thread nD τ).loc main_arg8) : S3.Idx → EReal) (ix1 q))
            (fun e => sIdx3 (m ((c : Thread nD τ).loc main_arg15) : IVec S2x4800000 32) (ix1 e))
            (dcol3 (m ((c : Thread nD τ).loc main_arg15) : IVec S2x4800000 32)))
          (fun p => (m ((c : Thread nD τ).loc main_arg16) : IVec S1600000 32) (ix1 p)) := by
  refine pick_of_rows (n := 800000) (C := 3) (N := 1600000) (by decide)
    (W31 (F := Ideal) m ρ c (Proc.devRef .tc main_v102) : S800000x3.Idx → EReal) _ (W31_v102 m ρ c hs)
    (m ((c : Thread nD τ).loc main_arg16) : IVec S1600000 32) _ (fun p k => ?_)
  rw [W32_v103]
  exact takeFill_apply (n := 800000) (C := 3) (M := 1600000) (by decide) (by decide) _ _ _ _ _ _ _ Facts₀.gather_S800000x3_S1600000x1_S1600000x3_1_0_n_n_0_1_13_wf _ _
    799999#32 (by decide) _ _ (fun e => by exact_mod_cast hu e) p k

end Cert.KernelIdeal.Net

end
-- ==== Proof.RI.Common.lean ====
import Idealize.ShloMosaic.PureOps
import Idealize.ShloMosaic.Lib.ValueIdx
import proofs.«400126_j7060926234635_3_alg».proof.Proof.Spec
import proofs.«400126_j7060926234635_3_alg».proof.Proof.LibRowGather
import proofs.«400126_j7060926234635_3_alg».proof.Proof.LibIndexWrap

noncomputable section

open Idealize.ShloMosaic Idealize.ShloMosaic.ValueIdx

namespace Cert.ReferenceIdeal.Net

variable {α : Type}

abbrev vecDims (T N : ℕ) (wf : GatherDims.WF ⟨1, ![T]⟩ ⟨2, ![N, 1]⟩ ⟨1, ![N]⟩ [] [0] [] [0] [] 1 ![1]) :
    GatherDims ⟨1, ![T]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

theorem gather_vec_apply {T N w : ℕ} (hT : 0 < T)
    (wf : GatherDims.WF ⟨1, ![T]⟩ ⟨2, ![N, 1]⟩ ⟨1, ![N]⟩ [] [0] [] [0] [] 1 ![1])
    (x : (⟨1, ![T]⟩ : Shape).Idx → α) (idx : IVec ⟨2, ![N, 1]⟩ w) (p : Fin N) :
    Host.gather (vecDims T N wf) x idx (ix1 p)
      = x (ix1 ⟨min (idx (ix2 p 0)).toInt.toNat (T - 1), by omega⟩) := by
  unfold Host.gather
  congr 1
  funext a
  obtain rfl : a = 0 := Subsingleton.elim _ _
  refine Fin.ext ?_
  show (vecDims T N wf).start (ix1 p) idx 0 + (vecDims T N wf).batchCoord (ix1 p) 0
    + (vecDims T N wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims T N wf).startIndexMap from List.mem_singleton.mpr rfl)]
  have hsi : (vecDims T N wf).siIdx (ix1 p) ⟨List.idxOf (0 : Fin 1) (vecDims T N wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

theorem gather_rows_wrap {T C N : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ 32) (s : BitVec 32) (p : Fin N) (k : Fin C)
    (h : idx (ix2 p 0) = IndexWrap.wrapWord (BitVec.ofNat 32 T) s) :
    Host.gather (RowGather.rowsDims T C N wf) x idx (ix2 p k) = x (ix2 (GcnNet.rowOf T hT s) k) :=
  (RowGather.gather_rows_apply hT wf x idx p k).trans
    (congrArg (fun r : Fin T => x (ix2 r k)) (Fin.ext (by
      show min (idx (ix2 p 0)).toInt.toNat (T - 1) = min (IndexWrap.wrapWord (BitVec.ofNat 32 T) s).toInt.toNat (T - 1)
      rw [h])))

theorem gather_vec_wrap {T N : ℕ} (hT : 0 < T)
    (wf : GatherDims.WF ⟨1, ![T]⟩ ⟨2, ![N, 1]⟩ ⟨1, ![N]⟩ [] [0] [] [0] [] 1 ![1])
    (x : (⟨1, ![T]⟩ : Shape).Idx → α) (idx : IVec ⟨2, ![N, 1]⟩ 32) (s : BitVec 32) (p : Fin N)
    (h : idx (ix2 p 0) = IndexWrap.wrapWord (BitVec.ofNat 32 T) s) :
    Host.gather (vecDims T N wf) x idx (ix1 p) = x (ix1 (GcnNet.rowOf T hT s)) :=
  (gather_vec_apply hT wf x idx p).trans
    (congrArg (fun r : Fin T => x (ix1 r)) (Fin.ext (by
      show min (idx (ix2 p 0)).toInt.toNat (T - 1) = min (IndexWrap.wrapWord (BitVec.ofNat 32 T) s).toInt.toNat (T - 1)
      rw [h])))

end Cert.ReferenceIdeal.Net

end
-- ==== Proof.RI.Stage0.lean ====
import proofs.«400126_j7060926234635_3_alg».proof.Proof.RefRead
import proofs.«400126_j7060926234635_3_alg».proof.Proof.Spec
import proofs.«400126_j7060926234635_3_alg».proof.Proof.LibRowGather
import proofs.«400126_j7060926234635_3_alg».proof.Proof.LibIndexWrap
import proofs.«400126_j7060926234635_3_alg».proof.Proof.RI.Common

noncomputable section

open Cert.ReferenceIdeal Cert.ReferenceIdeal.PRead Idealize.ShloMosaic Idealize.ShloMosaic.ValueIdx

namespace Cert.ReferenceIdeal.Net.L0

variable {x0 : (⟨S100000x3, .f32⟩ : BufTy).Contents (Elt Ideal)} {x1 : (⟨S3x32, .f32⟩ : BufTy).Contents (Elt Ideal)} {x2 : (⟨S32, .f32⟩ : BufTy).Contents (Elt Ideal)} {x9 : (⟨S2x600000, .i32⟩ : BufTy).Contents (Elt Ideal)} {x10 : (⟨S200000, .i32⟩ : BufTy).Contents (Elt Ideal)}

theorem at_col_s (e : Fin 700000) : idx_main_v22 (ix2 e 0) = ix1 e := by
  funext a; match a with | ⟨0, _⟩ => rfl
theorem at_col_s1 (e : Fin 700000) : idx_main_v29 (ix2 e 0) = ix1 e := by
  funext a; match a with | ⟨0, _⟩ => rfl
theorem at_col_d1 (e : Fin 700000) : idx_main_v36 (ix2 e 0) = ix1 e := by
  funext a; match a with | ⟨0, _⟩ => rfl
theorem at_col_u (p : Fin 200000) : idx_main_v54 (ix2 p 0) = ix1 p := by
  funext a; match a with | ⟨0, _⟩ => rfl
theorem at_spread (e : Fin 700000) (c : Fin 32) : idx_main_v39 (idx_main_v40 (ix2 e c)) = ix1 e := by
  funext a; match a with | ⟨0, _⟩ => rfl
theorem at_bias (r : Fin 100000) (c : Fin 32) : idx_main_v45 (idx_main_v46 (ix2 r c)) = ix1 c := by
  funext a; match a with | ⟨0, _⟩ => rfl
theorem at_lhs (r : Fin 100000) (c : Fin 32) (k : Fin 3) : lidx_main_v16 (ix2 r c) k = ix2 r k := by
  funext a; match a with | ⟨0, _⟩ => rfl | ⟨1, _⟩ => rfl
theorem at_rhs (r : Fin 100000) (c : Fin 32) (k : Fin 3) : ridx_main_v16 (ix2 r c) k = ix2 k c := by
  funext a; match a with | ⟨0, _⟩ => rfl | ⟨1, _⟩ => rfl

theorem col_s (e : Fin 700000) :
    val_main_v22 (F := Ideal) x9 (ix2 e 0) = IndexWrap.wrapWord (BitVec.ofNat 32 100000) (val_main_v5 (F := Ideal) x9 (ix1 e)) := by
  rw [val_main_v22_apply, val_main_v21_apply, val_main_v18_apply, val_main_v20_apply, val_main_v17_apply, val_main_v19_apply,
    val_main_c_apply, val_main_c_3_apply, at_col_s]
  rfl
theorem col_s1 (e : Fin 700000) :
    val_main_v29 (F := Ideal) x9 (ix2 e 0) = IndexWrap.wrapWord (BitVec.ofNat 32 100000) (val_main_v5 (F := Ideal) x9 (ix1 e)) := by
  rw [val_main_v29_apply, val_main_v28_apply, val_main_v25_apply, val_main_v27_apply, val_main_v24_apply, val_main_v26_apply,
    val_main_c_4_apply, val_main_c_5_apply, at_col_s1]
  rfl
theorem col_d1 (e : Fin 700000) :
    val_main_v36 (F := Ideal) x9 (ix2 e 0) = IndexWrap.wrapWord (BitVec.ofNat 32 100000) (val_main_v6 (F := Ideal) x9 (ix1 e)) := by
  rw [val_main_v36_apply, val_main_v35_apply, val_main_v32_apply, val_main_v34_apply, val_main_v31_apply, val_main_v33_apply,
    val_main_c_6_apply, val_main_c_7_apply, at_col_d1]
  rfl
theorem col_u (p : Fin 200000) :
    val_main_v54 (F := Ideal) x10 (ix2 p 0) = IndexWrap.wrapWord (BitVec.ofNat 32 100000) (x10 (ix1 p)) := by
  rw [val_main_v54_apply, val_main_v53_apply, val_main_v50_apply, val_main_v52_apply, val_main_v49_apply, val_main_v51_apply,
    val_main_c_9_apply, val_main_c_10_apply, at_col_u]
  rfl

theorem row_s (e : Fin 700000) (c : Fin 32) :
    val_main_v23 (F := Ideal) x0 x1 x9 (ix2 e c)
      = ∑ k : Fin 3, x0 (ix2 (GcnNet.rowOf 100000 (by decide) (val_main_v5 (F := Ideal) x9 (ix1 e))) k) * x1 (ix2 k c) := by
  refine (gather_rows_wrap (T := 100000) (C := 32) (N := 700000) (by decide)
    Facts₀.gather_S100000x32_S700000x1_S700000x32_1_0_n_n_0_1_132_wf (val_main_v16 (F := Ideal) x0 x1) (val_main_v22 (F := Ideal) x9)
    (val_main_v5 (F := Ideal) x9 (ix1 e)) e c (col_s e)).trans ?_
  rw [val_main_v16_apply]
  exact Finset.sum_congr rfl fun k _ => by rw [at_lhs, at_rhs]

theorem dis_s (e : Fin 700000) :
    val_main_v30 (F := Ideal) x9 (ix1 e)
      = val_main_v15 (F := Ideal) x9 (ix1 (GcnNet.rowOf 100000 (by decide) (val_main_v5 (F := Ideal) x9 (ix1 e)))) :=
  gather_vec_wrap (T := 100000) (N := 700000) (by decide) Facts₀.gather_S100000_S700000x1_S700000_n_0_n_n_0_1_1_wf
    (val_main_v15 (F := Ideal) x9) (val_main_v29 (F := Ideal) x9) (val_main_v5 (F := Ideal) x9 (ix1 e)) e (col_s1 e)

theorem dis_d (e : Fin 700000) :
    val_main_v37 (F := Ideal) x9 (ix1 e)
      = val_main_v15 (F := Ideal) x9 (ix1 (GcnNet.rowOf 100000 (by decide) (val_main_v6 (F := Ideal) x9 (ix1 e)))) :=
  gather_vec_wrap (T := 100000) (N := 700000) (by decide) Facts₀.gather_S100000_S700000x1_S700000_n_0_n_n_0_1_1_wf
    (val_main_v15 (F := Ideal) x9) (val_main_v36 (F := Ideal) x9) (val_main_v6 (F := Ideal) x9 (ix1 e)) e (col_d1 e)

theorem msg (e : Fin 700000) (c : Fin 32) :
    val_main_v41 (F := Ideal) x0 x1 x9 (ix2 e c)
      = (∑ k : Fin 3, x0 (ix2 (GcnNet.rowOf 100000 (by decide) (val_main_v5 (F := Ideal) x9 (ix1 e))) k) * x1 (ix2 k c))
        * (val_main_v15 (F := Ideal) x9 (ix1 (GcnNet.rowOf 100000 (by decide) (val_main_v5 (F := Ideal) x9 (ix1 e))))
          * val_main_v15 (F := Ideal) x9 (ix1 (GcnNet.rowOf 100000 (by decide) (val_main_v6 (F := Ideal) x9 (ix1 e))))) := by
  rw [val_main_v41_apply, val_main_v40_apply, val_main_v39_apply, val_main_v38_apply, at_spread, row_s, dis_s, dis_d]
  rfl

theorem zero_table : val_main_v42 (F := Ideal) = fun _ => (0 : EReal) := by
  funext i
  rw [val_main_v42_apply, val_main_cst_8_apply]
  exact Ideal.ofBits_zero_f32

theorem relu_table :
    val_main_v48 (F := Ideal) x0 x1 x2 x9
      = GcnNet.layerR (n := 100000) (by decide) scatter_S100000x32_S700000x1_S700000x32_1_0_0_1
          (fun i => val_main_v15 (F := Ideal) x9 (ix1 i)) x0 x1 (fun q => x2 (ix1 q))
          (fun e => val_main_v5 (F := Ideal) x9 (ix1 e)) (fun e => val_main_v6 (F := Ideal) x9 (ix1 e)) (val_main_v43 (F := Ideal) x9) := by
  funext j
  obtain ⟨r, c, rfl⟩ : ∃ (r : Fin 100000) (c : Fin 32), j = ix2 r c := ⟨j 0, j 1, eq_ix2 j⟩
  have hupd : val_main_v41 (F := Ideal) x0 x1 x9 = fun y =>
      (∑ k : Fin 3, x0 (ix2 (GcnNet.rowOf 100000 (by decide) (val_main_v5 (F := Ideal) x9 (ix1 (y 0)))) k) * x1 (ix2 k (y 1)))
        * (val_main_v15 (F := Ideal) x9 (ix1 (GcnNet.rowOf 100000 (by decide) (val_main_v5 (F := Ideal) x9 (ix1 (y 0)))))
          * val_main_v15 (F := Ideal) x9 (ix1 (GcnNet.rowOf 100000 (by decide) (val_main_v6 (F := Ideal) x9 (ix1 (y 0)))))) := by
    funext y
    obtain ⟨e, c', rfl⟩ : ∃ (e : Fin 700000) (c' : Fin 32), y = ix2 e c' := ⟨y 0, y 1, eq_ix2 y⟩
    exact msg e c'
  rw [val_main_v48_apply, val_main_v47_apply, val_main_v46_apply, val_main_v45_apply, val_main_call1_v0_apply,
    val_main_call1_cst_apply, at_bias]
  unfold val_main_v44
  rw [zero_table, hupd]
  show max (_ + x2 (ix1 c)) (Ideal.ofBits .f32 0x00000000#32) = _
  rw [Ideal.ofBits_zero_f32]
  rfl

end Cert.ReferenceIdeal.Net.L0

namespace Cert.ReferenceIdeal.Net

/-- Layer 0 of the reference is the pick of the factor-on-message layer; the take itself clamps, so no range condition is needed. -/
theorem stage0 (x0 : (⟨S100000x3, .f32⟩ : BufTy).Contents (Elt Ideal)) (x1 : (⟨S3x32, .f32⟩ : BufTy).Contents (Elt Ideal)) (x2 : (⟨S32, .f32⟩ : BufTy).Contents (Elt Ideal)) (x9 : (⟨S2x600000, .i32⟩ : BufTy).Contents (Elt Ideal)) (x10 : (⟨S200000, .i32⟩ : BufTy).Contents (Elt Ideal)) :
    val_main_v55 (F := Ideal) x0 x1 x2 x9 x10
      = GcnNet.pick (n := 100000) (by decide)
          (GcnNet.layerR (n := 100000) (by decide) scatter_S100000x32_S700000x1_S700000x32_1_0_0_1
            (fun i => val_main_v15 (F := Ideal) x9 (ix1 i)) x0 x1 (fun q => x2 (ix1 q))
            (fun e => val_main_v5 (F := Ideal) x9 (ix1 e)) (fun e => val_main_v6 (F := Ideal) x9 (ix1 e)) (val_main_v43 (F := Ideal) x9))
          (fun p => x10 (ix1 p)) := by
  funext j
  obtain ⟨p, c, rfl⟩ : ∃ (p : Fin 200000) (c : Fin 32), j = ix2 p c := ⟨j 0, j 1, eq_ix2 j⟩
  refine (gather_rows_wrap (T := 100000) (C := 32) (N := 200000) (by decide)
    Facts₀.gather_S100000x32_S200000x1_S200000x32_1_0_n_n_0_1_132_wf (val_main_v48 (F := Ideal) x0 x1 x2 x9) (val_main_v54 (F := Ideal) x10)
    (x10 (ix1 p)) p c (L0.col_u p)).trans ?_
  rw [L0.relu_table]
  rfl

end Cert.ReferenceIdeal.Net

end
-- ==== Proof.RI.Stage1.lean ====
/-
  Layer 1 of the reference (200000 nodes, 1400000 edge slots, features 32 to 64), read back as the specification's layer.

  The reference forms, for every edge slot e, the message  (h W)[s e, c] * (dis[s e] * dis[d e]) : the product table's
  row and the two degree factors are each taken at a column of index words wrapped the NumPy way and then clamped by
  the take itself, which is the specification's  rowOf . The messages are summed into their destination rows, the bias
  is added, and the rectifier is a maximum with zero. The unpooling step takes rows of that table at wrapped words
  again. Nothing here needs an index to be in range.
-/
import proofs.«400126_j7060926234635_3_alg».proof.Proof.RefRead
import proofs.«400126_j7060926234635_3_alg».proof.Proof.Spec
import proofs.«400126_j7060926234635_3_alg».proof.Proof.LibRowGather
import proofs.«400126_j7060926234635_3_alg».proof.Proof.LibIndexWrap
import proofs.«400126_j7060926234635_3_alg».proof.Proof.RI.Common

noncomputable section

open Cert.ReferenceIdeal Cert.ReferenceIdeal.PRead Idealize.ShloMosaic Idealize.ShloMosaic.ValueIdx

namespace Cert.ReferenceIdeal.Net.L1

variable {x0 : (⟨S100000x3, .f32⟩ : BufTy).Contents (Elt Ideal)} {x1 : (⟨S3x32, .f32⟩ : BufTy).Contents (Elt Ideal)} {x2 : (⟨S32, .f32⟩ : BufTy).Contents (Elt Ideal)} {x3 : (⟨S32x64, .f32⟩ : BufTy).Contents (Elt Ideal)} {x4 : (⟨S64, .f32⟩ : BufTy).Contents (Elt Ideal)} {x9 : (⟨S2x600000, .i32⟩ : BufTy).Contents (Elt Ideal)} {x10 : (⟨S200000, .i32⟩ : BufTy).Contents (Elt Ideal)} {x11 : (⟨S2x1200000, .i32⟩ : BufTy).Contents (Elt Ideal)} {x12 : (⟨S400000, .i32⟩ : BufTy).Contents (Elt Ideal)}

/-! ## Where the layout steps read -/

/-- A word column's entry (e, 0) is the word vector's entry e. -/
theorem at_col_s (e : Fin 1400000) : idx_main_v78 (ix2 e 0) = ix1 e := by
  funext a; match a with | ⟨0, _⟩ => rfl
theorem at_col_s1 (e : Fin 1400000) : idx_main_v85 (ix2 e 0) = ix1 e := by
  funext a; match a with | ⟨0, _⟩ => rfl
theorem at_col_d1 (e : Fin 1400000) : idx_main_v92 (ix2 e 0) = ix1 e := by
  funext a; match a with | ⟨0, _⟩ => rfl
theorem at_col_u (p : Fin 400000) : idx_main_v110 (ix2 p 0) = ix1 p := by
  funext a; match a with | ⟨0, _⟩ => rfl
/-- The edge factor spread along a message's features reads the factor of the message's slot. -/
theorem at_spread (e : Fin 1400000) (c : Fin 64) : idx_main_v95 (idx_main_v96 (ix2 e c)) = ix1 e := by
  funext a; match a with | ⟨0, _⟩ => rfl
/-- The bias spread down the rows reads the bias of the entry's feature. -/
theorem at_bias (r : Fin 200000) (c : Fin 64) : idx_main_v101 (idx_main_v102 (ix2 r c)) = ix1 c := by
  funext a; match a with | ⟨0, _⟩ => rfl
/-- The product's left factor runs along row r, its right factor down column c. -/
theorem at_lhs (r : Fin 200000) (c : Fin 64) (k : Fin 32) : lidx_main_v72 (ix2 r c) k = ix2 r k := by
  funext a; match a with | ⟨0, _⟩ => rfl | ⟨1, _⟩ => rfl
theorem at_rhs (r : Fin 200000) (c : Fin 64) (k : Fin 32) : ridx_main_v72 (ix2 r c) k = ix2 k c := by
  funext a; match a with | ⟨0, _⟩ => rfl | ⟨1, _⟩ => rfl

/-! ## The four columns of wrapped index words -/

/-- The column the row take reads holds the source words, wrapped. -/
theorem col_s (e : Fin 1400000) :
    val_main_v78 (F := Ideal) x11 (ix2 e 0) = IndexWrap.wrapWord (BitVec.ofNat 32 200000) (val_main_v61 (F := Ideal) x11 (ix1 e)) := by
  rw [val_main_v78_apply, val_main_v77_apply, val_main_v74_apply, val_main_v76_apply, val_main_v73_apply, val_main_v75_apply,
    val_main_c_15_apply, val_main_c_16_apply, at_col_s]
  rfl
/-- The column the first factor's take reads holds the source words, wrapped. -/
theorem col_s1 (e : Fin 1400000) :
    val_main_v85 (F := Ideal) x11 (ix2 e 0) = IndexWrap.wrapWord (BitVec.ofNat 32 200000) (val_main_v61 (F := Ideal) x11 (ix1 e)) := by
  rw [val_main_v85_apply, val_main_v84_apply, val_main_v81_apply, val_main_v83_apply, val_main_v80_apply, val_main_v82_apply,
    val_main_c_17_apply, val_main_c_18_apply, at_col_s1]
  rfl
/-- The column the second factor's take reads holds the destination words, wrapped. -/
theorem col_d1 (e : Fin 1400000) :
    val_main_v92 (F := Ideal) x11 (ix2 e 0) = IndexWrap.wrapWord (BitVec.ofNat 32 200000) (val_main_v62 (F := Ideal) x11 (ix1 e)) := by
  rw [val_main_v92_apply, val_main_v91_apply, val_main_v88_apply, val_main_v90_apply, val_main_v87_apply, val_main_v89_apply,
    val_main_c_19_apply, val_main_c_20_apply, at_col_d1]
  rfl
/-- The column the unpooling take reads holds the unpooling words, wrapped. -/
theorem col_u (p : Fin 400000) :
    val_main_v110 (F := Ideal) x12 (ix2 p 0) = IndexWrap.wrapWord (BitVec.ofNat 32 200000) (x12 (ix1 p)) := by
  rw [val_main_v110_apply, val_main_v109_apply, val_main_v106_apply, val_main_v108_apply, val_main_v105_apply, val_main_v107_apply,
    val_main_c_22_apply, val_main_c_23_apply, at_col_u]
  rfl

/-! ## One message -/

/-- The product table's row that slot e's source word names, at feature c: a sum over the input features. -/
theorem row_s (e : Fin 1400000) (c : Fin 64) :
    val_main_v79 (F := Ideal) x0 x1 x2 x3 x9 x10 x11 (ix2 e c)
      = ∑ k : Fin 32, (val_main_v55 (F := Ideal) x0 x1 x2 x9 x10) (ix2 (GcnNet.rowOf 200000 (by decide) (val_main_v61 (F := Ideal) x11 (ix1 e))) k) * x3 (ix2 k c) := by
  refine (gather_rows_wrap (T := 200000) (C := 64) (N := 1400000) (by decide)
    Facts₀.gather_S200000x64_S1400000x1_S1400000x64_1_0_n_n_0_1_164_wf (val_main_v72 (F := Ideal) x0 x1 x2 x3 x9 x10) (val_main_v78 (F := Ideal) x11)
    (val_main_v61 (F := Ideal) x11 (ix1 e)) e c (col_s e)).trans ?_
  rw [val_main_v72_apply]
  exact Finset.sum_congr rfl fun k _ => by rw [at_lhs, at_rhs]

/-- The degree factor of the row slot e's source word names. -/
theorem dis_s (e : Fin 1400000) :
    val_main_v86 (F := Ideal) x11 (ix1 e)
      = val_main_v71 (F := Ideal) x11 (ix1 (GcnNet.rowOf 200000 (by decide) (val_main_v61 (F := Ideal) x11 (ix1 e)))) :=
  gather_vec_wrap (T := 200000) (N := 1400000) (by decide) Facts₀.gather_S200000_S1400000x1_S1400000_n_0_n_n_0_1_1_wf
    (val_main_v71 (F := Ideal) x11) (val_main_v85 (F := Ideal) x11) (val_main_v61 (F := Ideal) x11 (ix1 e)) e (col_s1 e)

/-- The degree factor of the row slot e's destination word names. -/
theorem dis_d (e : Fin 1400000) :
    val_main_v93 (F := Ideal) x11 (ix1 e)
      = val_main_v71 (F := Ideal) x11 (ix1 (GcnNet.rowOf 200000 (by decide) (val_main_v62 (F := Ideal) x11 (ix1 e)))) :=
  gather_vec_wrap (T := 200000) (N := 1400000) (by decide) Facts₀.gather_S200000_S1400000x1_S1400000_n_0_n_n_0_1_1_wf
    (val_main_v71 (F := Ideal) x11) (val_main_v92 (F := Ideal) x11) (val_main_v62 (F := Ideal) x11 (ix1 e)) e (col_d1 e)

/-- Slot e's message at feature c: the gathered product row times the product of the two degree factors. -/
theorem msg (e : Fin 1400000) (c : Fin 64) :
    val_main_v97 (F := Ideal) x0 x1 x2 x3 x9 x10 x11 (ix2 e c)
      = (∑ k : Fin 32, (val_main_v55 (F := Ideal) x0 x1 x2 x9 x10) (ix2 (GcnNet.rowOf 200000 (by decide) (val_main_v61 (F := Ideal) x11 (ix1 e))) k) * x3 (ix2 k c))
        * (val_main_v71 (F := Ideal) x11 (ix1 (GcnNet.rowOf 200000 (by decide) (val_main_v61 (F := Ideal) x11 (ix1 e))))
          * val_main_v71 (F := Ideal) x11 (ix1 (GcnNet.rowOf 200000 (by decide) (val_main_v62 (F := Ideal) x11 (ix1 e))))) := by
  rw [val_main_v97_apply, val_main_v96_apply, val_main_v95_apply, val_main_v94_apply, at_spread, row_s, dis_s, dis_d]
  rfl

/-- The scatter starts from the zero table. -/
theorem zero_table : val_main_v98 (F := Ideal) = fun _ => (0 : EReal) := by
  funext i
  rw [val_main_v98_apply, val_main_cst_21_apply]
  exact Ideal.ofBits_zero_f32

/-! ## The layer -/

/-- The rectified table is the specification's layer: messages summed into their destination rows, plus the bias,
    floored at zero. -/
theorem relu_table :
    val_main_v104 (F := Ideal) x0 x1 x2 x3 x4 x9 x10 x11
      = GcnNet.layerR (n := 200000) (by decide) scatter_S200000x64_S1400000x1_S1400000x64_1_0_0_1
          (fun i => val_main_v71 (F := Ideal) x11 (ix1 i)) (val_main_v55 (F := Ideal) x0 x1 x2 x9 x10) x3 (fun q => x4 (ix1 q))
          (fun e => val_main_v61 (F := Ideal) x11 (ix1 e)) (fun e => val_main_v62 (F := Ideal) x11 (ix1 e)) (val_main_v99 (F := Ideal) x11) := by
  funext j
  obtain ⟨r, c, rfl⟩ : ∃ (r : Fin 200000) (c : Fin 64), j = ix2 r c := ⟨j 0, j 1, eq_ix2 j⟩
  have hupd : val_main_v97 (F := Ideal) x0 x1 x2 x3 x9 x10 x11 = fun y =>
      (∑ k : Fin 32, (val_main_v55 (F := Ideal) x0 x1 x2 x9 x10) (ix2 (GcnNet.rowOf 200000 (by decide) (val_main_v61 (F := Ideal) x11 (ix1 (y 0)))) k) * x3 (ix2 k (y 1)))
        * (val_main_v71 (F := Ideal) x11 (ix1 (GcnNet.rowOf 200000 (by decide) (val_main_v61 (F := Ideal) x11 (ix1 (y 0)))))
          * val_main_v71 (F := Ideal) x11 (ix1 (GcnNet.rowOf 200000 (by decide) (val_main_v62 (F := Ideal) x11 (ix1 (y 0)))))) := by
    funext y
    obtain ⟨e, c', rfl⟩ : ∃ (e : Fin 1400000) (c' : Fin 64), y = ix2 e c' := ⟨y 0, y 1, eq_ix2 y⟩
    exact msg e c'
  rw [val_main_v104_apply, val_main_v103_apply, val_main_v102_apply, val_main_v101_apply, val_main_call3_v0_apply,
    val_main_call3_cst_apply, at_bias]
  unfold val_main_v100
  rw [zero_table, hupd]
  show max (_ + x4 (ix1 c)) (Ideal.ofBits .f32 0x00000000#32) = _
  rw [Ideal.ofBits_zero_f32]
  rfl

end Cert.ReferenceIdeal.Net.L1

namespace Cert.ReferenceIdeal.Net

/-- LAYER 1: the unpooled table is the specification's layer with its rows picked at the unpooling words. -/
theorem stage1 (x0 : (⟨S100000x3, .f32⟩ : BufTy).Contents (Elt Ideal)) (x1 : (⟨S3x32, .f32⟩ : BufTy).Contents (Elt Ideal)) (x2 : (⟨S32, .f32⟩ : BufTy).Contents (Elt Ideal)) (x3 : (⟨S32x64, .f32⟩ : BufTy).Contents (Elt Ideal)) (x4 : (⟨S64, .f32⟩ : BufTy).Contents (Elt Ideal)) (x9 : (⟨S2x600000, .i32⟩ : BufTy).Contents (Elt Ideal)) (x10 : (⟨S200000, .i32⟩ : BufTy).Contents (Elt Ideal)) (x11 : (⟨S2x1200000, .i32⟩ : BufTy).Contents (Elt Ideal)) (x12 : (⟨S400000, .i32⟩ : BufTy).Contents (Elt Ideal)) :
    val_main_v111 (F := Ideal) x0 x1 x2 x3 x4 x9 x10 x11 x12
      = GcnNet.pick (n := 200000) (by decide)
          (GcnNet.layerR (n := 200000) (by decide) scatter_S200000x64_S1400000x1_S1400000x64_1_0_0_1
            (fun i => val_main_v71 (F := Ideal) x11 (ix1 i)) (val_main_v55 (F := Ideal) x0 x1 x2 x9 x10) x3 (fun q => x4 (ix1 q))
            (fun e => val_main_v61 (F := Ideal) x11 (ix1 e)) (fun e => val_main_v62 (F := Ideal) x11 (ix1 e)) (val_main_v99 (F := Ideal) x11))
          (fun p => x12 (ix1 p)) := by
  funext j
  obtain ⟨p, c, rfl⟩ : ∃ (p : Fin 400000) (c : Fin 64), j = ix2 p c := ⟨j 0, j 1, eq_ix2 j⟩
  refine (gather_rows_wrap (T := 200000) (C := 64) (N := 400000) (by decide)
    Facts₀.gather_S200000x64_S400000x1_S400000x64_1_0_n_n_0_1_164_wf (val_main_v104 (F := Ideal) x0 x1 x2 x3 x4 x9 x10 x11) (val_main_v110 (F := Ideal) x12)
    (x12 (ix1 p)) p c (L1.col_u p)).trans ?_
  rw [L1.relu_table]
  rfl

end Cert.ReferenceIdeal.Net

end
-- ==== Proof.RI.Stage2.lean ====
/-
  Layer 2 of the reference (400000 nodes, 2800000 edge slots, features 64 to 32), read back as the specification's layer.

  The reference forms, for every edge slot e, the message  (h W)[s e, c] * (dis[s e] * dis[d e]) : the product table's
  row and the two degree factors are each taken at a column of index words wrapped the NumPy way and then clamped by
  the take itself, which is the specification's  rowOf . The messages are summed into their destination rows, the bias
  is added, and the rectifier is a maximum with zero. The unpooling step takes rows of that table at wrapped words
  again. Nothing here needs an index to be in range.
-/
import proofs.«400126_j7060926234635_3_alg».proof.Proof.RefRead
import proofs.«400126_j7060926234635_3_alg».proof.Proof.Spec
import proofs.«400126_j7060926234635_3_alg».proof.Proof.LibRowGather
import proofs.«400126_j7060926234635_3_alg».proof.Proof.LibIndexWrap
import proofs.«400126_j7060926234635_3_alg».proof.Proof.RI.Common

noncomputable section

open Cert.ReferenceIdeal Cert.ReferenceIdeal.PRead Idealize.ShloMosaic Idealize.ShloMosaic.ValueIdx

namespace Cert.ReferenceIdeal.Net.L2

variable {x0 : (⟨S100000x3, .f32⟩ : BufTy).Contents (Elt Ideal)} {x1 : (⟨S3x32, .f32⟩ : BufTy).Contents (Elt Ideal)} {x2 : (⟨S32, .f32⟩ : BufTy).Contents (Elt Ideal)} {x3 : (⟨S32x64, .f32⟩ : BufTy).Contents (Elt Ideal)} {x4 : (⟨S64, .f32⟩ : BufTy).Contents (Elt Ideal)} {x5 : (⟨S64x32, .f32⟩ : BufTy).Contents (Elt Ideal)} {x6 : (⟨S32, .f32⟩ : BufTy).Contents (Elt Ideal)} {x9 : (⟨S2x600000, .i32⟩ : BufTy).Contents (Elt Ideal)} {x10 : (⟨S200000, .i32⟩ : BufTy).Contents (Elt Ideal)} {x11 : (⟨S2x1200000, .i32⟩ : BufTy).Contents (Elt Ideal)} {x12 : (⟨S400000, .i32⟩ : BufTy).Contents (Elt Ideal)} {x13 : (⟨S2x2400000, .i32⟩ : BufTy).Contents (Elt Ideal)} {x14 : (⟨S800000, .i32⟩ : BufTy).Contents (Elt Ideal)}

/-! ## Where the layout steps read -/

/-- A word column's entry (e, 0) is the word vector's entry e. -/
theorem at_col_s (e : Fin 2800000) : idx_main_v134 (ix2 e 0) = ix1 e := by
  funext a; match a with | ⟨0, _⟩ => rfl
theorem at_col_s1 (e : Fin 2800000) : idx_main_v141 (ix2 e 0) = ix1 e := by
  funext a; match a with | ⟨0, _⟩ => rfl
theorem at_col_d1 (e : Fin 2800000) : idx_main_v148 (ix2 e 0) = ix1 e := by
  funext a; match a with | ⟨0, _⟩ => rfl
theorem at_col_u (p : Fin 800000) : idx_main_v166 (ix2 p 0) = ix1 p := by
  funext a; match a with | ⟨0, _⟩ => rfl
/-- The edge factor spread along a message's features reads the factor of the message's slot. -/
theorem at_spread (e : Fin 2800000) (c : Fin 32) : idx_main_v151 (idx_main_v152 (ix2 e c)) = ix1 e := by
  funext a; match a with | ⟨0, _⟩ => rfl
/-- The bias spread down the rows reads the bias of the entry's feature. -/
theorem at_bias (r : Fin 400000) (c : Fin 32) : idx_main_v157 (idx_main_v158 (ix2 r c)) = ix1 c := by
  funext a; match a with | ⟨0, _⟩ => rfl
/-- The product's left factor runs along row r, its right factor down column c. -/
theorem at_lhs (r : Fin 400000) (c : Fin 32) (k : Fin 64) : lidx_main_v128 (ix2 r c) k = ix2 r k := by
  funext a; match a with | ⟨0, _⟩ => rfl | ⟨1, _⟩ => rfl
theorem at_rhs (r : Fin 400000) (c : Fin 32) (k : Fin 64) : ridx_main_v128 (ix2 r c) k = ix2 k c := by
  funext a; match a with | ⟨0, _⟩ => rfl | ⟨1, _⟩ => rfl

/-! ## The four columns of wrapped index words -/

/-- The column the row take reads holds the source words, wrapped. -/
theorem col_s (e : Fin 2800000) :
    val_main_v134 (F := Ideal) x13 (ix2 e 0) = IndexWrap.wrapWord (BitVec.ofNat 32 400000) (val_main_v117 (F := Ideal) x13 (ix1 e)) := by
  rw [val_main_v134_apply, val_main_v133_apply, val_main_v130_apply, val_main_v132_apply, val_main_v129_apply, val_main_v131_apply,
    val_main_c_28_apply, val_main_c_29_apply, at_col_s]
  rfl
/-- The column the first factor's take reads holds the source words, wrapped. -/
theorem col_s1 (e : Fin 2800000) :
    val_main_v141 (F := Ideal) x13 (ix2 e 0) = IndexWrap.wrapWord (BitVec.ofNat 32 400000) (val_main_v117 (F := Ideal) x13 (ix1 e)) := by
  rw [val_main_v141_apply, val_main_v140_apply, val_main_v137_apply, val_main_v139_apply, val_main_v136_apply, val_main_v138_apply,
    val_main_c_30_apply, val_main_c_31_apply, at_col_s1]
  rfl
/-- The column the second factor's take reads holds the destination words, wrapped. -/
theorem col_d1 (e : Fin 2800000) :
    val_main_v148 (F := Ideal) x13 (ix2 e 0) = IndexWrap.wrapWord (BitVec.ofNat 32 400000) (val_main_v118 (F := Ideal) x13 (ix1 e)) := by
  rw [val_main_v148_apply, val_main_v147_apply, val_main_v144_apply, val_main_v146_apply, val_main_v143_apply, val_main_v145_apply,
    val_main_c_32_apply, val_main_c_33_apply, at_col_d1]
  rfl
/-- The column the unpooling take reads holds the unpooling words, wrapped. -/
theorem col_u (p : Fin 800000) :
    val_main_v166 (F := Ideal) x14 (ix2 p 0) = IndexWrap.wrapWord (BitVec.ofNat 32 400000) (x14 (ix1 p)) := by
  rw [val_main_v166_apply, val_main_v165_apply, val_main_v162_apply, val_main_v164_apply, val_main_v161_apply, val_main_v163_apply,
    val_main_c_35_apply, val_main_c_36_apply, at_col_u]
  rfl

/-! ## One message -/

/-- The product table's row that slot e's source word names, at feature c: a sum over the input features. -/
theorem row_s (e : Fin 2800000) (c : Fin 32) :
    val_main_v135 (F := Ideal) x0 x1 x2 x3 x4 x5 x9 x10 x11 x12 x13 (ix2 e c)
      = ∑ k : Fin 64, (val_main_v111 (F := Ideal) x0 x1 x2 x3 x4 x9 x10 x11 x12) (ix2 (GcnNet.rowOf 400000 (by decide) (val_main_v117 (F := Ideal) x13 (ix1 e))) k) * x5 (ix2 k c) := by
  refine (gather_rows_wrap (T := 400000) (C := 32) (N := 2800000) (by decide)
    Facts₀.gather_S400000x32_S2800000x1_S2800000x32_1_0_n_n_0_1_132_wf (val_main_v128 (F := Ideal) x0 x1 x2 x3 x4 x5 x9 x10 x11 x12) (val_main_v134 (F := Ideal) x13)
    (val_main_v117 (F := Ideal) x13 (ix1 e)) e c (col_s e)).trans ?_
  rw [val_main_v128_apply]
  exact Finset.sum_congr rfl fun k _ => by rw [at_lhs, at_rhs]

/-- The degree factor of the row slot e's source word names. -/
theorem dis_s (e : Fin 2800000) :
    val_main_v142 (F := Ideal) x13 (ix1 e)
      = val_main_v127 (F := Ideal) x13 (ix1 (GcnNet.rowOf 400000 (by decide) (val_main_v117 (F := Ideal) x13 (ix1 e)))) :=
  gather_vec_wrap (T := 400000) (N := 2800000) (by decide) Facts₀.gather_S400000_S2800000x1_S2800000_n_0_n_n_0_1_1_wf
    (val_main_v127 (F := Ideal) x13) (val_main_v141 (F := Ideal) x13) (val_main_v117 (F := Ideal) x13 (ix1 e)) e (col_s1 e)

/-- The degree factor of the row slot e's destination word names. -/
theorem dis_d (e : Fin 2800000) :
    val_main_v149 (F := Ideal) x13 (ix1 e)
      = val_main_v127 (F := Ideal) x13 (ix1 (GcnNet.rowOf 400000 (by decide) (val_main_v118 (F := Ideal) x13 (ix1 e)))) :=
  gather_vec_wrap (T := 400000) (N := 2800000) (by decide) Facts₀.gather_S400000_S2800000x1_S2800000_n_0_n_n_0_1_1_wf
    (val_main_v127 (F := Ideal) x13) (val_main_v148 (F := Ideal) x13) (val_main_v118 (F := Ideal) x13 (ix1 e)) e (col_d1 e)

/-- Slot e's message at feature c: the gathered product row times the product of the two degree factors. -/
theorem msg (e : Fin 2800000) (c : Fin 32) :
    val_main_v153 (F := Ideal) x0 x1 x2 x3 x4 x5 x9 x10 x11 x12 x13 (ix2 e c)
      = (∑ k : Fin 64, (val_main_v111 (F := Ideal) x0 x1 x2 x3 x4 x9 x10 x11 x12) (ix2 (GcnNet.rowOf 400000 (by decide) (val_main_v117 (F := Ideal) x13 (ix1 e))) k) * x5 (ix2 k c))
        * (val_main_v127 (F := Ideal) x13 (ix1 (GcnNet.rowOf 400000 (by decide) (val_main_v117 (F := Ideal) x13 (ix1 e))))
          * val_main_v127 (F := Ideal) x13 (ix1 (GcnNet.rowOf 400000 (by decide) (val_main_v118 (F := Ideal) x13 (ix1 e))))) := by
  rw [val_main_v153_apply, val_main_v152_apply, val_main_v151_apply, val_main_v150_apply, at_spread, row_s, dis_s, dis_d]
  rfl

/-- The scatter starts from the zero table. -/
theorem zero_table : val_main_v154 (F := Ideal) = fun _ => (0 : EReal) := by
  funext i
  rw [val_main_v154_apply, val_main_cst_34_apply]
  exact Ideal.ofBits_zero_f32

/-! ## The layer -/

/-- The rectified table is the specification's layer: messages summed into their destination rows, plus the bias,
    floored at zero. -/
theorem relu_table :
    val_main_v160 (F := Ideal) x0 x1 x2 x3 x4 x5 x6 x9 x10 x11 x12 x13
      = GcnNet.layerR (n := 400000) (by decide) scatter_S400000x32_S2800000x1_S2800000x32_1_0_0_1
          (fun i => val_main_v127 (F := Ideal) x13 (ix1 i)) (val_main_v111 (F := Ideal) x0 x1 x2 x3 x4 x9 x10 x11 x12) x5 (fun q => x6 (ix1 q))
          (fun e => val_main_v117 (F := Ideal) x13 (ix1 e)) (fun e => val_main_v118 (F := Ideal) x13 (ix1 e)) (val_main_v155 (F := Ideal) x13) := by
  funext j
  obtain ⟨r, c, rfl⟩ : ∃ (r : Fin 400000) (c : Fin 32), j = ix2 r c := ⟨j 0, j 1, eq_ix2 j⟩
  have hupd : val_main_v153 (F := Ideal) x0 x1 x2 x3 x4 x5 x9 x10 x11 x12 x13 = fun y =>
      (∑ k : Fin 64, (val_main_v111 (F := Ideal) x0 x1 x2 x3 x4 x9 x10 x11 x12) (ix2 (GcnNet.rowOf 400000 (by decide) (val_main_v117 (F := Ideal) x13 (ix1 (y 0)))) k) * x5 (ix2 k (y 1)))
        * (val_main_v127 (F := Ideal) x13 (ix1 (GcnNet.rowOf 400000 (by decide) (val_main_v117 (F := Ideal) x13 (ix1 (y 0)))))
          * val_main_v127 (F := Ideal) x13 (ix1 (GcnNet.rowOf 400000 (by decide) (val_main_v118 (F := Ideal) x13 (ix1 (y 0)))))) := by
    funext y
    obtain ⟨e, c', rfl⟩ : ∃ (e : Fin 2800000) (c' : Fin 32), y = ix2 e c' := ⟨y 0, y 1, eq_ix2 y⟩
    exact msg e c'
  rw [val_main_v160_apply, val_main_v159_apply, val_main_v158_apply, val_main_v157_apply, val_main_call5_v0_apply,
    val_main_call5_cst_apply, at_bias]
  unfold val_main_v156
  rw [zero_table, hupd]
  show max (_ + x6 (ix1 c)) (Ideal.ofBits .f32 0x00000000#32) = _
  rw [Ideal.ofBits_zero_f32]
  rfl

end Cert.ReferenceIdeal.Net.L2

namespace Cert.ReferenceIdeal.Net

/-- LAYER 2: the unpooled table is the specification's layer with its rows picked at the unpooling words. -/
theorem stage2 (x0 : (⟨S100000x3, .f32⟩ : BufTy).Contents (Elt Ideal)) (x1 : (⟨S3x32, .f32⟩ : BufTy).Contents (Elt Ideal)) (x2 : (⟨S32, .f32⟩ : BufTy).Contents (Elt Ideal)) (x3 : (⟨S32x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x9 : (⟨S2x600000, .i32⟩ : BufTy).Contents (Elt Ideal)) (x10 : (⟨S200000, .i32⟩ : BufTy).Contents (Elt Ideal)) (x11 : (⟨S2x1200000, .i32⟩ : BufTy).Contents (Elt Ideal)) (x12 : (⟨S400000, .i32⟩ : BufTy).Contents (Elt Ideal)) (x13 : (⟨S2x2400000, .i32⟩ : BufTy).Contents (Elt Ideal)) (x14 : (⟨S800000, .i32⟩ : BufTy).Contents (Elt Ideal)) :
    val_main_v167 (F := Ideal) x0 x1 x2 x3 x4 x5 x6 x9 x10 x11 x12 x13 x14
      = GcnNet.pick (n := 400000) (by decide)
          (GcnNet.layerR (n := 400000) (by decide) scatter_S400000x32_S2800000x1_S2800000x32_1_0_0_1
            (fun i => val_main_v127 (F := Ideal) x13 (ix1 i)) (val_main_v111 (F := Ideal) x0 x1 x2 x3 x4 x9 x10 x11 x12) x5 (fun q => x6 (ix1 q))
            (fun e => val_main_v117 (F := Ideal) x13 (ix1 e)) (fun e => val_main_v118 (F := Ideal) x13 (ix1 e)) (val_main_v155 (F := Ideal) x13))
          (fun p => x14 (ix1 p)) := by
  funext j
  obtain ⟨p, c, rfl⟩ : ∃ (p : Fin 800000) (c : Fin 32), j = ix2 p c := ⟨j 0, j 1, eq_ix2 j⟩
  refine (gather_rows_wrap (T := 400000) (C := 32) (N := 800000) (by decide)
    Facts₀.gather_S400000x32_S800000x1_S800000x32_1_0_n_n_0_1_132_wf (val_main_v160 (F := Ideal) x0 x1 x2 x3 x4 x5 x6 x9 x10 x11 x12 x13) (val_main_v166 (F := Ideal) x14)
    (x14 (ix1 p)) p c (L2.col_u p)).trans ?_
  rw [L2.relu_table]
  rfl

end Cert.ReferenceIdeal.Net

end
-- ==== Proof.RI.Stage3.lean ====
/-
  Layer 3 of the reference (800000 nodes, 5600000 edge slots, features 32 to 3), read back as the specification's layer.

  The reference forms, for every edge slot e, the message  (h W)[s e, c] * (dis[s e] * dis[d e]) : the product table's
  row and the two degree factors are each taken at a column of index words wrapped the NumPy way and then clamped by
  the take itself, which is the specification's  rowOf . The messages are summed into their destination rows, the bias
  is added, and the rectifier is a maximum with zero. The unpooling step takes rows of that table at wrapped words
  again. Nothing here needs an index to be in range.
-/
import proofs.«400126_j7060926234635_3_alg».proof.Proof.RefRead
import proofs.«400126_j7060926234635_3_alg».proof.Proof.Spec
import proofs.«400126_j7060926234635_3_alg».proof.Proof.LibRowGather
import proofs.«400126_j7060926234635_3_alg».proof.Proof.LibIndexWrap
import proofs.«400126_j7060926234635_3_alg».proof.Proof.RI.Common

noncomputable section

open Cert.ReferenceIdeal Cert.ReferenceIdeal.PRead Idealize.ShloMosaic Idealize.ShloMosaic.ValueIdx

namespace Cert.ReferenceIdeal.Net.L3

variable {x0 : (⟨S100000x3, .f32⟩ : BufTy).Contents (Elt Ideal)} {x1 : (⟨S3x32, .f32⟩ : BufTy).Contents (Elt Ideal)} {x2 : (⟨S32, .f32⟩ : BufTy).Contents (Elt Ideal)} {x3 : (⟨S32x64, .f32⟩ : BufTy).Contents (Elt Ideal)} {x4 : (⟨S64, .f32⟩ : BufTy).Contents (Elt Ideal)} {x5 : (⟨S64x32, .f32⟩ : BufTy).Contents (Elt Ideal)} {x6 : (⟨S32, .f32⟩ : BufTy).Contents (Elt Ideal)} {x7 : (⟨S32x3, .f32⟩ : BufTy).Contents (Elt Ideal)} {x8 : (⟨S3, .f32⟩ : BufTy).Contents (Elt Ideal)} {x9 : (⟨S2x600000, .i32⟩ : BufTy).Contents (Elt Ideal)} {x10 : (⟨S200000, .i32⟩ : BufTy).Contents (Elt Ideal)} {x11 : (⟨S2x1200000, .i32⟩ : BufTy).Contents (Elt Ideal)} {x12 : (⟨S400000, .i32⟩ : BufTy).Contents (Elt Ideal)} {x13 : (⟨S2x2400000, .i32⟩ : BufTy).Contents (Elt Ideal)} {x14 : (⟨S800000, .i32⟩ : BufTy).Contents (Elt Ideal)} {x15 : (⟨S2x4800000, .i32⟩ : BufTy).Contents (Elt Ideal)} {x16 : (⟨S1600000, .i32⟩ : BufTy).Contents (Elt Ideal)}

/-! ## Where the layout steps read -/

/-- A word column's entry (e, 0) is the word vector's entry e. -/
theorem at_col_s (e : Fin 5600000) : idx_main_v190 (ix2 e 0) = ix1 e := by
  funext a; match a with | ⟨0, _⟩ => rfl
theorem at_col_s1 (e : Fin 5600000) : idx_main_v197 (ix2 e 0) = ix1 e := by
  funext a; match a with | ⟨0, _⟩ => rfl
theorem at_col_d1 (e : Fin 5600000) : idx_main_v204 (ix2 e 0) = ix1 e := by
  funext a; match a with | ⟨0, _⟩ => rfl
theorem at_col_u (p : Fin 1600000) : idx_main_v222 (ix2 p 0) = ix1 p := by
  funext a; match a with | ⟨0, _⟩ => rfl
/-- The edge factor spread along a message's features reads the factor of the message's slot. -/
theorem at_spread (e : Fin 5600000) (c : Fin 3) : idx_main_v207 (idx_main_v208 (ix2 e c)) = ix1 e := by
  funext a; match a with | ⟨0, _⟩ => rfl
/-- The bias spread down the rows reads the bias of the entry's feature. -/
theorem at_bias (r : Fin 800000) (c : Fin 3) : idx_main_v213 (idx_main_v214 (ix2 r c)) = ix1 c := by
  funext a; match a with | ⟨0, _⟩ => rfl
/-- The product's left factor runs along row r, its right factor down column c. -/
theorem at_lhs (r : Fin 800000) (c : Fin 3) (k : Fin 32) : lidx_main_v184 (ix2 r c) k = ix2 r k := by
  funext a; match a with | ⟨0, _⟩ => rfl | ⟨1, _⟩ => rfl
theorem at_rhs (r : Fin 800000) (c : Fin 3) (k : Fin 32) : ridx_main_v184 (ix2 r c) k = ix2 k c := by
  funext a; match a with | ⟨0, _⟩ => rfl | ⟨1, _⟩ => rfl

/-! ## The four columns of wrapped index words -/

/-- The column the row take reads holds the source words, wrapped. -/
theorem col_s (e : Fin 5600000) :
    val_main_v190 (F := Ideal) x15 (ix2 e 0) = IndexWrap.wrapWord (BitVec.ofNat 32 800000) (val_main_v173 (F := Ideal) x15 (ix1 e)) := by
  rw [val_main_v190_apply, val_main_v189_apply, val_main_v186_apply, val_main_v188_apply, val_main_v185_apply, val_main_v187_apply,
    val_main_c_41_apply, val_main_c_42_apply, at_col_s]
  rfl
/-- The column the first factor's take reads holds the source words, wrapped. -/
theorem col_s1 (e : Fin 5600000) :
    val_main_v197 (F := Ideal) x15 (ix2 e 0) = IndexWrap.wrapWord (BitVec.ofNat 32 800000) (val_main_v173 (F := Ideal) x15 (ix1 e)) := by
  rw [val_main_v197_apply, val_main_v196_apply, val_main_v193_apply, val_main_v195_apply, val_main_v192_apply, val_main_v194_apply,
    val_main_c_43_apply, val_main_c_44_apply, at_col_s1]
  rfl
/-- The column the second factor's take reads holds the destination words, wrapped. -/
theorem col_d1 (e : Fin 5600000) :
    val_main_v204 (F := Ideal) x15 (ix2 e 0) = IndexWrap.wrapWord (BitVec.ofNat 32 800000) (val_main_v174 (F := Ideal) x15 (ix1 e)) := by
  rw [val_main_v204_apply, val_main_v203_apply, val_main_v200_apply, val_main_v202_apply, val_main_v199_apply, val_main_v201_apply,
    val_main_c_45_apply, val_main_c_46_apply, at_col_d1]
  rfl
/-- The column the unpooling take reads holds the unpooling words, wrapped. -/
theorem col_u (p : Fin 1600000) :
    val_main_v222 (F := Ideal) x16 (ix2 p 0) = IndexWrap.wrapWord (BitVec.ofNat 32 800000) (x16 (ix1 p)) := by
  rw [val_main_v222_apply, val_main_v221_apply, val_main_v218_apply, val_main_v220_apply, val_main_v217_apply, val_main_v219_apply,
    val_main_c_48_apply, val_main_c_49_apply, at_col_u]
  rfl

/-! ## One message -/

/-- The product table's row that slot e's source word names, at feature c: a sum over the input features. -/
theorem row_s (e : Fin 5600000) (c : Fin 3) :
    val_main_v191 (F := Ideal) x0 x1 x2 x3 x4 x5 x6 x7 x9 x10 x11 x12 x13 x14 x15 (ix2 e c)
      = ∑ k : Fin 32, (val_main_v167 (F := Ideal) x0 x1 x2 x3 x4 x5 x6 x9 x10 x11 x12 x13 x14) (ix2 (GcnNet.rowOf 800000 (by decide) (val_main_v173 (F := Ideal) x15 (ix1 e))) k) * x7 (ix2 k c) := by
  refine (gather_rows_wrap (T := 800000) (C := 3) (N := 5600000) (by decide)
    Facts₀.gather_S800000x3_S5600000x1_S5600000x3_1_0_n_n_0_1_13_wf (val_main_v184 (F := Ideal) x0 x1 x2 x3 x4 x5 x6 x7 x9 x10 x11 x12 x13 x14) (val_main_v190 (F := Ideal) x15)
    (val_main_v173 (F := Ideal) x15 (ix1 e)) e c (col_s e)).trans ?_
  rw [val_main_v184_apply]
  exact Finset.sum_congr rfl fun k _ => by rw [at_lhs, at_rhs]

/-- The degree factor of the row slot e's source word names. -/
theorem dis_s (e : Fin 5600000) :
    val_main_v198 (F := Ideal) x15 (ix1 e)
      = val_main_v183 (F := Ideal) x15 (ix1 (GcnNet.rowOf 800000 (by decide) (val_main_v173 (F := Ideal) x15 (ix1 e)))) :=
  gather_vec_wrap (T := 800000) (N := 5600000) (by decide) Facts₀.gather_S800000_S5600000x1_S5600000_n_0_n_n_0_1_1_wf
    (val_main_v183 (F := Ideal) x15) (val_main_v197 (F := Ideal) x15) (val_main_v173 (F := Ideal) x15 (ix1 e)) e (col_s1 e)

/-- The degree factor of the row slot e's destination word names. -/
theorem dis_d (e : Fin 5600000) :
    val_main_v205 (F := Ideal) x15 (ix1 e)
      = val_main_v183 (F := Ideal) x15 (ix1 (GcnNet.rowOf 800000 (by decide) (val_main_v174 (F := Ideal) x15 (ix1 e)))) :=
  gather_vec_wrap (T := 800000) (N := 5600000) (by decide) Facts₀.gather_S800000_S5600000x1_S5600000_n_0_n_n_0_1_1_wf
    (val_main_v183 (F := Ideal) x15) (val_main_v204 (F := Ideal) x15) (val_main_v174 (F := Ideal) x15 (ix1 e)) e (col_d1 e)

/-- Slot e's message at feature c: the gathered product row times the product of the two degree factors. -/
theorem msg (e : Fin 5600000) (c : Fin 3) :
    val_main_v209 (F := Ideal) x0 x1 x2 x3 x4 x5 x6 x7 x9 x10 x11 x12 x13 x14 x15 (ix2 e c)
      = (∑ k : Fin 32, (val_main_v167 (F := Ideal) x0 x1 x2 x3 x4 x5 x6 x9 x10 x11 x12 x13 x14) (ix2 (GcnNet.rowOf 800000 (by decide) (val_main_v173 (F := Ideal) x15 (ix1 e))) k) * x7 (ix2 k c))
        * (val_main_v183 (F := Ideal) x15 (ix1 (GcnNet.rowOf 800000 (by decide) (val_main_v173 (F := Ideal) x15 (ix1 e))))
          * val_main_v183 (F := Ideal) x15 (ix1 (GcnNet.rowOf 800000 (by decide) (val_main_v174 (F := Ideal) x15 (ix1 e))))) := by
  rw [val_main_v209_apply, val_main_v208_apply, val_main_v207_apply, val_main_v206_apply, at_spread, row_s, dis_s, dis_d]
  rfl

/-- The scatter starts from the zero table. -/
theorem zero_table : val_main_v210 (F := Ideal) = fun _ => (0 : EReal) := by
  funext i
  rw [val_main_v210_apply, val_main_cst_47_apply]
  exact Ideal.ofBits_zero_f32

/-! ## The layer -/

/-- The rectified table is the specification's layer: messages summed into their destination rows, plus the bias,
    floored at zero. -/
theorem relu_table :
    val_main_v216 (F := Ideal) x0 x1 x2 x3 x4 x5 x6 x7 x8 x9 x10 x11 x12 x13 x14 x15
      = GcnNet.layerR (n := 800000) (by decide) scatter_S800000x3_S5600000x1_S5600000x3_1_0_0_1
          (fun i => val_main_v183 (F := Ideal) x15 (ix1 i)) (val_main_v167 (F := Ideal) x0 x1 x2 x3 x4 x5 x6 x9 x10 x11 x12 x13 x14) x7 (fun q => x8 (ix1 q))
          (fun e => val_main_v173 (F := Ideal) x15 (ix1 e)) (fun e => val_main_v174 (F := Ideal) x15 (ix1 e)) (val_main_v211 (F := Ideal) x15) := by
  funext j
  obtain ⟨r, c, rfl⟩ : ∃ (r : Fin 800000) (c : Fin 3), j = ix2 r c := ⟨j 0, j 1, eq_ix2 j⟩
  have hupd : val_main_v209 (F := Ideal) x0 x1 x2 x3 x4 x5 x6 x7 x9 x10 x11 x12 x13 x14 x15 = fun y =>
      (∑ k : Fin 32, (val_main_v167 (F := Ideal) x0 x1 x2 x3 x4 x5 x6 x9 x10 x11 x12 x13 x14) (ix2 (GcnNet.rowOf 800000 (by decide) (val_main_v173 (F := Ideal) x15 (ix1 (y 0)))) k) * x7 (ix2 k (y 1)))
        * (val_main_v183 (F := Ideal) x15 (ix1 (GcnNet.rowOf 800000 (by decide) (val_main_v173 (F := Ideal) x15 (ix1 (y 0)))))
          * val_main_v183 (F := Ideal) x15 (ix1 (GcnNet.rowOf 800000 (by decide) (val_main_v174 (F := Ideal) x15 (ix1 (y 0)))))) := by
    funext y
    obtain ⟨e, c', rfl⟩ : ∃ (e : Fin 5600000) (c' : Fin 3), y = ix2 e c' := ⟨y 0, y 1, eq_ix2 y⟩
    exact msg e c'
  rw [val_main_v216_apply, val_main_v215_apply, val_main_v214_apply, val_main_v213_apply, val_main_call7_v0_apply,
    val_main_call7_cst_apply, at_bias]
  unfold val_main_v212
  rw [zero_table, hupd]
  show max (_ + x8 (ix1 c)) (Ideal.ofBits .f32 0x00000000#32) = _
  rw [Ideal.ofBits_zero_f32]
  rfl

end Cert.ReferenceIdeal.Net.L3

namespace Cert.ReferenceIdeal.Net

/-- LAYER 3: the unpooled table is the specification's layer with its rows picked at the unpooling words. -/
theorem stage3 (x0 : (⟨S100000x3, .f32⟩ : BufTy).Contents (Elt Ideal)) (x1 : (⟨S3x32, .f32⟩ : BufTy).Contents (Elt Ideal)) (x2 : (⟨S32, .f32⟩ : BufTy).Contents (Elt Ideal)) (x3 : (⟨S32x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x3, .f32⟩ : BufTy).Contents (Elt Ideal)) (x8 : (⟨S3, .f32⟩ : BufTy).Contents (Elt Ideal)) (x9 : (⟨S2x600000, .i32⟩ : BufTy).Contents (Elt Ideal)) (x10 : (⟨S200000, .i32⟩ : BufTy).Contents (Elt Ideal)) (x11 : (⟨S2x1200000, .i32⟩ : BufTy).Contents (Elt Ideal)) (x12 : (⟨S400000, .i32⟩ : BufTy).Contents (Elt Ideal)) (x13 : (⟨S2x2400000, .i32⟩ : BufTy).Contents (Elt Ideal)) (x14 : (⟨S800000, .i32⟩ : BufTy).Contents (Elt Ideal)) (x15 : (⟨S2x4800000, .i32⟩ : BufTy).Contents (Elt Ideal)) (x16 : (⟨S1600000, .i32⟩ : BufTy).Contents (Elt Ideal)) :
    val_main_v223 (F := Ideal) x0 x1 x2 x3 x4 x5 x6 x7 x8 x9 x10 x11 x12 x13 x14 x15 x16
      = GcnNet.pick (n := 800000) (by decide)
          (GcnNet.layerR (n := 800000) (by decide) scatter_S800000x3_S5600000x1_S5600000x3_1_0_0_1
            (fun i => val_main_v183 (F := Ideal) x15 (ix1 i)) (val_main_v167 (F := Ideal) x0 x1 x2 x3 x4 x5 x6 x9 x10 x11 x12 x13 x14) x7 (fun q => x8 (ix1 q))
            (fun e => val_main_v173 (F := Ideal) x15 (ix1 e)) (fun e => val_main_v174 (F := Ideal) x15 (ix1 e)) (val_main_v211 (F := Ideal) x15))
          (fun p => x16 (ix1 p)) := by
  funext j
  obtain ⟨p, c, rfl⟩ : ∃ (p : Fin 1600000) (c : Fin 3), j = ix2 p c := ⟨j 0, j 1, eq_ix2 j⟩
  refine (gather_rows_wrap (T := 800000) (C := 3) (N := 1600000) (by decide)
    Facts₀.gather_S800000x3_S1600000x1_S1600000x3_1_0_n_n_0_1_13_wf (val_main_v216 (F := Ideal) x0 x1 x2 x3 x4 x5 x6 x7 x8 x9 x10 x11 x12 x13 x14 x15) (val_main_v222 (F := Ideal) x16)
    (x16 (ix1 p)) p c (L3.col_u p)).trans ?_
  rw [L3.relu_table]
  rfl

end Cert.ReferenceIdeal.Net

end
-- ==== Proof.PreRanges.lean ====
import proofs.«400126_j7060926234635_3_alg».proof.Pre_finite_inputs
import Idealize.ShloMosaic.PureOps.Ideal
import Idealize.ShloMosaic.Lib.ReduceAll
import Idealize.ShloMosaic.Lib.StableHlo.Predicate

namespace Cert.PreRanges

open Idealize.ShloMosaic
open Cert.Pre_finite_inputs
open Cert.Pre_finite_inputs.Facts

variable [Cert.Pre_finite_inputs.Facts]

instance : Subsingleton S_.Idx := ⟨fun _ _ => funext fun d => d.elim0⟩

theorem andi_at {s : Shape} (x y : IVec s 1) (j : s.Idx) : andi x y j = 1#1 ↔ x j = 1#1 ∧ y j = 1#1 :=
  IntOp.andi_eq_one

theorem range_of_all {s : Shape} {axes : List (Fin s.rank)} (v : IVec s 32) (lo hi : BitVec 32)
    (hb : S_.BroadcastsInDim s (![] : Fin 0 → Fin s.rank)) (hr : s.ReducesTo axes S_) (h0 : 0 < S_.numel)
    (j : S_.Idx)
    (e : Host.reduce IntOp.andi
          (andi (cmpi .sge v (broadcastInDim s ![] hb (constantI S_ 32 lo)))
                (cmpi .slt v (broadcastInDim s ![] hb (constantI S_ 32 hi))))
          (constantI S_ 1 1#1) hr h0 j = 1#1)
    (i : s.Idx) : lo.toInt ≤ (v i).toInt ∧ (v i).toInt < hi.toInt := by
  have hi' := Host.reduce_andi_all _ _ hr h0 j e i
  obtain ⟨hge, hlt⟩ := (andi_at _ _ i).1 hi'
  have hge' : IntOp.cmpi .sge (v i) (broadcastInDim s ![] hb (constantI S_ 32 lo) i) = 1#1 := hge
  have hlt' : IntOp.cmpi .slt (v i) (broadcastInDim s ![] hb (constantI S_ 32 hi) i) = 1#1 := hlt
  rw [StableHlo.Predicate.bcast_scalar hb h0] at hge' hlt'
  exact ⟨IntOp.cmpi_sge.1 hge', IntOp.cmpi_slt.1 hlt'⟩

theorem lo0 : (4294867296#32 : BitVec 32).toInt = -100000 := by decide
theorem hi0 : (100000#32 : BitVec 32).toInt = 100000 := by decide
theorem lo1 : (4294767296#32 : BitVec 32).toInt = -200000 := by decide
theorem hi1 : (200000#32 : BitVec 32).toInt = 200000 := by decide
theorem lo2 : (4294567296#32 : BitVec 32).toInt = -400000 := by decide
theorem hi2 : (400000#32 : BitVec 32).toInt = 400000 := by decide
theorem lo3 : (4294167296#32 : BitVec 32).toInt = -800000 := by decide
theorem hi3 : (800000#32 : BitVec 32).toInt = 800000 := by decide

theorem ranges
    (a0 : FVec Ideal S100000x3 .f32) (a1 : FVec Ideal S3x32 .f32) (a2 : FVec Ideal S32 .f32)
    (a3 : FVec Ideal S32x64 .f32) (a4 : FVec Ideal S64 .f32) (a5 : FVec Ideal S64x32 .f32)
    (a6 : FVec Ideal S32 .f32) (a7 : FVec Ideal S32x3 .f32) (a8 : FVec Ideal S3 .f32)
    (a9 : IVec S2x600000 32) (a10 : IVec S200000 32) (a11 : IVec S2x1200000 32) (a12 : IVec S400000 32)
    (a13 : IVec S2x2400000 32) (a14 : IVec S800000 32) (a15 : IVec S2x4800000 32) (a16 : IVec S1600000 32)
    (h : Cert.Pre_finite_inputs.fn (F := Ideal) a0 a1 a2 a3 a4 a5 a6 a7 a8 a9 a10 a11 a12 a13 a14 a15 a16
          = fun _ => 1#1) :
    (∀ e : S600000.Idx,
        -(100000 : ℤ) ≤ ((shapeCast S600000 ((extractStridedSlice S1x600000 ![0, 0] · slices_S2x600000_S1x600000_0_0) a9) shapeCasts_S1x600000_S600000) e).toInt
        ∧ ((shapeCast S600000 ((extractStridedSlice S1x600000 ![0, 0] · slices_S2x600000_S1x600000_0_0) a9) shapeCasts_S1x600000_S600000) e).toInt < 100000)
    ∧ (∀ p : S200000.Idx, -(100000 : ℤ) ≤ (a10 p).toInt ∧ (a10 p).toInt < 100000)
    ∧ (∀ e : S1200000.Idx,
        -(200000 : ℤ) ≤ ((shapeCast S1200000 ((extractStridedSlice S1x1200000 ![0, 0] · slices_S2x1200000_S1x1200000_0_0) a11) shapeCasts_S1x1200000_S1200000) e).toInt
        ∧ ((shapeCast S1200000 ((extractStridedSlice S1x1200000 ![0, 0] · slices_S2x1200000_S1x1200000_0_0) a11) shapeCasts_S1x1200000_S1200000) e).toInt < 200000)
    ∧ (∀ p : S400000.Idx, -(200000 : ℤ) ≤ (a12 p).toInt ∧ (a12 p).toInt < 200000)
    ∧ (∀ e : S2400000.Idx,
        -(400000 : ℤ) ≤ ((shapeCast S2400000 ((extractStridedSlice S1x2400000 ![0, 0] · slices_S2x2400000_S1x2400000_0_0) a13) shapeCasts_S1x2400000_S2400000) e).toInt
        ∧ ((shapeCast S2400000 ((extractStridedSlice S1x2400000 ![0, 0] · slices_S2x2400000_S1x2400000_0_0) a13) shapeCasts_S1x2400000_S2400000) e).toInt < 400000)
    ∧ (∀ p : S800000.Idx, -(400000 : ℤ) ≤ (a14 p).toInt ∧ (a14 p).toInt < 400000)
    ∧ (∀ e : S4800000.Idx,
        -(800000 : ℤ) ≤ ((shapeCast S4800000 ((extractStridedSlice S1x4800000 ![0, 0] · slices_S2x4800000_S1x4800000_0_0) a15) shapeCasts_S1x4800000_S4800000) e).toInt
        ∧ ((shapeCast S4800000 ((extractStridedSlice S1x4800000 ![0, 0] · slices_S2x4800000_S1x4800000_0_0) a15) shapeCasts_S1x4800000_S4800000) e).toInt < 800000)
    ∧ (∀ p : S1600000.Idx, -(800000 : ℤ) ≤ (a16 p).toInt ∧ (a16 p).toInt < 800000) := by
  have h0 := congrFun h (fun d => d.elim0)
  dsimp only [fn, fn_part1, fn_part2, fn_part3, fn_part4, fn_part5, fn_part6] at h0
  obtain ⟨h0, c8⟩ := (andi_at _ _ _).1 h0
  obtain ⟨h0, c7⟩ := (andi_at _ _ _).1 h0
  obtain ⟨h0, c6⟩ := (andi_at _ _ _).1 h0
  obtain ⟨h0, c5⟩ := (andi_at _ _ _).1 h0
  obtain ⟨h0, c4⟩ := (andi_at _ _ _).1 h0
  obtain ⟨h0, c3⟩ := (andi_at _ _ _).1 h0
  obtain ⟨h0, c2⟩ := (andi_at _ _ _).1 h0
  obtain ⟨-, c1⟩ := (andi_at _ _ _).1 h0
  refine ⟨fun e => ?_, fun p => ?_, fun e => ?_, fun p => ?_, fun e => ?_, fun p => ?_, fun e => ?_, fun p => ?_⟩
  · have := range_of_all _ _ _ _ _ _ _ c1 e
    rwa [lo0, hi0] at this
  · have := range_of_all _ _ _ _ _ _ _ c2 p
    rwa [lo0, hi0] at this
  · have := range_of_all _ _ _ _ _ _ _ c3 e
    rwa [lo1, hi1] at this
  · have := range_of_all _ _ _ _ _ _ _ c4 p
    rwa [lo1, hi1] at this
  · have := range_of_all _ _ _ _ _ _ _ c5 e
    rwa [lo2, hi2] at this
  · have := range_of_all _ _ _ _ _ _ _ c6 p
    rwa [lo2, hi2] at this
  · have := range_of_all _ _ _ _ _ _ _ c7 e
    rwa [lo3, hi3] at this
  · have := range_of_all _ _ _ _ _ _ _ c8 p
    rwa [lo3, hi3] at this

end Cert.PreRanges
-- ==== Proof.KRanges.lean ====
import proofs.«400126_j7060926234635_3_alg».proof.Defs
import proofs.«400126_j7060926234635_3_alg».proof.Proof.Gen.KernelIdeal
import proofs.«400126_j7060926234635_3_alg».proof.Proof.Gen.Pre_finite_inputs
import proofs.«400126_j7060926234635_3_alg».proof.Proof.KI.Defs
import proofs.«400126_j7060926234635_3_alg».proof.Proof.PreRanges
import proofs.«400126_j7060926234635_3_alg».proof.Proof.DegNorm

noncomputable section

namespace Cert.KernelIdeal.Net

open Idealize.ShloMosaic Idealize.ShloMosaic.TcCoe Idealize.ShloMosaic.ValueIdx Idealize.SL.Sem
open Cert.KernelIdeal Cert.GcnNet
open Cert.KernelIdeal.Facts₀ Cert.KernelIdeal.Facts

theorem cat_range {E n M : ℕ} (N : ℤ) (hN : N = (n : ℤ)) (hc : Shape.Concatenates [Vc E, Vc n] (Vc M) 0)
    (a : IVec (Vc E) 32) (ha : ∀ e, -N ≤ (a e).toInt ∧ (a e).toInt < N) (hn : n < 2 ^ 30) (j : (Vc M).Idx) :
    -N ≤ (concatenate (α := BitVec 32) (Vc M) 0 [⟨Vc E, a⟩, ⟨Vc n, iotaInDim (Vc n) 32 0⟩] hc j).toInt
      ∧ (concatenate (α := BitVec 32) (Vc M) 0 [⟨Vc E, a⟩, ⟨Vc n, iotaInDim (Vc n) 32 0⟩] hc j).toInt < N := by
  subst hN
  exact cat_iota_range hc a ha hn j

theorem ranges_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ e, -(100000 : ℤ) ≤ (sIdx0 (m ((c : Thread nD τ).loc main_arg9) : IVec S2x600000 32) e).toInt ∧ (sIdx0 (m ((c : Thread nD τ).loc main_arg9) : IVec S2x600000 32) e).toInt < 100000)
    ∧ (∀ p, -(100000 : ℤ) ≤ ((m ((c : Thread nD τ).loc main_arg10) : IVec S200000 32) p).toInt ∧ ((m ((c : Thread nD τ).loc main_arg10) : IVec S200000 32) p).toInt < 100000)
    ∧ (∀ e, -(200000 : ℤ) ≤ (sIdx1 (m ((c : Thread nD τ).loc main_arg11) : IVec S2x1200000 32) e).toInt ∧ (sIdx1 (m ((c : Thread nD τ).loc main_arg11) : IVec S2x1200000 32) e).toInt < 200000)
    ∧ (∀ p, -(200000 : ℤ) ≤ ((m ((c : Thread nD τ).loc main_arg12) : IVec S400000 32) p).toInt ∧ ((m ((c : Thread nD τ).loc main_arg12) : IVec S400000 32) p).toInt < 200000)
    ∧ (∀ e, -(400000 : ℤ) ≤ (sIdx2 (m ((c : Thread nD τ).loc main_arg13) : IVec S2x2400000 32) e).toInt ∧ (sIdx2 (m ((c : Thread nD τ).loc main_arg13) : IVec S2x2400000 32) e).toInt < 400000)
    ∧ (∀ p, -(400000 : ℤ) ≤ ((m ((c : Thread nD τ).loc main_arg14) : IVec S800000 32) p).toInt ∧ ((m ((c : Thread nD τ).loc main_arg14) : IVec S800000 32) p).toInt < 400000)
    ∧ (∀ e, -(800000 : ℤ) ≤ (sIdx3 (m ((c : Thread nD τ).loc main_arg15) : IVec S2x4800000 32) e).toInt ∧ (sIdx3 (m ((c : Thread nD τ).loc main_arg15) : IVec S2x4800000 32) e).toInt < 800000)
    ∧ (∀ p, -(800000 : ℤ) ≤ ((m ((c : Thread nD τ).loc main_arg16) : IVec S1600000 32) p).toInt ∧ ((m ((c : Thread nD τ).loc main_arg16) : IVec S1600000 32) p).toInt < 800000) := by
  obtain ⟨e0, u0, e1, u1, e2, u2, e3, u3⟩ :=
    Cert.PreRanges.ranges _ _ _ _ _ _ _ _ _ _ _ _ _ _ _ _ _ (hpre c)
  refine ⟨fun e => ?_, u0, fun e => ?_, u1, fun e => ?_, u2, fun e => ?_, u3⟩
  · exact cat_range (E := 600000) (n := 100000) (M := 700000) 100000 (by norm_num)
      concatenates_S600000_S100000_S700000_d0 _ e0 (by decide) e
  · exact cat_range (E := 1200000) (n := 200000) (M := 1400000) 200000 (by norm_num)
      concatenates_S1200000_S200000_S1400000_d0 _ e1 (by decide) e
  · exact cat_range (E := 2400000) (n := 400000) (M := 2800000) 400000 (by norm_num)
      concatenates_S2400000_S400000_S2800000_d0 _ e2 (by decide) e
  · exact cat_range (E := 4800000) (n := 800000) (M := 5600000) 800000 (by norm_num)
      concatenates_S4800000_S800000_S5600000_d0 _ e3 (by decide) e

end Cert.KernelIdeal.Net

end
-- ==== Proof.Bridge.lean ====
import proofs.«400126_j7060926234635_3_alg».proof.Proof.KI.Stage0
import proofs.«400126_j7060926234635_3_alg».proof.Proof.KI.Stage1
import proofs.«400126_j7060926234635_3_alg».proof.Proof.KI.Stage2
import proofs.«400126_j7060926234635_3_alg».proof.Proof.KI.Stage3
import proofs.«400126_j7060926234635_3_alg».proof.Proof.RI.Stage0
import proofs.«400126_j7060926234635_3_alg».proof.Proof.RI.Stage1
import proofs.«400126_j7060926234635_3_alg».proof.Proof.RI.Stage2
import proofs.«400126_j7060926234635_3_alg».proof.Proof.RI.Stage3
import proofs.«400126_j7060926234635_3_alg».proof.Proof.KRanges
import proofs.«400126_j7060926234635_3_alg».proof.Proof.HostRead
import proofs.«400126_j7060926234635_3_alg».proof.Proof.DegNorm

set_option maxRecDepth 16384

noncomputable section

namespace Cert.Proof.Net

open Idealize.ShloMosaic Idealize.ShloMosaic.TcCoe Idealize.ShloMosaic.ValueIdx Idealize.SL.Sem Cert.GcnNet

/-- With equal inputs the two forms of a layer give equal unpooled tables, by the layer law. -/
theorem layers_agree {n Cin Cout M N : ℕ} (hn : 0 < n) (hn2 : n < 2 ^ 30)
    (wf : ScatterDims.WF (Mat n Cout) (Mat M 1) (Mat M Cout) [1] [0] [0] 1)
    (sdK sdR : ScatterDims (Mat n Cout) (Mat M 1) (Mat M Cout))
    (hK : sdK = Gcn.rowsScat n Cout M wf) (hR : sdR = Gcn.rowsScat n Cout M wf)
    (disK disR : Fin n → EReal) (hdisEq : disK = disR) (hdis : ∀ i, Gcn.NN (disK i))
    (hinK hinR : (Mat n Cin).Idx → EReal) (hhin : hinK = hinR)
    (W : (Mat Cin Cout).Idx → EReal) (b : Fin Cout → EReal)
    (sK sR dR : Fin M → BitVec 32) (hsEq : sK = sR)
    (dcolK dcolR : IVec (Mat M 1) 32) (hcol : dcolK = dcolR) (hd : ∀ e : Fin M, dcolR (ix2 e 0) = dR e)
    (u : Fin N → BitVec 32) :
    pick hn (layerK hn sdK disK hinK W b sK dcolK) u = pick hn (layerR hn sdR disR hinR W b sR dR dcolR) u := by
  subst hK hR hdisEq hhin hsEq hcol
  rw [layer_law hn hn2 wf disK hdis hinK W b sK dR dcolK hd]

namespace KI
export Cert.KernelIdeal (nD τ sig main_arg0 main_arg1 main_arg2 main_arg3 main_arg4 main_arg5 main_arg6 main_arg7 main_arg8 main_arg9 main_arg10 main_arg11 main_arg12 main_arg13 main_arg14 main_arg15 main_arg16 main_v25 main_v51 main_v77 main_v103)
end KI

open Cert.KernelIdeal.Gen Cert.KernelIdeal.Net Cert.ReferenceIdeal.PRead

variable (m : (ℓ : Loc KI.nD KI.τ KI.sig) → Buf (Elt Ideal) ℓ) (ρ : Dev KI.nD → PrngReg)

/-- After each layer the kernel side's table is the reference's term; each step feeds the next. -/
theorem table0 (hpre : Cert.Pre_KernelIdeal m) (c : Dev KI.nD) :
    (W8 (F := Ideal) m ρ c (Proc.devRef .tc KI.main_v25) : (Mat 200000 32).Idx → EReal)
      = val_main_v55 (F := Ideal) (m ((c : Thread KI.nD KI.τ).loc KI.main_arg0)) (m ((c : Thread KI.nD KI.τ).loc KI.main_arg1)) (m ((c : Thread KI.nD KI.τ).loc KI.main_arg2)) (m ((c : Thread KI.nD KI.τ).loc KI.main_arg9)) (m ((c : Thread KI.nD KI.τ).loc KI.main_arg10)) := by
  obtain ⟨hs0, hu0, hs1, hu1, hs2, hu2, hs3, hu3⟩ := ranges_of_pre m hpre c
  rw [Cert.ReferenceIdeal.Net.stage0]
  refine (stage0 m ρ c hs0 hu0).trans ?_
  refine layers_agree (n := 100000) (Cin := 3) (Cout := 32) (M := 700000) (N := 200000) (by decide) (by decide)
    Cert.KernelIdeal.Facts₀.scatter_S100000x32_S700000x1_S700000x32_1_0_0_1_wf _ _ rfl rfl _ _ rfl
    (fun i => disTerm_nn _ _ _ _ _ _ (fun _ => Ideal.ofBits_zero_f32) (fun _ => Ideal.ofBits_zero_f32) (fun _ => Ideal.ofBits_zero_f32) (fun _ => ofBits_one) (ix1 i))
    _ _ rfl _ _ _ _ _ rfl _ _ rfl (fun e => col_apply _ _ e) _

theorem table1 (hpre : Cert.Pre_KernelIdeal m) (c : Dev KI.nD) :
    (W16 (F := Ideal) m ρ c (Proc.devRef .tc KI.main_v51) : (Mat 400000 64).Idx → EReal)
      = val_main_v111 (F := Ideal) (m ((c : Thread KI.nD KI.τ).loc KI.main_arg0)) (m ((c : Thread KI.nD KI.τ).loc KI.main_arg1)) (m ((c : Thread KI.nD KI.τ).loc KI.main_arg2)) (m ((c : Thread KI.nD KI.τ).loc KI.main_arg3)) (m ((c : Thread KI.nD KI.τ).loc KI.main_arg4)) (m ((c : Thread KI.nD KI.τ).loc KI.main_arg9)) (m ((c : Thread KI.nD KI.τ).loc KI.main_arg10)) (m ((c : Thread KI.nD KI.τ).loc KI.main_arg11)) (m ((c : Thread KI.nD KI.τ).loc KI.main_arg12)) := by
  obtain ⟨hs0, hu0, hs1, hu1, hs2, hu2, hs3, hu3⟩ := ranges_of_pre m hpre c
  rw [Cert.ReferenceIdeal.Net.stage1]
  refine (stage1 m ρ c hs1 hu1).trans ?_
  refine layers_agree (n := 200000) (Cin := 32) (Cout := 64) (M := 1400000) (N := 400000) (by decide) (by decide)
    Cert.KernelIdeal.Facts₀.scatter_S200000x64_S1400000x1_S1400000x64_1_0_0_1_wf _ _ rfl rfl _ _ rfl
    (fun i => disTerm_nn _ _ _ _ _ _ (fun _ => Ideal.ofBits_zero_f32) (fun _ => Ideal.ofBits_zero_f32) (fun _ => Ideal.ofBits_zero_f32) (fun _ => ofBits_one) (ix1 i))
    _ _ (table0 m ρ hpre c) _ _ _ _ _ rfl _ _ rfl (fun e => col_apply _ _ e) _

theorem table2 (hpre : Cert.Pre_KernelIdeal m) (c : Dev KI.nD) :
    (W24 (F := Ideal) m ρ c (Proc.devRef .tc KI.main_v77) : (Mat 800000 32).Idx → EReal)
      = val_main_v167 (F := Ideal) (m ((c : Thread KI.nD KI.τ).loc KI.main_arg0)) (m ((c : Thread KI.nD KI.τ).loc KI.main_arg1)) (m ((c : Thread KI.nD KI.τ).loc KI.main_arg2)) (m ((c : Thread KI.nD KI.τ).loc KI.main_arg3)) (m ((c : Thread KI.nD KI.τ).loc KI.main_arg4)) (m ((c : Thread KI.nD KI.τ).loc KI.main_arg5)) (m ((c : Thread KI.nD KI.τ).loc KI.main_arg6)) (m ((c : Thread KI.nD KI.τ).loc KI.main_arg9)) (m ((c : Thread KI.nD KI.τ).loc KI.main_arg10)) (m ((c : Thread KI.nD KI.τ).loc KI.main_arg11)) (m ((c : Thread KI.nD KI.τ).loc KI.main_arg12)) (m ((c : Thread KI.nD KI.τ).loc KI.main_arg13)) (m ((c : Thread KI.nD KI.τ).loc KI.main_arg14)) := by
  obtain ⟨hs0, hu0, hs1, hu1, hs2, hu2, hs3, hu3⟩ := ranges_of_pre m hpre c
  rw [Cert.ReferenceIdeal.Net.stage2]
  refine (stage2 m ρ c hs2 hu2).trans ?_
  refine layers_agree (n := 400000) (Cin := 64) (Cout := 32) (M := 2800000) (N := 800000) (by decide) (by decide)
    Cert.KernelIdeal.Facts₀.scatter_S400000x32_S2800000x1_S2800000x32_1_0_0_1_wf _ _ rfl rfl _ _ rfl
    (fun i => disTerm_nn _ _ _ _ _ _ (fun _ => Ideal.ofBits_zero_f32) (fun _ => Ideal.ofBits_zero_f32) (fun _ => Ideal.ofBits_zero_f32) (fun _ => ofBits_one) (ix1 i))
    _ _ (table1 m ρ hpre c) _ _ _ _ _ rfl _ _ rfl (fun e => col_apply _ _ e) _

theorem table3 (hpre : Cert.Pre_KernelIdeal m) (c : Dev KI.nD) :
    (W32 (F := Ideal) m ρ c (Proc.devRef .tc KI.main_v103) : (Mat 1600000 3).Idx → EReal)
      = val_main_v223 (F := Ideal) (m ((c : Thread KI.nD KI.τ).loc KI.main_arg0)) (m ((c : Thread KI.nD KI.τ).loc KI.main_arg1)) (m ((c : Thread KI.nD KI.τ).loc KI.main_arg2)) (m ((c : Thread KI.nD KI.τ).loc KI.main_arg3)) (m ((c : Thread KI.nD KI.τ).loc KI.main_arg4)) (m ((c : Thread KI.nD KI.τ).loc KI.main_arg5)) (m ((c : Thread KI.nD KI.τ).loc KI.main_arg6)) (m ((c : Thread KI.nD KI.τ).loc KI.main_arg7)) (m ((c : Thread KI.nD KI.τ).loc KI.main_arg8)) (m ((c : Thread KI.nD KI.τ).loc KI.main_arg9)) (m ((c : Thread KI.nD KI.τ).loc KI.main_arg10)) (m ((c : Thread KI.nD KI.τ).loc KI.main_arg11)) (m ((c : Thread KI.nD KI.τ).loc KI.main_arg12)) (m ((c : Thread KI.nD KI.τ).loc KI.main_arg13)) (m ((c : Thread KI.nD KI.τ).loc KI.main_arg14)) (m ((c : Thread KI.nD KI.τ).loc KI.main_arg15)) (m ((c : Thread KI.nD KI.τ).loc KI.main_arg16)) := by
  obtain ⟨hs0, hu0, hs1, hu1, hs2, hu2, hs3, hu3⟩ := ranges_of_pre m hpre c
  rw [Cert.ReferenceIdeal.Net.stage3]
  refine (stage3 m ρ c hs3 hu3).trans ?_
  refine layers_agree (n := 800000) (Cin := 32) (Cout := 3) (M := 5600000) (N := 1600000) (by decide) (by decide)
    Cert.KernelIdeal.Facts₀.scatter_S800000x3_S5600000x1_S5600000x3_1_0_0_1_wf _ _ rfl rfl _ _ rfl
    (fun i => disTerm_nn _ _ _ _ _ _ (fun _ => Ideal.ofBits_zero_f32) (fun _ => Ideal.ofBits_zero_f32) (fun _ => Ideal.ofBits_zero_f32) (fun _ => ofBits_one) (ix1 i))
    _ _ (table2 m ρ hpre c) _ _ _ _ _ rfl _ _ rfl (fun e => col_apply _ _ e) _

end Cert.Proof.Net

end
-- ==== Proof.lean ====
import proofs.«400126_j7060926234635_3_alg».proof.Defs
import proofs.«400126_j7060926234635_3_alg».proof.Proof.Gen.Kernel
import proofs.«400126_j7060926234635_3_alg».proof.Proof.Gen.Kernel.Skeleton
import proofs.«400126_j7060926234635_3_alg».proof.Proof.Gen.Kernel.Launch
import proofs.«400126_j7060926234635_3_alg».proof.Proof.Gen.Kernel.Points
import proofs.«400126_j7060926234635_3_alg».proof.Proof.Gen.Kernel.Frame
import proofs.«400126_j7060926234635_3_alg».proof.Proof.Gen.KernelIdeal
import proofs.«400126_j7060926234635_3_alg».proof.Proof.Gen.KernelIdeal.Skeleton
import proofs.«400126_j7060926234635_3_alg».proof.Proof.Gen.KernelIdeal.Launch
import proofs.«400126_j7060926234635_3_alg».proof.Proof.Gen.KernelIdeal.Points
import proofs.«400126_j7060926234635_3_alg».proof.Proof.Gen.KernelIdeal.Frame
import proofs.«400126_j7060926234635_3_alg».proof.Proof.Gen.ReferenceIdeal
import proofs.«400126_j7060926234635_3_alg».proof.Proof.Gen.Pre_finite_inputs
import proofs.«400126_j7060926234635_3_alg».proof.Proof.RefRun
import proofs.«400126_j7060926234635_3_alg».proof.Proof.RefRead
import proofs.«400126_j7060926234635_3_alg».proof.Proof.KI.RunValue
import proofs.«400126_j7060926234635_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.PValue.run (F := Ideal) m ρ)

theorem algebraic : Cert.algebraic_KernelIdeal_ReferenceIdeal := by
  intro m ρ m' ρ' hpre hagree
  refine ⟨fun c => Cert.KernelIdeal.Gen.W32 (F := Ideal) m ρ c (Proc.devRef .tc Cert.KernelIdeal.main_v103),
    Cert.KernelIdeal.Gen.run_value (F := Ideal) m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v223_eq]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Net.table3 m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
